-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S2000x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg10 : FVec F S128x128 .f32) (main_arg11 : FVec F S128 .f32) (main_arg12 : FVec F S128x10 .f32) (main_arg13 : FVec F S10 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg12
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg13
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x10 .f32) (main_arg13 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S50000x128 .f32) (main_arg1 : IVec S640000 32) (main_arg2 : IVec S640000 32) (main_arg3 : IVec S50000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x10 .f32) (main_arg13 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_v13 main_v16
-- ==== Kernel.lean ====
abbrev S50000x128 : Shape := ⟨2, ![50000, 128]⟩
abbrev S640000 : Shape := ⟨1, ![640000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S640000x1 : Shape := ⟨2, ![640000, 1]⟩
abbrev S50000x1 : Shape := ⟨2, ![50000, 1]⟩
abbrev S640000x128 : Shape := ⟨2, ![640000, 128]⟩
abbrev S1x128 : Shape := ⟨2, ![1, 128]⟩
abbrev S1 : Shape := ⟨1, ![1]⟩
abbrev S2 : Shape := ⟨1, ![2]⟩
abbrev S512x128 : Shape := ⟨2, ![512, 128]⟩
abbrev S500x128 : Shape := ⟨2, ![500, 128]⟩
abbrev S500x10 : Shape := ⟨2, ![500, 10]⟩
abbrev S2000x128 : Shape := ⟨2, ![2000, 128]⟩
abbrev S2000x1 : Shape := ⟨2, ![2000, 1]⟩
abbrev S1x512 : Shape := ⟨2, ![1, 512]⟩
abbrev S2000x512 : Shape := ⟨2, ![2000, 512]⟩
abbrev S512 : Shape := ⟨1, ![512]⟩
abbrev S512x1 : Shape := ⟨2, ![512, 1]⟩

abbrev nBuf : Space → Nat
  | .hbm => 159
  | .vmem => 34
  | .smem => 0
  | _ => 0

abbrev hbmTy0_0 (i : Nat) : BufTy := match i % 128 with
  | 0 => ⟨S50000x128, .f32⟩
  | 1 => ⟨S640000, .i32⟩
  | 2 => ⟨S640000, .i32⟩
  | 3 => ⟨S50000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x10, .f32⟩
  | 13 => ⟨S10, .f32⟩
  | 14 => ⟨S_, .f32⟩
  | 15 => ⟨S640000, .f32⟩
  | 16 => ⟨S_, .f32⟩
  | 17 => ⟨S50000, .f32⟩
  | 18 => ⟨S640000x1, .i32⟩
  | 19 => ⟨S50000, .f32⟩
  | 20 => ⟨S_, .f32⟩
  | 21 => ⟨S50000, .f32⟩
  | 22 => ⟨S640000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .i1⟩
  | 38 => ⟨S_, .f32⟩
  | 39 => ⟨S50000, .f32⟩
  | 40 => ⟨S50000, .f32⟩
  | 41 => ⟨S50000, .f32⟩
  | 42 => ⟨S_, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S50000x128, .bf16⟩
  | 50 => ⟨S_, .i32⟩
  | 51 => ⟨S640000, .i32⟩
  | 52 => ⟨S640000, .i1⟩
  | 53 => ⟨S_, .i32⟩
  | 54 => ⟨S640000, .i32⟩
  | 55 => ⟨S640000, .i32⟩
  | 56 => ⟨S640000, .i32⟩
  | 57 => ⟨S640000x1, .i32⟩
  | 58 => ⟨S640000x128, .bf16⟩
  | 59 => ⟨S640000x128, .f32⟩
  | 60 => ⟨S_, .f32⟩
  | 61 => ⟨S50000x128, .f32⟩
  | 62 => ⟨S640000x1, .i32⟩
  | 63 => ⟨S50000x128, .f32⟩
  | 64 => ⟨S50000x1, .f32⟩
  | 65 => ⟨S50000x128, .f32⟩
  | 66 => ⟨S50000x128, .f32⟩
  | 67 => ⟨S1x128, .f32⟩
  | 68 => ⟨S50000x128, .bf16⟩
  | 69 => ⟨S50000x128, .f32⟩
  | 70 => ⟨S50000x1, .f32⟩
  | 71 => ⟨S50000x128, .f32⟩
  | 72 => ⟨S50000x128, .f32⟩
  | 73 => ⟨S50000x128, .bf16⟩
  | 74 => ⟨S_, .i32⟩
  | 75 => ⟨S640000, .i32⟩
  | 76 => ⟨S640000, .i1⟩
  | 77 => ⟨S_, .i32⟩
  | 78 => ⟨S640000, .i32⟩
  | 79 => ⟨S640000, .i32⟩
  | 80 => ⟨S640000, .i32⟩
  | 81 => ⟨S640000x1, .i32⟩
  | 82 => ⟨S640000x128, .bf16⟩
  | 83 => ⟨S640000x128, .f32⟩
  | 84 => ⟨S_, .f32⟩
  | 85 => ⟨S50000x128, .f32⟩
  | 86 => ⟨S640000x1, .i32⟩
  | 87 => ⟨S50000x128, .f32⟩
  | 88 => ⟨S50000x1, .f32⟩
  | 89 => ⟨S50000x128, .f32⟩
  | 90 => ⟨S50000x128, .f32⟩
  | 91 => ⟨S1x128, .f32⟩
  | 92 => ⟨S50000x128, .bf16⟩
  | 93 => ⟨S50000x128, .f32⟩
  | 94 => ⟨S50000x1, .f32⟩
  | 95 => ⟨S50000x128, .f32⟩
  | 96 => ⟨S50000x128, .f32⟩
  | 97 => ⟨S50000x128, .bf16⟩
  | 98 => ⟨S_, .i32⟩
  | 99 => ⟨S640000, .i32⟩
  | 100 => ⟨S640000, .i1⟩
  | 101 => ⟨S_, .i32⟩
  | 102 => ⟨S640000, .i32⟩
  | 103 => ⟨S640000, .i32⟩
  | 104 => ⟨S640000, .i32⟩
  | 105 => ⟨S640000x1, .i32⟩
  | 106 => ⟨S640000x128, .bf16⟩
  | 107 => ⟨S640000x128, .f32⟩
  | 108 => ⟨S_, .f32⟩
  | 109 => ⟨S50000x128, .f32⟩
  | 110 => ⟨S640000x1, .i32⟩
  | 111 => ⟨S50000x128, .f32⟩
  | 112 => ⟨S50000x1, .f32⟩
  | 113 => ⟨S50000x128, .f32⟩
  | 114 => ⟨S50000x128, .f32⟩
  | 115 => ⟨S1x128, .f32⟩
  | 116 => ⟨S50000x128, .bf16⟩
  | 117 => ⟨S50000x128, .f32⟩
  | 118 => ⟨S50000x1, .f32⟩
  | 119 => ⟨S50000x128, .f32⟩
  | 120 => ⟨S50000x128, .f32⟩
  | 121 => ⟨S50000x128, .bf16⟩
  | 122 => ⟨S_, .i32⟩
  | 123 => ⟨S640000, .i32⟩
  | 124 => ⟨S640000, .i1⟩
  | 125 => ⟨S_, .i32⟩
  | 126 => ⟨S640000, .i32⟩
  | 127 => ⟨S640000, .i32⟩
  | _ => ⟨S50000x128, .f32⟩

abbrev hbmTy0_1 (i : Nat) : BufTy := match i % 128 with
  | 0 => ⟨S640000, .i32⟩
  | 1 => ⟨S640000x1, .i32⟩
  | 2 => ⟨S640000x128, .bf16⟩
  | 3 => ⟨S640000x128, .f32⟩
  | 4 => ⟨S_, .f32⟩
  | 5 => ⟨S50000x128, .f32⟩
  | 6 => ⟨S640000x1, .i32⟩
  | 7 => ⟨S50000x128, .f32⟩
  | 8 => ⟨S50000x1, .f32⟩
  | 9 => ⟨S50000x128, .f32⟩
  | 10 => ⟨S50000x128, .f32⟩
  | 11 => ⟨S1x128, .f32⟩
  | 12 => ⟨S50000x128, .bf16⟩
  | 13 => ⟨S50000x1, .i32⟩
  | 14 => ⟨S_, .f32⟩
  | 15 => ⟨S128x128, .f32⟩
  | 16 => ⟨S_, .i32⟩
  | 17 => ⟨S1, .i32⟩
  | 18 => ⟨S128x128, .f32⟩
  | 19 => ⟨S_, .f32⟩
  | 20 => ⟨S1x128, .f32⟩
  | 21 => ⟨S_, .i32⟩
  | 22 => ⟨S1, .i32⟩
  | 23 => ⟨S_, .i32⟩
  | 24 => ⟨S1, .i32⟩
  | 25 => ⟨S2, .i32⟩
  | 26 => ⟨S1x128, .f32⟩
  | 27 => ⟨S512x128, .f32⟩
  | 28 => ⟨S512x128, .f32⟩
  | 29 => ⟨S500x128, .f32⟩
  | 30 => ⟨S500x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .bf16⟩
  | .local _ .vmem, ⟨5, _⟩ => ⟨S2000x128, .bf16⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .bf16⟩
  | .local _ .vmem, ⟨11, _⟩ => ⟨S2000x128, .bf16⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S2000x128, .bf16⟩
  | .local _ .vmem, ⟨17, _⟩ => ⟨S2000x128, .bf16⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S2000x128, .bf16⟩
  | .local _ .vmem, ⟨23, _⟩ => ⟨S2000x128, .bf16⟩
  | .local _ .vmem, ⟨24, _⟩ => ⟨S2000x1, .i32⟩
  | .local _ .vmem, ⟨25, _⟩ => ⟨S2000x1, .i32⟩
  | .local _ .vmem, ⟨26, _⟩ => ⟨S2000x128, .bf16⟩
  | .local _ .vmem, ⟨27, _⟩ => ⟨S2000x128, .bf16⟩
  | .local _ .vmem, ⟨28, _⟩ => ⟨S128x128, .f32⟩
  | .local _ .vmem, ⟨29, _⟩ => ⟨S1x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S1x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_cst_1 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_2 : Ref sig .tc := ⟨.hbm, 24, rfl⟩
abbrev main_call0_v7 : Ref sig .tc := ⟨.hbm, 25, rfl⟩
abbrev main_call0_v8 : Ref sig .tc := ⟨.hbm, 26, rfl⟩
abbrev main_call0_cst_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_v12 : Ref sig .tc := ⟨.hbm, 34, rfl⟩
abbrev main_call0_cst_5 : Ref sig .tc := ⟨.hbm, 35, rfl⟩
abbrev main_call0_v13 : Ref sig .tc := ⟨.hbm, 36, rfl⟩
abbrev main_call0_v14 : Ref sig .tc := ⟨.hbm, 37, rfl⟩
abbrev main_call0_cst_6 : Ref sig .tc := ⟨.hbm, 38, rfl⟩
abbrev main_call0_v15 : Ref sig .tc := ⟨.hbm, 39, rfl⟩
abbrev main_call0_v16 : Ref sig .tc := ⟨.hbm, 40, rfl⟩
abbrev main_call0_v17 : Ref sig .tc := ⟨.hbm, 41, rfl⟩
abbrev main_call0_cst_7 : Ref sig .tc := ⟨.hbm, 42, rfl⟩
abbrev main_call0_call1_v0 : Ref sig .tc := ⟨.hbm, 43, rfl⟩
abbrev main_call0_call1_v1 : Ref sig .tc := ⟨.hbm, 44, rfl⟩
abbrev main_call0_v18 : Ref sig .tc := ⟨.hbm, 45, rfl⟩
abbrev main_call0_v19 : Ref sig .tc := ⟨.hbm, 46, rfl⟩
abbrev main_call0_v20 : Ref sig .tc := ⟨.hbm, 47, rfl⟩
abbrev main_call0_v21 : Ref sig .tc := ⟨.hbm, 48, rfl⟩
abbrev main_call0_v22 : Ref sig .tc := ⟨.hbm, 49, rfl⟩
abbrev main_call0_c : Ref sig .tc := ⟨.hbm, 50, rfl⟩
abbrev main_call0_v23 : Ref sig .tc := ⟨.hbm, 51, rfl⟩
abbrev main_call0_v24 : Ref sig .tc := ⟨.hbm, 52, rfl⟩
abbrev main_call0_c_8 : Ref sig .tc := ⟨.hbm, 53, rfl⟩
abbrev main_call0_v25 : Ref sig .tc := ⟨.hbm, 54, rfl⟩
abbrev main_call0_v26 : Ref sig .tc := ⟨.hbm, 55, rfl⟩
abbrev main_call0_v27 : Ref sig .tc := ⟨.hbm, 56, rfl⟩
abbrev main_call0_v28 : Ref sig .tc := ⟨.hbm, 57, rfl⟩
abbrev main_call0_v29 : Ref sig .tc := ⟨.hbm, 58, rfl⟩
abbrev main_call0_v30 : Ref sig .tc := ⟨.hbm, 59, rfl⟩
abbrev main_call0_cst_9 : Ref sig .tc := ⟨.hbm, 60, rfl⟩
abbrev main_call0_v31 : Ref sig .tc := ⟨.hbm, 61, rfl⟩
abbrev main_call0_v32 : Ref sig .tc := ⟨.hbm, 62, rfl⟩
abbrev main_call0_v33 : Ref sig .tc := ⟨.hbm, 63, rfl⟩
abbrev main_call0_v34 : Ref sig .tc := ⟨.hbm, 64, rfl⟩
abbrev main_call0_v35 : Ref sig .tc := ⟨.hbm, 65, rfl⟩
abbrev main_call0_v36 : Ref sig .tc := ⟨.hbm, 66, rfl⟩
abbrev main_call0_v37 : Ref sig .tc := ⟨.hbm, 67, rfl⟩
abbrev main_call0_v38 : Ref sig .tc := ⟨.hbm, 68, rfl⟩
abbrev main_call0_v39 : Ref sig .tc := ⟨.hbm, 69, rfl⟩
abbrev main_call0_v40 : Ref sig .tc := ⟨.hbm, 70, rfl⟩
abbrev main_call0_v41 : Ref sig .tc := ⟨.hbm, 71, rfl⟩
abbrev main_call0_v42 : Ref sig .tc := ⟨.hbm, 72, rfl⟩
abbrev main_call0_v43 : Ref sig .tc := ⟨.hbm, 73, rfl⟩
abbrev main_call0_c_10 : Ref sig .tc := ⟨.hbm, 74, rfl⟩
abbrev main_call0_v44 : Ref sig .tc := ⟨.hbm, 75, rfl⟩
abbrev main_call0_v45 : Ref sig .tc := ⟨.hbm, 76, rfl⟩
abbrev main_call0_c_11 : Ref sig .tc := ⟨.hbm, 77, rfl⟩
abbrev main_call0_v46 : Ref sig .tc := ⟨.hbm, 78, rfl⟩
abbrev main_call0_v47 : Ref sig .tc := ⟨.hbm, 79, rfl⟩
abbrev main_call0_v48 : Ref sig .tc := ⟨.hbm, 80, rfl⟩
abbrev main_call0_v49 : Ref sig .tc := ⟨.hbm, 81, rfl⟩
abbrev main_call0_v50 : Ref sig .tc := ⟨.hbm, 82, rfl⟩
abbrev main_call0_v51 : Ref sig .tc := ⟨.hbm, 83, rfl⟩
abbrev main_call0_cst_12 : Ref sig .tc := ⟨.hbm, 84, rfl⟩
abbrev main_call0_v52 : Ref sig .tc := ⟨.hbm, 85, rfl⟩
abbrev main_call0_v53 : Ref sig .tc := ⟨.hbm, 86, rfl⟩
abbrev main_call0_v54 : Ref sig .tc := ⟨.hbm, 87, rfl⟩
abbrev main_call0_v55 : Ref sig .tc := ⟨.hbm, 88, rfl⟩
abbrev main_call0_v56 : Ref sig .tc := ⟨.hbm, 89, rfl⟩
abbrev main_call0_v57 : Ref sig .tc := ⟨.hbm, 90, rfl⟩
abbrev main_call0_v58 : Ref sig .tc := ⟨.hbm, 91, rfl⟩
abbrev main_call0_v59 : Ref sig .tc := ⟨.hbm, 92, rfl⟩
abbrev main_call0_v60 : Ref sig .tc := ⟨.hbm, 93, rfl⟩
abbrev main_call0_v61 : Ref sig .tc := ⟨.hbm, 94, rfl⟩
abbrev main_call0_v62 : Ref sig .tc := ⟨.hbm, 95, rfl⟩
abbrev main_call0_v63 : Ref sig .tc := ⟨.hbm, 96, rfl⟩
abbrev main_call0_v64 : Ref sig .tc := ⟨.hbm, 97, rfl⟩
abbrev main_call0_c_13 : Ref sig .tc := ⟨.hbm, 98, rfl⟩
abbrev main_call0_v65 : Ref sig .tc := ⟨.hbm, 99, rfl⟩
abbrev main_call0_v66 : Ref sig .tc := ⟨.hbm, 100, rfl⟩
abbrev main_call0_c_14 : Ref sig .tc := ⟨.hbm, 101, rfl⟩
abbrev main_call0_v67 : Ref sig .tc := ⟨.hbm, 102, rfl⟩
abbrev main_call0_v68 : Ref sig .tc := ⟨.hbm, 103, rfl⟩
abbrev main_call0_v69 : Ref sig .tc := ⟨.hbm, 104, rfl⟩
abbrev main_call0_v70 : Ref sig .tc := ⟨.hbm, 105, rfl⟩
abbrev main_call0_v71 : Ref sig .tc := ⟨.hbm, 106, rfl⟩
abbrev main_call0_v72 : Ref sig .tc := ⟨.hbm, 107, rfl⟩
abbrev main_call0_cst_15 : Ref sig .tc := ⟨.hbm, 108, rfl⟩
abbrev main_call0_v73 : Ref sig .tc := ⟨.hbm, 109, rfl⟩
abbrev main_call0_v74 : Ref sig .tc := ⟨.hbm, 110, rfl⟩
abbrev main_call0_v75 : Ref sig .tc := ⟨.hbm, 111, rfl⟩
abbrev main_call0_v76 : Ref sig .tc := ⟨.hbm, 112, rfl⟩
abbrev main_call0_v77 : Ref sig .tc := ⟨.hbm, 113, rfl⟩
abbrev main_call0_v78 : Ref sig .tc := ⟨.hbm, 114, rfl⟩
abbrev main_call0_v79 : Ref sig .tc := ⟨.hbm, 115, rfl⟩
abbrev main_call0_v80 : Ref sig .tc := ⟨.hbm, 116, rfl⟩
abbrev main_call0_v81 : Ref sig .tc := ⟨.hbm, 117, rfl⟩
abbrev main_call0_v82 : Ref sig .tc := ⟨.hbm, 118, rfl⟩
abbrev main_call0_v83 : Ref sig .tc := ⟨.hbm, 119, rfl⟩
abbrev main_call0_v84 : Ref sig .tc := ⟨.hbm, 120, rfl⟩
abbrev main_call0_v85 : Ref sig .tc := ⟨.hbm, 121, rfl⟩
abbrev main_call0_c_16 : Ref sig .tc := ⟨.hbm, 122, rfl⟩
abbrev main_call0_v86 : Ref sig .tc := ⟨.hbm, 123, rfl⟩
abbrev main_call0_v87 : Ref sig .tc := ⟨.hbm, 124, rfl⟩
abbrev main_call0_c_17 : Ref sig .tc := ⟨.hbm, 125, rfl⟩
abbrev main_call0_v88 : Ref sig .tc := ⟨.hbm, 126, rfl⟩
abbrev main_call0_v89 : Ref sig .tc := ⟨.hbm, 127, rfl⟩
abbrev main_call0_v90 : Ref sig .tc := ⟨.hbm, 128, rfl⟩
abbrev main_call0_v91 : Ref sig .tc := ⟨.hbm, 129, rfl⟩
abbrev main_call0_v92 : Ref sig .tc := ⟨.hbm, 130, rfl⟩
abbrev main_call0_v93 : Ref sig .tc := ⟨.hbm, 131, rfl⟩
abbrev main_call0_cst_18 : Ref sig .tc := ⟨.hbm, 132, rfl⟩
abbrev main_call0_v94 : Ref sig .tc := ⟨.hbm, 133, rfl⟩
abbrev main_call0_v95 : Ref sig .tc := ⟨.hbm, 134, rfl⟩
abbrev main_call0_v96 : Ref sig .tc := ⟨.hbm, 135, rfl⟩
abbrev main_call0_v97 : Ref sig .tc := ⟨.hbm, 136, rfl⟩
abbrev main_call0_v98 : Ref sig .tc := ⟨.hbm, 137, rfl⟩
abbrev main_call0_v99 : Ref sig .tc := ⟨.hbm, 138, rfl⟩
abbrev main_call0_v100 : Ref sig .tc := ⟨.hbm, 139, rfl⟩
abbrev main_call0_v101 : Ref sig .tc := ⟨.hbm, 140, rfl⟩
abbrev main_call0_v102 : Ref sig .tc := ⟨.hbm, 141, rfl⟩
abbrev main_call0_cst_19 : Ref sig .tc := ⟨.hbm, 142, rfl⟩
abbrev main_call0_v103 : Ref sig .tc := ⟨.hbm, 143, rfl⟩
abbrev main_call0_c_20 : Ref sig .tc := ⟨.hbm, 144, rfl⟩
abbrev main_call0_v104 : Ref sig .tc := ⟨.hbm, 145, rfl⟩
abbrev main_call0_v105 : Ref sig .tc := ⟨.hbm, 146, rfl⟩
abbrev main_call0_cst_21 : Ref sig .tc := ⟨.hbm, 147, rfl⟩
abbrev main_call0_v106 : Ref sig .tc := ⟨.hbm, 148, rfl⟩
abbrev main_call0_c_22 : Ref sig .tc := ⟨.hbm, 149, rfl⟩
abbrev main_call0_v107 : Ref sig .tc := ⟨.hbm, 150, rfl⟩
abbrev main_call0_c_23 : Ref sig .tc := ⟨.hbm, 151, rfl⟩
abbrev main_call0_v108 : Ref sig .tc := ⟨.hbm, 152, rfl⟩
abbrev main_call0_v109 : Ref sig .tc := ⟨.hbm, 153, rfl⟩
abbrev main_call0_v110 : Ref sig .tc := ⟨.hbm, 154, rfl⟩
abbrev main_call0_v111_0 : Ref sig .tc := ⟨.hbm, 155, rfl⟩
abbrev main_call0_v111_1 : Ref sig .tc := ⟨.hbm, 156, rfl⟩
abbrev main_v0_1 : Ref sig .tc := ⟨.hbm, 157, rfl⟩
abbrev main_v0_0 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_scratch0 : Ref sig .tc := ⟨.vmem, 32, rfl⟩
abbrev cc4_scratch1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem4_0 : DmaSem sig := 30
abbrev cc4_sem5_0 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v27 : BitVec 1 := Scalar.cmpi .eq arg0 c24_i32
  let v28 : BitVec 32 := Scalar.extui v27
  let c0_i32_13 : BitVec 32 := 0#32
  let v29 : BitVec 1 := Scalar.cmpi .ne v28 c0_i32_13
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  shapeCasts_S50000_S50000x1 : S50000.ShapeCasts S50000x1
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  slices_S512x128_S500x128_0_0 : S512x128.Slices ![0, 0] S500x128
  slices_S512x128_S500x10_0_0 : S512x128.Slices ![0, 0] S500x10
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  reduces_S2000x512_S512 : S2000x512.Reduces [0] S512
  shapeCasts_S512_S1x512 : S512.ShapeCasts S1x512
  transposes_S1x512_p1_0_S512x1 : S1x512.Transposes [1, 0] S512x1
  broadcasts_S512x1_S512x128 : S512x1.Broadcasts S512x128
  shapeCasts_S128x128_S128x128 : S128x128.ShapeCasts S128x128
  broadcasts_S1x128_S512x128 : S1x128.Broadcasts S512x128
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S128x128_S1_S128x10_01_n_1_0_wf : ScatterDims.WF S128x128 S1 S128x10 [0, 1] [] [1] 0
  scatter_S1x128_S2_S10_0_0_01_0_wf : ScatterDims.WF S1x128 S2 S10 [0] [0] [0, 1] 0
  dot_S2000x128_S128x128_S2000x128_1_0_0_1_n_n_wf : DotDims.WF S2000x128 S128x128 S2000x128 [1] [0] [0] [1] [] []
  dot_S2000x512_S2000x128_S512x128_0_0_1_1_n_n_wf : DotDims.WF S2000x512 S2000x128 S512x128 [0] [0] [1] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .bf16 = 32 ∨ (Rect.block (s := S50000x128) S2000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .bf16 = 32 ∨ (Rect.block (s := S50000x128) S2000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .bf16 = 32 ∨ (Rect.block (s := S50000x128) S2000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x1.size a ≤ S50000x1.size a
  hwx4_0 : ∀ i : grid4.Coords, EltTy.bits .i32 = 32 ∨ (Rect.block (s := S50000x1) S2000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .bf16 = 32 ∨ (Rect.block (s := S50000x128) S2000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x128.size a ≤ S512x128.size a
  hwx4_4 : ∀ i : grid4.Coords, EltTy.bits .f32 = 32 ∨ (Rect.block (s := S512x128) S512x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x128.size a ≤ S512x128.size a
  hwx4_5 : ∀ i : grid4.Coords, EltTy.bits .f32 = 32 ∨ (Rect.block (s := S512x128) S512x128.size (cc4_transform_5 i) (hinb4_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S128x128_S1_S128x10_01_n_1_0 : ScatterDims S128x128 S1 S128x10 where
  updateWindowDims := [0, 1]
  insertedWindowDims := []
  scatterDimsToOperandDims := [1]
  indexVectorDim := 0
  wf := scatter_S128x128_S1_S128x10_01_n_1_0_wf
def scatter_S1x128_S2_S10_0_0_01_0 : ScatterDims S1x128 S2 S10 where
  updateWindowDims := [0]
  insertedWindowDims := [0]
  scatterDimsToOperandDims := [0, 1]
  indexVectorDim := 0
  wf := scatter_S1x128_S2_S10_0_0_01_0_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_call0_v36) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v37) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v38) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v57) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v58) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v59) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v78) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v79) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v80) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v99) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v100) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v101) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_call0_v102) S2000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v101) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v105) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v110) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v111_0) S512x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_call0_v111_1) S512x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun i => !(k4_cond2 i == 1#1) | 5 => fun i => !(k4_cond2 i == 1#1) | ⟨_ + 6, h⟩ => absurd h (Nat.not_lt.2 (Nat.le_add_left _ _))

class Facts : Prop extends Facts₀ where

variable [Facts]
-- ==== ReferenceIdeal.lean ====
abbrev S50000x128 : Shape := ⟨2, ![50000, 128]⟩
abbrev S640000 : Shape := ⟨1, ![640000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S640000x1 : Shape := ⟨2, ![640000, 1]⟩
abbrev S50000x1 : Shape := ⟨2, ![50000, 1]⟩
abbrev S640000x128 : Shape := ⟨2, ![640000, 128]⟩
abbrev S1x128 : Shape := ⟨2, ![1, 128]⟩
abbrev S500x128 : Shape := ⟨2, ![500, 128]⟩
abbrev S500 : Shape := ⟨1, ![500]⟩
abbrev S500x1 : Shape := ⟨2, ![500, 1]⟩
abbrev S500x10 : Shape := ⟨2, ![500, 10]⟩
abbrev S1x10 : Shape := ⟨2, ![1, 10]⟩

abbrev nBuf : Space → Nat
  | .hbm => 170
  | .vmem => 0
  | .smem => 0
  | _ => 0

abbrev hbmTy0_0 (i : Nat) : BufTy := match i % 128 with
  | 0 => ⟨S50000x128, .f32⟩
  | 1 => ⟨S640000, .i32⟩
  | 2 => ⟨S640000, .i32⟩
  | 3 => ⟨S50000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x10, .f32⟩
  | 13 => ⟨S10, .f32⟩
  | 14 => ⟨S_, .f32⟩
  | 15 => ⟨S640000, .f32⟩
  | 16 => ⟨S_, .f32⟩
  | 17 => ⟨S50000, .f32⟩
  | 18 => ⟨S640000x1, .i32⟩
  | 19 => ⟨S50000, .f32⟩
  | 20 => ⟨S_, .f32⟩
  | 21 => ⟨S50000, .f32⟩
  | 22 => ⟨S640000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .i1⟩
  | 38 => ⟨S_, .f32⟩
  | 39 => ⟨S50000, .f32⟩
  | 40 => ⟨S50000, .f32⟩
  | 41 => ⟨S50000, .f32⟩
  | 42 => ⟨S_, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S_, .i32⟩
  | 50 => ⟨S640000, .i32⟩
  | 51 => ⟨S640000, .i1⟩
  | 52 => ⟨S_, .i32⟩
  | 53 => ⟨S640000, .i32⟩
  | 54 => ⟨S640000, .i32⟩
  | 55 => ⟨S640000, .i32⟩
  | 56 => ⟨S640000x1, .i32⟩
  | 57 => ⟨S640000x128, .f32⟩
  | 58 => ⟨S_, .f32⟩
  | 59 => ⟨S50000x128, .f32⟩
  | 60 => ⟨S640000x1, .i32⟩
  | 61 => ⟨S50000x128, .f32⟩
  | 62 => ⟨S50000x1, .f32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x1, .f32⟩
  | 73 => ⟨S50000x128, .f32⟩
  | 74 => ⟨S50000x128, .f32⟩
  | 75 => ⟨S_, .i32⟩
  | 76 => ⟨S640000, .i32⟩
  | 77 => ⟨S640000, .i1⟩
  | 78 => ⟨S_, .i32⟩
  | 79 => ⟨S640000, .i32⟩
  | 80 => ⟨S640000, .i32⟩
  | 81 => ⟨S640000, .i32⟩
  | 82 => ⟨S640000x1, .i32⟩
  | 83 => ⟨S640000x128, .f32⟩
  | 84 => ⟨S_, .f32⟩
  | 85 => ⟨S50000x128, .f32⟩
  | 86 => ⟨S640000x1, .i32⟩
  | 87 => ⟨S50000x128, .f32⟩
  | 88 => ⟨S50000x1, .f32⟩
  | 89 => ⟨S50000x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x1, .f32⟩
  | 99 => ⟨S50000x128, .f32⟩
  | 100 => ⟨S50000x128, .f32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000x128, .f32⟩
  | 110 => ⟨S_, .f32⟩
  | 111 => ⟨S50000x128, .f32⟩
  | 112 => ⟨S640000x1, .i32⟩
  | 113 => ⟨S50000x128, .f32⟩
  | 114 => ⟨S50000x1, .f32⟩
  | 115 => ⟨S50000x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x1, .f32⟩
  | 125 => ⟨S50000x128, .f32⟩
  | 126 => ⟨S50000x128, .f32⟩
  | 127 => ⟨S_, .i32⟩
  | _ => ⟨S50000x128, .f32⟩

abbrev hbmTy0_1 (i : Nat) : BufTy := match i % 128 with
  | 0 => ⟨S640000, .i32⟩
  | 1 => ⟨S640000, .i1⟩
  | 2 => ⟨S_, .i32⟩
  | 3 => ⟨S640000, .i32⟩
  | 4 => ⟨S640000, .i32⟩
  | 5 => ⟨S640000, .i32⟩
  | 6 => ⟨S640000x1, .i32⟩
  | 7 => ⟨S640000x128, .f32⟩
  | 8 => ⟨S_, .f32⟩
  | 9 => ⟨S50000x128, .f32⟩
  | 10 => ⟨S640000x1, .i32⟩
  | 11 => ⟨S50000x128, .f32⟩
  | 12 => ⟨S50000x1, .f32⟩
  | 13 => ⟨S50000x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S_, .f32⟩
  | 23 => ⟨S500x128, .f32⟩
  | 24 => ⟨S50000x1, .i32⟩
  | 25 => ⟨S500x128, .f32⟩
  | 26 => ⟨S_, .f32⟩
  | 27 => ⟨S50000, .f32⟩
  | 28 => ⟨S_, .f32⟩
  | 29 => ⟨S500, .f32⟩
  | 30 => ⟨S50000x1, .i32⟩
  | 31 => ⟨S500, .f32⟩
  | 32 => ⟨S_, .f32⟩
  | 33 => ⟨S500, .f32⟩
  | 34 => ⟨S500, .f32⟩
  | 35 => ⟨S500x1, .f32⟩
  | 36 => ⟨S500x128, .f32⟩
  | 37 => ⟨S500x128, .f32⟩
  | 38 => ⟨S500x10, .f32⟩
  | 39 => ⟨S1x10, .f32⟩
  | 40 => ⟨S500x10, .f32⟩
  | 41 => ⟨S500x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v12 : Ref sig .tc := ⟨.hbm, 34, rfl⟩
abbrev main_cst_5 : Ref sig .tc := ⟨.hbm, 35, rfl⟩
abbrev main_v13 : Ref sig .tc := ⟨.hbm, 36, rfl⟩
abbrev main_v14 : Ref sig .tc := ⟨.hbm, 37, rfl⟩
abbrev main_cst_6 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_7 : Ref sig .tc := ⟨.hbm, 42, rfl⟩
abbrev main_call1_v0 : Ref sig .tc := ⟨.hbm, 43, rfl⟩
abbrev main_call1_v1 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c : Ref sig .tc := ⟨.hbm, 49, rfl⟩
abbrev main_v22 : Ref sig .tc := ⟨.hbm, 50, rfl⟩
abbrev main_v23 : Ref sig .tc := ⟨.hbm, 51, rfl⟩
abbrev main_c_8 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_9 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_call2_cst : Ref sig .tc := ⟨.hbm, 69, rfl⟩
abbrev main_call2_v0 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_10 : Ref sig .tc := ⟨.hbm, 75, rfl⟩
abbrev main_v43 : Ref sig .tc := ⟨.hbm, 76, rfl⟩
abbrev main_v44 : Ref sig .tc := ⟨.hbm, 77, rfl⟩
abbrev main_c_11 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_12 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_call3_cst : Ref sig .tc := ⟨.hbm, 95, rfl⟩
abbrev main_call3_v0 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_13 : Ref sig .tc := ⟨.hbm, 101, rfl⟩
abbrev main_v64 : Ref sig .tc := ⟨.hbm, 102, rfl⟩
abbrev main_v65 : Ref sig .tc := ⟨.hbm, 103, rfl⟩
abbrev main_c_14 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_15 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_call4_cst : Ref sig .tc := ⟨.hbm, 121, rfl⟩
abbrev main_call4_v0 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_c_16 : Ref sig .tc := ⟨.hbm, 127, rfl⟩
abbrev main_v85 : Ref sig .tc := ⟨.hbm, 128, rfl⟩
abbrev main_v86 : Ref sig .tc := ⟨.hbm, 129, rfl⟩
abbrev main_c_17 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_18 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_call5_cst : Ref sig .tc := ⟨.hbm, 147, rfl⟩
abbrev main_call5_v0 : Ref sig .tc := ⟨.hbm, 148, rfl⟩
abbrev main_v102 : Ref sig .tc := ⟨.hbm, 149, rfl⟩
abbrev main_cst_19 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_20 : Ref sig .tc := ⟨.hbm, 154, rfl⟩
abbrev main_v106 : Ref sig .tc := ⟨.hbm, 155, rfl⟩
abbrev main_cst_21 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_22 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S500x128 : S_.BroadcastsInDim S500x128 (![] : Fin 0 → Fin S500x128.rank)
  bcast_S_S500 : S_.BroadcastsInDim S500 (![] : Fin 0 → Fin S500.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []
  scatter_S500x128_S50000x1_S50000x128_1_0_0_1_wf : ScatterDims.WF S500x128 S50000x1 S50000x128 [1] [0] [0] 1
  scatter_S500_S50000x1_S50000_n_0_0_1_wf : ScatterDims.WF S500 S50000x1 S50000 [] [0] [0] 1
  dot_S500x128_S128x10_S500x10_1_0_0_1_n_n_wf : DotDims.WF S500x128 S128x10 S500x10 [1] [0] [0] [1] [] []

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x128_S128x10_S500x10_1_0_0_1_n_n : DotDims S500x128 S128x10 S500x10 where
  lhsContracting := [1]
  rhsContracting := [0]
  lhsNonContracting := [0]
  rhsNonContracting := [1]
  lhsBatch := []
  rhsBatch := []
  wf := dot_S500x128_S128x10_S500x10_1_0_0_1_n_n_wf

class Facts : Prop extends Facts₀ where

variable [Facts]
-- ==== Proof.KB.LinCore.lean ====
import proofs.«422796_j77979426226619_2_alg».proof.Proof.Gen.Kernel.Launch
import proofs.«422796_j77979426226619_2_alg».proof.Proof.Gen.Kernel.Skeleton
import proofs.«422796_j77979426226619_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rX : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

def lin_out (x0 : Vec F S2000x128 .f32) (x1 : Vec F S128x128 .f32) (x2 : Vec F S1x128 .f32) : Vec F S2000x128 .bf16 :=
  View.canon [⟨rX, k0_pay1 (View.ld x0 rX) (View.ld x1 rW) (View.ld x2 rB)⟩]

theorem lin_cover (p0 : Vec F S2000x128 .bf16) (y : S2000x128.Idx) :
    ∃ pc ∈ ([⟨rX, p0⟩] : List (View.Piece (Elt F) S2000x128 .bf16)), y ∈ pc.1.set :=
  View.cover_of_tiled [⟨rX, p0⟩] S2000x128.size (by rfl) y

set_option maxHeartbeats 1000000 in
/-- The four dense layers run one kernel under four names: its run is stated for any `k` equal to the first. -/
theorem lin_kernel
    (k : (i : grid0.Coords) → (arg1 : Memref sig .tc .vmem S2000x128 .f32) → arg1.IsWhole → (arg2 : Memref sig .tc .vmem S128x128 .f32) → arg2.IsWhole →
      (arg3 : Memref sig .tc .vmem S1x128 .f32) → arg3.IsWhole → (arg4 : Memref sig .tc .vmem S2000x128 .bf16) → arg4.IsWhole → Prog (TpuEff nD τ sig (Elt F) Λ₀ .tc) PUnit)
    (hk : k = cc0__linear_relu_kernel (F := F))
    (c : Dev nD) (E : Set ℕ) (i : grid0.Coords) (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .bf16) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (lin_out x0 x1 x2)) -∗ K ⟨⟩))
      ⊢ wp frame (wpE (defs₀ (F := F)) Variants.none c none) E (k i arg1 harg1 arg2 harg2 arg3 harg3 arg4 harg4) K := by
  subst hk
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (lin_cover _)

end Cert.Kernel.Hand

end
-- ==== Proof.KB.Lin0.lean ====
import proofs.«422796_j77979426226619_2_alg».proof.Proof.KB.LinCore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def lin0_dat (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => lin_out (iblk0 V c 0 t) (iblk0 V c 1 t) (iblk0 V c 2 t)
  Φ _ := Pipeline.ΦA spec0 c
  q _ := fullShare
  owed _ := 0

theorem lin0_A (c : Dev nD) (w : Fin cfg0.W) : (lin0_dat V c).A w = V c (Pipeline.arrRef spec0 w) := rfl

theorem lin0_after_3 (c : Dev nD) (t : Fin cfg0.N) :
    (lin0_dat V c).after 3 t = lin_out (iblk0 V c 0 t) (iblk0 V c 1 t) (iblk0 V c 2 t) := by dsimp only [lin0_dat]

theorem lin0_before_0 (c : Dev nD) (t : Fin cfg0.N) (d) : (lin0_dat V c).before 0 t d = iblk0 V c 0 t :=
  ((lin0_dat V c).before_in_eq_fetched 0 rfl (fun _ => rfl) (fun _ _ _ => rfl) (fun _ => rfl) t d).trans rfl
theorem lin0_before_1 (c : Dev nD) (t : Fin cfg0.N) (d) : (lin0_dat V c).before 1 t d = iblk0 V c 1 t :=
  ((lin0_dat V c).before_in_eq_fetched 1 rfl (fun _ => rfl) (fun _ _ _ => rfl) (fun _ => rfl) t d).trans rfl
theorem lin0_before_2 (c : Dev nD) (t : Fin cfg0.N) (d) : (lin0_dat V c).before 2 t d = iblk0 V c 2 t :=
  ((lin0_dat V c).before_in_eq_fetched 2 rfl (fun _ => rfl) (fun _ _ _ => rfl) (fun _ => rfl) t d).trans rfl

def lin0_pre (c : Dev nD) (t : Fin cfg0.N) : sProp 𝕄 :=
  iprop((lin0_dat V c).Φ t.castSucc ∗ (lin0_dat V c).owesAt () t.castSucc
    ∗ (∃ d, owns (c : Thread nD τ) (st0_0 t) fullShare ((lin0_dat V c).before 0 t d))
    ∗ (∃ d, owns (c : Thread nD τ) (st0_1 t) fullShare ((lin0_dat V c).before 1 t d))
    ∗ (∃ d, owns (c : Thread nD τ) (st0_2 t) fullShare ((lin0_dat V c).before 2 t d))
    ∗ (∃ d, owns (c : Thread nD τ) (st0_3 t) fullShare ((lin0_dat V c).before 3 t d)))

def lin0_post (c : Dev nD) (t : Fin cfg0.N) : sProp 𝕄 :=
  iprop((lin0_dat V c).Φ t.succ ∗ (lin0_dat V c).owesAt () t.succ
    ∗ owns (c : Thread nD τ) (st0_0 t) fullShare ((lin0_dat V c).after 0 t)
    ∗ owns (c : Thread nD τ) (st0_1 t) fullShare ((lin0_dat V c).after 1 t)
    ∗ owns (c : Thread nD τ) (st0_2 t) fullShare ((lin0_dat V c).after 2 t)
    ∗ owns (c : Thread nD τ) (st0_3 t) fullShare ((lin0_dat V c).after 3 t))

theorem lin0_body (c : Dev nD) (t : Fin cfg0.N) :
    lin0_pre V c t ⊢ wp frame (wpE (defs₀ (F := F)) Variants.none c none) Set.univ (bodyAt0 t) (fun _ => lin0_post V c t) := by
  unfold lin0_pre lin0_post bodyAt0
  simp only [lin0_before_0, lin0_before_1, lin0_before_2]
  rw [show (lin0_dat V c).Φ t.succ = (lin0_dat V c).Φ t.castSucc from rfl,
    show (lin0_dat V c).owesAt () t.succ = (lin0_dat V c).owesAt () t.castSucc from rfl,
    show (lin0_dat V c).after 0 t = iblk0 V c 0 t from rfl, show (lin0_dat V c).after 1 t = iblk0 V c 1 t from rfl,
    show (lin0_dat V c).after 2 t = iblk0 V c 2 t from rfl, lin0_after_3]
  iintro ⟨HΦ, Ho, ⟨%d0, H0⟩, ⟨%d1, H1⟩, ⟨%d2, H2⟩, ⟨%d3, H3⟩⟩
  iapply (lin_kernel cc0__linear_relu_kernel rfl c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem lin0_obligation (c : Dev nD) : BodyObligation (lin0_dat (F := F) V c) (defs₀ (F := F)) Variants.none () Set.univ := fun t => by
  rw [bigSep_W0, bigSep_W0]
  exact lin0_body V c t

end Cert.Kernel.Hand

end
-- ==== Proof.KB.Lin1.lean ====
import proofs.«422796_j77979426226619_2_alg».proof.Proof.KB.LinCore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def lin1_dat (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => lin_out (iblk1 V c 0 t) (iblk1 V c 1 t) (iblk1 V c 2 t)
  Φ _ := Pipeline.ΦA spec1 c
  q _ := fullShare
  owed _ := 0

theorem lin1_A (c : Dev nD) (w : Fin cfg1.W) : (lin1_dat V c).A w = V c (Pipeline.arrRef spec1 w) := rfl

theorem lin1_after_3 (c : Dev nD) (t : Fin cfg1.N) :
    (lin1_dat V c).after 3 t = lin_out (iblk1 V c 0 t) (iblk1 V c 1 t) (iblk1 V c 2 t) := by dsimp only [lin1_dat]

theorem lin1_before_0 (c : Dev nD) (t : Fin cfg1.N) (d) : (lin1_dat V c).before 0 t d = iblk1 V c 0 t :=
  ((lin1_dat V c).before_in_eq_fetched 0 rfl (fun _ => rfl) (fun _ _ _ => rfl) (fun _ => rfl) t d).trans rfl
theorem lin1_before_1 (c : Dev nD) (t : Fin cfg1.N) (d) : (lin1_dat V c).before 1 t d = iblk1 V c 1 t :=
  ((lin1_dat V c).before_in_eq_fetched 1 rfl (fun _ => rfl) (fun _ _ _ => rfl) (fun _ => rfl) t d).trans rfl
theorem lin1_before_2 (c : Dev nD) (t : Fin cfg1.N) (d) : (lin1_dat V c).before 2 t d = iblk1 V c 2 t :=
  ((lin1_dat V c).before_in_eq_fetched 2 rfl (fun _ => rfl) (fun _ _ _ => rfl) (fun _ => rfl) t d).trans rfl

def lin1_pre (c : Dev nD) (t : Fin cfg1.N) : sProp 𝕄 :=
  iprop((lin1_dat V c).Φ t.castSucc ∗ (lin1_dat V c).owesAt () t.castSucc
    ∗ (∃ d, owns (c : Thread nD τ) (st1_0 t) fullShare ((lin1_dat V c).before 0 t d))
    ∗ (∃ d, owns (c : Thread nD τ) (st1_1 t) fullShare ((lin1_dat V c).before 1 t d))
    ∗ (∃ d, owns (c : Thread nD τ) (st1_2 t) fullShare ((lin1_dat V c).before 2 t d))
    ∗ (∃ d, owns (c : Thread nD τ) (st1_3 t) fullShare ((lin1_dat V c).before 3 t d)))

def lin1_post (c : Dev nD) (t : Fin cfg1.N) : sProp 𝕄 :=
  iprop((lin1_dat V c).Φ t.succ ∗ (lin1_dat V c).owesAt () t.succ
    ∗ owns (c : Thread nD τ) (st1_0 t) fullShare ((lin1_dat V c).after 0 t)
    ∗ owns (c : Thread nD τ) (st1_1 t) fullShare ((lin1_dat V c).after 1 t)
    ∗ owns (c : Thread nD τ) (st1_2 t) fullShare ((lin1_dat V c).after 2 t)
    ∗ owns (c : Thread nD τ) (st1_3 t) fullShare ((lin1_dat V c).after 3 t))

theorem lin1_body (c : Dev nD) (t : Fin cfg1.N) :
    lin1_pre V c t ⊢ wp frame (wpE (defs₀ (F := F)) Variants.none c none) Set.univ (bodyAt1 t) (fun _ => lin1_post V c t) := by
  unfold lin1_pre lin1_post bodyAt1
  simp only [lin1_before_0, lin1_before_1, lin1_before_2]
  rw [show (lin1_dat V c).Φ t.succ = (lin1_dat V c).Φ t.castSucc from rfl,
    show (lin1_dat V c).owesAt () t.succ = (lin1_dat V c).owesAt () t.castSucc from rfl,
    show (lin1_dat V c).after 0 t = iblk1 V c 0 t from rfl, show (lin1_dat V c).after 1 t = iblk1 V c 1 t from rfl,
    show (lin1_dat V c).after 2 t = iblk1 V c 2 t from rfl, lin1_after_3]
  iintro ⟨HΦ, Ho, ⟨%d0, H0⟩, ⟨%d1, H1⟩, ⟨%d2, H2⟩, ⟨%d3, H3⟩⟩
  iapply (lin_kernel cc1__linear_relu_kernel rfl c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem lin1_obligation (c : Dev nD) : BodyObligation (lin1_dat (F := F) V c) (defs₀ (F := F)) Variants.none () Set.univ := fun t => by
  rw [bigSep_W1, bigSep_W1]
  exact lin1_body V c t

end Cert.Kernel.Hand

end
-- ==== Proof.KB.Lin2.lean ====
import proofs.«422796_j77979426226619_2_alg».proof.Proof.KB.LinCore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def lin2_dat (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => lin_out (iblk2 V c 0 t) (iblk2 V c 1 t) (iblk2 V c 2 t)
  Φ _ := Pipeline.ΦA spec2 c
  q _ := fullShare
  owed _ := 0

theorem lin2_A (c : Dev nD) (w : Fin cfg2.W) : (lin2_dat V c).A w = V c (Pipeline.arrRef spec2 w) := rfl

theorem lin2_after_3 (c : Dev nD) (t : Fin cfg2.N) :
    (lin2_dat V c).after 3 t = lin_out (iblk2 V c 0 t) (iblk2 V c 1 t) (iblk2 V c 2 t) := by dsimp only [lin2_dat]

theorem lin2_before_0 (c : Dev nD) (t : Fin cfg2.N) (d) : (lin2_dat V c).before 0 t d = iblk2 V c 0 t :=
  ((lin2_dat V c).before_in_eq_fetched 0 rfl (fun _ => rfl) (fun _ _ _ => rfl) (fun _ => rfl) t d).trans rfl
theorem lin2_before_1 (c : Dev nD) (t : Fin cfg2.N) (d) : (lin2_dat V c).before 1 t d = iblk2 V c 1 t :=
  ((lin2_dat V c).before_in_eq_fetched 1 rfl (fun _ => rfl) (fun _ _ _ => rfl) (fun _ => rfl) t d).trans rfl
theorem lin2_before_2 (c : Dev nD) (t : Fin cfg2.N) (d) : (lin2_dat V c).before 2 t d = iblk2 V c 2 t :=
  ((lin2_dat V c).before_in_eq_fetched 2 rfl (fun _ => rfl) (fun _ _ _ => rfl) (fun _ => rfl) t d).trans rfl

def lin2_pre (c : Dev nD) (t : Fin cfg2.N) : sProp 𝕄 :=
  iprop((lin2_dat V c).Φ t.castSucc ∗ (lin2_dat V c).owesAt () t.castSucc
    ∗ (∃ d, owns (c : Thread nD τ) (st2_0 t) fullShare ((lin2_dat V c).before 0 t d))
    ∗ (∃ d, owns (c : Thread nD τ) (st2_1 t) fullShare ((lin2_dat V c).before 1 t d))
    ∗ (∃ d, owns (c : Thread nD τ) (st2_2 t) fullShare ((lin2_dat V c).before 2 t d))
    ∗ (∃ d, owns (c : Thread nD τ) (st2_3 t) fullShare ((lin2_dat V c).before 3 t d)))

def lin2_post (c : Dev nD) (t : Fin cfg2.N) : sProp 𝕄 :=
  iprop((lin2_dat V c).Φ t.succ ∗ (lin2_dat V c).owesAt () t.succ
    ∗ owns (c : Thread nD τ) (st2_0 t) fullShare ((lin2_dat V c).after 0 t)
    ∗ owns (c : Thread nD τ) (st2_1 t) fullShare ((lin2_dat V c).after 1 t)
    ∗ owns (c : Thread nD τ) (st2_2 t) fullShare ((lin2_dat V c).after 2 t)
    ∗ owns (c : Thread nD τ) (st2_3 t) fullShare ((lin2_dat V c).after 3 t))

theorem lin2_body (c : Dev nD) (t : Fin cfg2.N) :
    lin2_pre V c t ⊢ wp frame (wpE (defs₀ (F := F)) Variants.none c none) Set.univ (bodyAt2 t) (fun _ => lin2_post V c t) := by
  unfold lin2_pre lin2_post bodyAt2
  simp only [lin2_before_0, lin2_before_1, lin2_before_2]
  rw [show (lin2_dat V c).Φ t.succ = (lin2_dat V c).Φ t.castSucc from rfl,
    show (lin2_dat V c).owesAt () t.succ = (lin2_dat V c).owesAt () t.castSucc from rfl,
    show (lin2_dat V c).after 0 t = iblk2 V c 0 t from rfl, show (lin2_dat V c).after 1 t = iblk2 V c 1 t from rfl,
    show (lin2_dat V c).after 2 t = iblk2 V c 2 t from rfl, lin2_after_3]
  iintro ⟨HΦ, Ho, ⟨%d0, H0⟩, ⟨%d1, H1⟩, ⟨%d2, H2⟩, ⟨%d3, H3⟩⟩
  iapply (lin_kernel cc2__linear_relu_kernel rfl c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem lin2_obligation (c : Dev nD) : BodyObligation (lin2_dat (F := F) V c) (defs₀ (F := F)) Variants.none () Set.univ := fun t => by
  rw [bigSep_W2, bigSep_W2]
  exact lin2_body V c t

end Cert.Kernel.Hand

end
-- ==== Proof.KB.Lin3.lean ====
import proofs.«422796_j77979426226619_2_alg».proof.Proof.KB.LinCore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def lin3_dat (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => lin_out (iblk3 V c 0 t) (iblk3 V c 1 t) (iblk3 V c 2 t)
  Φ _ := Pipeline.ΦA spec3 c
  q _ := fullShare
  owed _ := 0

theorem lin3_A (c : Dev nD) (w : Fin cfg3.W) : (lin3_dat V c).A w = V c (Pipeline.arrRef spec3 w) := rfl

theorem lin3_after_3 (c : Dev nD) (t : Fin cfg3.N) :
    (lin3_dat V c).after 3 t = lin_out (iblk3 V c 0 t) (iblk3 V c 1 t) (iblk3 V c 2 t) := by dsimp only [lin3_dat]

theorem lin3_before_0 (c : Dev nD) (t : Fin cfg3.N) (d) : (lin3_dat V c).before 0 t d = iblk3 V c 0 t :=
  ((lin3_dat V c).before_in_eq_fetched 0 rfl (fun _ => rfl) (fun _ _ _ => rfl) (fun _ => rfl) t d).trans rfl
theorem lin3_before_1 (c : Dev nD) (t : Fin cfg3.N) (d) : (lin3_dat V c).before 1 t d = iblk3 V c 1 t :=
  ((lin3_dat V c).before_in_eq_fetched 1 rfl (fun _ => rfl) (fun _ _ _ => rfl) (fun _ => rfl) t d).trans rfl
theorem lin3_before_2 (c : Dev nD) (t : Fin cfg3.N) (d) : (lin3_dat V c).before 2 t d = iblk3 V c 2 t :=
  ((lin3_dat V c).before_in_eq_fetched 2 rfl (fun _ => rfl) (fun _ _ _ => rfl) (fun _ => rfl) t d).trans rfl

def lin3_pre (c : Dev nD) (t : Fin cfg3.N) : sProp 𝕄 :=
  iprop((lin3_dat V c).Φ t.castSucc ∗ (lin3_dat V c).owesAt () t.castSucc
    ∗ (∃ d, owns (c : Thread nD τ) (st3_0 t) fullShare ((lin3_dat V c).before 0 t d))
    ∗ (∃ d, owns (c : Thread nD τ) (st3_1 t) fullShare ((lin3_dat V c).before 1 t d))
    ∗ (∃ d, owns (c : Thread nD τ) (st3_2 t) fullShare ((lin3_dat V c).before 2 t d))
    ∗ (∃ d, owns (c : Thread nD τ) (st3_3 t) fullShare ((lin3_dat V c).before 3 t d)))

def lin3_post (c : Dev nD) (t : Fin cfg3.N) : sProp 𝕄 :=
  iprop((lin3_dat V c).Φ t.succ ∗ (lin3_dat V c).owesAt () t.succ
    ∗ owns (c : Thread nD τ) (st3_0 t) fullShare ((lin3_dat V c).after 0 t)
    ∗ owns (c : Thread nD τ) (st3_1 t) fullShare ((lin3_dat V c).after 1 t)
    ∗ owns (c : Thread nD τ) (st3_2 t) fullShare ((lin3_dat V c).after 2 t)
    ∗ owns (c : Thread nD τ) (st3_3 t) fullShare ((lin3_dat V c).after 3 t))

theorem lin3_body (c : Dev nD) (t : Fin cfg3.N) :
    lin3_pre V c t ⊢ wp frame (wpE (defs₀ (F := F)) Variants.none c none) Set.univ (bodyAt3 t) (fun _ => lin3_post V c t) := by
  unfold lin3_pre lin3_post bodyAt3
  simp only [lin3_before_0, lin3_before_1, lin3_before_2]
  rw [show (lin3_dat V c).Φ t.succ = (lin3_dat V c).Φ t.castSucc from rfl,
    show (lin3_dat V c).owesAt () t.succ = (lin3_dat V c).owesAt () t.castSucc from rfl,
    show (lin3_dat V c).after 0 t = iblk3 V c 0 t from rfl, show (lin3_dat V c).after 1 t = iblk3 V c 1 t from rfl,
    show (lin3_dat V c).after 2 t = iblk3 V c 2 t from rfl, lin3_after_3]
  iintro ⟨HΦ, Ho, ⟨%d0, H0⟩, ⟨%d1, H1⟩, ⟨%d2, H2⟩, ⟨%d3, H3⟩⟩
  iapply (lin_kernel cc3__linear_relu_kernel rfl c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem lin3_obligation (c : Dev nD) : BodyObligation (lin3_dat (F := F) V c) (defs₀ (F := F)) Variants.none () Set.univ := fun t => by
  rw [bigSep_W3, bigSep_W3]
  exact lin3_body V c t

end Cert.Kernel.Hand

end
-- ==== Proof.KB.Pool.lean ====
import proofs.«422796_j77979426226619_2_alg».proof.Proof.Gen.Kernel.Launch
import proofs.«422796_j77979426226619_2_alg».proof.Proof.Gen.Kernel.Skeleton
import proofs.«422796_j77979426226619_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop :=
  (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
abbrev cond4_1 (i : grid4.Coords) : Prop := k4_cond2 i = 1#1
theorem hcond4_1 : ∀ t : Fin cfg4.N, cond4_1 (grid4.coords t) ↔ t.val = 24 :=
  (by decide +kernel : ∀ t : Fin grid4.N, cond4_1 (grid4.coords t) ↔ t.val = 24)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem idleAt4_4 : ∀ t : Fin cfg4.N, ¬cond4_1 (grid4.coords t) → cfg4.idle 4 (grid4.coords t) = true := by decide +kernel
theorem idleAt4_5 : ∀ t : Fin cfg4.N, ¬cond4_1 (grid4.coords t) → cfg4.idle 5 (grid4.coords t) = true := by decide +kernel
theorem noFlush4_4 : ∀ t : Fin cfg4.N, ¬cond4_1 (grid4.coords t) → (cfg4.win 4).flush t = false := by decide +kernel
theorem noFlush4_5 : ∀ t : Fin cfg4.N, ¬cond4_1 (grid4.coords t) → (cfg4.win 5).flush t = false := by decide +kernel
theorem liveAt4_4 : ∀ t : Fin cfg4.N, cond4_1 (grid4.coords t) → cfg4.idle 4 (grid4.coords t) = false := by decide +kernel
theorem liveAt4_5 : ∀ t : Fin cfg4.N, cond4_1 (grid4.coords t) → cfg4.idle 5 (grid4.coords t) = false := by decide +kernel

theorem hz4 : (![0, 0] : Fin 2 → ℕ) = fun _ => 0 := funext fun a => by fin_cases a <;> rfl

theorem read_writes_cons_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (p : S.Idx → Elt F e) (L : List (View.Piece (Elt F) S e)) :
    v.read (Elt F) (v.writes (Elt F) f ((⟨Rect.unit off S.size inb, p⟩ : View.Piece (Elt F) S e) :: L)) = p :=
  (View.read_writes_eq_canon v f _ (fun y => ⟨_, List.mem_cons_self, View.mem_set_unit_zero h inb y⟩)).trans
    (View.canon_cons_unit_zero h inb p L)

theorem readAt_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f :=
  View.ld_unit_zero h inb _

set_option maxHeartbeats 1000000 in
theorem pool_run_A (c : Dev nD) (E : Set ℕ) (i : grid4.Coords)
    (arg1 : Memref sig .tc .vmem S2000x1 .i32) (harg1 : arg1.IsWhole) (arg2 : Memref sig .tc .vmem S2000x128 .bf16) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S512x128 .f32) (harg7 : arg7.IsWhole) (arg8 : Memref sig .tc .vmem S1x512 .f32) (harg8 : arg8.IsWhole)
    (hc0 : cond4_0 i) (hc1 : ¬cond4_1 i)
    (x0 : Vec F S2000x1 .i32) (x1 : Vec F S2000x128 .bf16) (K : PUnit → sProp 𝕄) :
    iprop(owns (c : Thread nD τ) arg1 fullShare x0 ∗ owns (c : Thread nD τ) arg2 fullShare x1
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg7 fullShare (k4_pay4 x0 x1 k4_pay1) ∗ owns (c : Thread nD τ) arg8 fullShare (k4_pay5 x0 k4_pay2)) -∗ K ⟨⟩))
      ⊢ wp frame (wpE (defs₀ (F := F)) Variants.none c none) E
          (cc4__pool_classify_kernel i arg1 harg1 arg2 harg2 arg3 harg3 arg4 harg4 arg5 harg5 arg6 harg6 arg7 harg7 arg8 harg8) K := by
  simp only [cc4__pool_classify_kernel_eq_skeleton]; unfold cc4__pool_classify_kernel_skel
  unfold owns
  iintro ⟨⟨%f0, %hf0, H0⟩, ⟨%f1, %hf1, H1⟩, ⟨%ds0, %fs0, -, HS0⟩, ⟨%ds1, %fs1, -, HS1⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    sl_unfold_words
    refine (read_writes_cons_whole _ _ hz4 _ _ _).trans ?_
    rw [View.readCov_cons_toLoadRect, readAt_whole _ _ hz4, readAt_whole _ _ hz4]
  iexists _; isplitr
  swap; · iexact HS1
  ipureintro
  sl_unfold_words
  refine (read_writes_cons_whole _ _ hz4 _ _ _).trans ?_
  rw [View.readCov_cons_toLoadRect, readAt_whole _ _ hz4]

set_option maxHeartbeats 1000000 in
theorem pool_run_B (c : Dev nD) (E : Set ℕ) (i : grid4.Coords)
    (arg1 : Memref sig .tc .vmem S2000x1 .i32) (harg1 : arg1.IsWhole) (arg2 : Memref sig .tc .vmem S2000x128 .bf16) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S512x128 .f32) (harg7 : arg7.IsWhole) (arg8 : Memref sig .tc .vmem S1x512 .f32) (harg8 : arg8.IsWhole)
    (hc0 : ¬cond4_0 i) (hc1 : ¬cond4_1 i)
    (x0 : Vec F S2000x1 .i32) (x1 : Vec F S2000x128 .bf16) (s0 : Vec F S512x128 .f32) (s1 : Vec F S1x512 .f32) (K : PUnit → sProp 𝕄) :
    iprop(owns (c : Thread nD τ) arg1 fullShare x0 ∗ owns (c : Thread nD τ) arg2 fullShare x1
        ∗ owns (c : Thread nD τ) arg7 fullShare s0 ∗ owns (c : Thread nD τ) arg8 fullShare s1
        ∗ (iprop(owns (c : Thread nD τ) arg1 fullShare x0 ∗ owns (c : Thread nD τ) arg2 fullShare x1
            ∗ owns (c : Thread nD τ) arg7 fullShare (k4_pay4 x0 x1 s0) ∗ owns (c : Thread nD τ) arg8 fullShare (k4_pay5 x0 s1)) -∗ K ⟨⟩))
      ⊢ wp frame (wpE (defs₀ (F := F)) Variants.none c none) E
          (cc4__pool_classify_kernel i arg1 harg1 arg2 harg2 arg3 harg3 arg4 harg4 arg5 harg5 arg6 harg6 arg7 harg7 arg8 harg8) K := by
  simp only [cc4__pool_classify_kernel_eq_skeleton]; unfold cc4__pool_classify_kernel_skel
  unfold owns
  iintro ⟨⟨%f0, %hf0, H0⟩, ⟨%f1, %hf1, H1⟩, ⟨%fs0, %hfs0, HS0⟩, ⟨%fs1, %hfs1, HS1⟩, Hk⟩
  subst hf0; subst hf1; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    refine (read_writes_cons_whole _ _ hz4 _ _ _).trans ?_
    rw [readAt_whole _ _ hz4, readAt_whole _ _ hz4, readAt_whole _ _ hz4]
  iexists _; isplitr
  swap; · iexact HS1
  ipureintro
  refine (read_writes_cons_whole _ _ hz4 _ _ _).trans ?_
  rw [readAt_whole _ _ hz4, readAt_whole _ _ hz4]

set_option maxHeartbeats 1000000 in

theorem pool_run_C (c : Dev nD) (E : Set ℕ) (i : grid4.Coords)
    (arg1 : Memref sig .tc .vmem S2000x1 .i32) (harg1 : arg1.IsWhole) (arg2 : Memref sig .tc .vmem S2000x128 .bf16) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S512x128 .f32) (harg7 : arg7.IsWhole) (arg8 : Memref sig .tc .vmem S1x512 .f32) (harg8 : arg8.IsWhole)
    (hc0 : ¬cond4_0 i) (hc1 : cond4_1 i)
    (x0 : Vec F S2000x1 .i32) (x1 : Vec F S2000x128 .bf16) (x2 : Vec F S128x128 .f32) (x3 : Vec F S1x128 .f32)
    (s0 : Vec F S512x128 .f32) (s1 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k4_pay6 (k4_pay5 x0 s1) (k4_pay4 x0 x1 s0))
            ∗ owns (c : Thread nD τ) arg6 fullShare (k4_pay7 (k4_pay5 x0 s1) (k4_pay4 x0 x1 s0) x2 x3)
            ∗ owns (c : Thread nD τ) arg7 fullShare (k4_pay4 x0 x1 s0) ∗ owns (c : Thread nD τ) arg8 fullShare (k4_pay5 x0 s1)) -∗ K ⟨⟩))
      ⊢ wp frame (wpE (defs₀ (F := F)) Variants.none c none) E
          (cc4__pool_classify_kernel i arg1 harg1 arg2 harg2 arg3 harg3 arg4 harg4 arg5 harg5 arg6 harg6 arg7 harg7 arg8 harg8) K := by
  simp only [cc4__pool_classify_kernel_eq_skeleton]; unfold cc4__pool_classify_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  subst hf0; subst hf1; subst hf2; subst hf3; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    refine (read_writes_cons_whole _ _ hz4 _ _ _).trans ?_
    rw [View.readCov_cons_toLoadRect, View.readCov_cons_toLoadRect, readAt_whole _ _ hz4, readAt_whole _ _ hz4,
      readAt_whole _ _ hz4, readAt_whole _ _ hz4]
  isplitl [H5]
  · iexists _; isplitr
    swap; · iexact H5
    ipureintro
    sl_unfold_words
    refine (read_writes_cons_whole _ _ hz4 _ _ _).trans ?_
    rw [View.readCov_cons_toLoadRect, View.readCov_cons_toLoadRect, readAt_whole _ _ hz4, readAt_whole _ _ hz4,
      readAt_whole _ _ hz4, readAt_whole _ _ hz4, readAt_whole _ _ hz4, readAt_whole _ _ hz4]
  isplitl [HS0]
  · iexists _; isplitr
    swap; · iexact HS0
    ipureintro
    sl_unfold_words
    refine (read_writes_cons_whole _ _ hz4 _ _ _).trans ?_
    rw [readAt_whole _ _ hz4, readAt_whole _ _ hz4, readAt_whole _ _ hz4]
  iexists _; isplitr
  swap; · iexact HS1
  ipureintro
  sl_unfold_words
  refine (read_writes_cons_whole _ _ hz4 _ _ _).trans ?_
  rw [readAt_whole _ _ hz4, readAt_whole _ _ hz4]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4_0 : Memref sig .tc .vmem S512x128 .f32 := Memref.whole cc4_scratch0
abbrev scM4_1 : Memref sig .tc .vmem S1x512 .f32 := Memref.whole cc4_scratch1

def pool_acc (c : Dev nD) : (n : ℕ) → n < cfg4.N → Vec F S512x128 .f32 × Vec F S1x512 .f32
  | 0, hn => (k4_pay4 (iblk4 V c 0 ⟨0, hn⟩) (iblk4 V c 1 ⟨0, hn⟩) k4_pay1, k4_pay5 (iblk4 V c 0 ⟨0, hn⟩) k4_pay2)
  | n + 1, hn => (k4_pay4 (iblk4 V c 0 ⟨n + 1, hn⟩) (iblk4 V c 1 ⟨n + 1, hn⟩) (pool_acc c n (Nat.lt_of_succ_lt hn)).1,
      k4_pay5 (iblk4 V c 0 ⟨n + 1, hn⟩) (pool_acc c n (Nat.lt_of_succ_lt hn)).2)

theorem pool_acc_first (c : Dev nD) (t : Fin cfg4.N) (h : t.val = 0) :
    pool_acc V c t.val t.isLt
      = (k4_pay4 (iblk4 V c 0 t) (iblk4 V c 1 t) k4_pay1, k4_pay5 (iblk4 V c 0 t) k4_pay2) := by
  obtain ⟨n, hn⟩ := t
  cases n with
  | zero => exact rfl
  | succ n => exact absurd h (Nat.succ_ne_zero n)

theorem pool_acc_later (c : Dev nD) (t : Fin cfg4.N) (h : t.val ≠ 0) :
    pool_acc V c t.val t.isLt
      = (k4_pay4 (iblk4 V c 0 t) (iblk4 V c 1 t) (pool_acc V c (t.val - 1) (Nat.lt_of_le_of_lt (Nat.sub_le _ _) t.isLt)).1,
          k4_pay5 (iblk4 V c 0 t) (pool_acc V c (t.val - 1) (Nat.lt_of_le_of_lt (Nat.sub_le _ _) t.isLt)).2) := by
  obtain ⟨n, hn⟩ := t
  cases n with
  | zero => exact absurd rfl h
  | succ n => exact rfl

abbrev tLast4 : Fin cfg4.N := ⟨24, by decide⟩

def pool_hg (c : Dev nD) : Vec F S512x128 .f32 :=
  k4_pay6 (pool_acc V c 24 (by decide)).2 (pool_acc V c 24 (by decide)).1

def pool_logits (c : Dev nD) : Vec F S512x128 .f32 :=
  k4_pay7 (pool_acc V c 24 (by decide)).2 (pool_acc V c 24 (by decide)).1 (iblk4 V c 2 tLast4) (iblk4 V c 3 tLast4)

theorem pool_hg_at (c : Dev nD) (t : Fin cfg4.N) (h : t.val = 24) :
    pool_hg V c = k4_pay6 (pool_acc V c t.val t.isLt).2 (pool_acc V c t.val t.isLt).1 := by
  obtain rfl : t = tLast4 := Fin.ext h
  rfl
theorem pool_logits_at (c : Dev nD) (t : Fin cfg4.N) (h : t.val = 24) :
    pool_logits V c = k4_pay7 (pool_acc V c t.val t.isLt).2 (pool_acc V c t.val t.isLt).1 (iblk4 V c 2 t) (iblk4 V c 3 t) := by
  obtain rfl : t = tLast4 := Fin.ext h
  rfl

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut spec4 c [cc4_scratch0, cc4_scratch1]) ∗ (∃ r, prngReg c r)) := by
  unfold Pipeline.ΦA; rw [scopedRest4_split]; simp only [scM4_0, scM4_1, owns_whole]; try rfl

def pool_Φ (c : Dev nD) : (n : ℕ) → n ≤ cfg4.N → sProp 𝕄
  | 0, _ => Pipeline.ΦA spec4 c
  | n + 1, hn => iprop(iprop(iprop(owns (c : Thread nD τ) scM4_0 fullShare (pool_acc V c n hn).1 ∗ owns (c : Thread nD τ) scM4_1 fullShare (pool_acc V c n hn).2)
      ∗ Pipeline.scopedRestBut spec4 c [cc4_scratch0, cc4_scratch1]) ∗ (∃ r, prngReg c r))

theorem pool_Φ_zero (c : Dev nD) (n : ℕ) (h : n ≤ cfg4.N) (hz : n = 0) : pool_Φ V c n h = Pipeline.ΦA spec4 c := by
  subst hz; rfl

theorem pool_Φ_succ (c : Dev nD) (n : ℕ) (hn : n < cfg4.N) :
    pool_Φ V c (n + 1) hn = iprop(iprop(iprop(owns (c : Thread nD τ) scM4_0 fullShare (pool_acc V c n hn).1 ∗ owns (c : Thread nD τ) scM4_1 fullShare (pool_acc V c n hn).2)
      ∗ Pipeline.scopedRestBut spec4 c [cc4_scratch0, cc4_scratch1]) ∗ (∃ r, prngReg c r)) := rfl

theorem pool_Φ_pos (c : Dev nD) (n : ℕ) (h : n ≤ cfg4.N) (hz : n ≠ 0) :
    pool_Φ V c n h = iprop(iprop(iprop(owns (c : Thread nD τ) scM4_0 fullShare (pool_acc V c (n - 1) (by omega)).1 ∗ owns (c : Thread nD τ) scM4_1 fullShare (pool_acc V c (n - 1) (by omega)).2)
      ∗ Pipeline.scopedRestBut spec4 c [cc4_scratch0, cc4_scratch1]) ∗ (∃ r, prngReg c r)) := by
  cases n with
  | zero => exact absurd rfl hz
  | succ n => rfl

def pool_dat (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => pool_hg V c
    | ⟨5, _⟩ => pool_logits V c
  Φ t := pool_Φ V c t.val (Nat.le_of_lt_succ t.isLt)
  q _ := fullShare
  owed _ := 0

theorem pool_A (c : Dev nD) (w : Fin cfg4.W) : (pool_dat V c).A w = V c (Pipeline.arrRef spec4 w) := by
  dsimp only [pool_dat]

theorem pool_after_in0 (c : Dev nD) (t : Fin cfg4.N) : (pool_dat V c).after 0 t = iblk4 V c 0 t := by dsimp only [pool_dat]
theorem pool_after_in1 (c : Dev nD) (t : Fin cfg4.N) : (pool_dat V c).after 1 t = iblk4 V c 1 t := by dsimp only [pool_dat]
theorem pool_after_in2 (c : Dev nD) (t : Fin cfg4.N) : (pool_dat V c).after 2 t = iblk4 V c 2 t := by dsimp only [pool_dat]
theorem pool_after_in3 (c : Dev nD) (t : Fin cfg4.N) : (pool_dat V c).after 3 t = iblk4 V c 3 t := by dsimp only [pool_dat]
theorem pool_after_out4 (c : Dev nD) (t : Fin cfg4.N) : (pool_dat V c).after 4 t = pool_hg V c := by dsimp only [pool_dat]
theorem pool_after_out5 (c : Dev nD) (t : Fin cfg4.N) : (pool_dat V c).after 5 t = pool_logits V c := by dsimp only [pool_dat]

theorem pool_after_4 (c : Dev nD) : (pool_dat V c).after 4 tLast4 = pool_hg V c := pool_after_out4 V c tLast4
theorem pool_after_5 (c : Dev nD) : (pool_dat V c).after 5 tLast4 = pool_logits V c := pool_after_out5 V c tLast4

theorem pool_before_0 (c : Dev nD) (t : Fin cfg4.N) (d) : (pool_dat V c).before 0 t d = iblk4 V c 0 t :=
  ((pool_dat V c).before_in_eq_fetched 0 rfl (fun _ => rfl) (fun _ _ _ => rfl) (fun _ => rfl) t d).trans rfl
theorem pool_before_1 (c : Dev nD) (t : Fin cfg4.N) (d) : (pool_dat V c).before 1 t d = iblk4 V c 1 t :=
  ((pool_dat V c).before_in_eq_fetched 1 rfl (fun _ => rfl) (fun _ _ _ => rfl) (fun _ => rfl) t d).trans rfl
theorem pool_before_2 (c : Dev nD) (t : Fin cfg4.N) (d) : (pool_dat V c).before 2 t d = iblk4 V c 2 t :=
  ((pool_dat V c).before_in_eq_fetched 2 rfl (fun _ => rfl) (fun _ _ _ => rfl) (fun _ => rfl) t d).trans rfl
theorem pool_before_3 (c : Dev nD) (t : Fin cfg4.N) (d) : (pool_dat V c).before 3 t d = iblk4 V c 3 t :=
  ((pool_dat V c).before_in_eq_fetched 3 rfl (fun _ => rfl) (fun _ _ _ => rfl) (fun _ => rfl) t d).trans rfl

theorem pool_Φ_castSucc (c : Dev nD) (t : Fin cfg4.N) :
    (pool_dat V c).Φ t.castSucc = pool_Φ V c t.val (Nat.le_of_lt t.isLt) := by
  dsimp only [pool_dat]; simp only [Fin.coe_castSucc]

def pool_pre (c : Dev nD) (t : Fin cfg4.N) : sProp 𝕄 :=
  iprop((pool_dat V c).Φ t.castSucc ∗ (pool_dat V c).owesAt () t.castSucc
    ∗ (∃ d, owns (c : Thread nD τ) (st4_0 t) fullShare ((pool_dat V c).before 0 t d))
    ∗ (∃ d, owns (c : Thread nD τ) (st4_1 t) fullShare ((pool_dat V c).before 1 t d))
    ∗ (∃ d, owns (c : Thread nD τ) (st4_2 t) fullShare ((pool_dat V c).before 2 t d))
    ∗ (∃ d, owns (c : Thread nD τ) (st4_3 t) fullShare ((pool_dat V c).before 3 t d))
    ∗ (∃ d, owns (c : Thread nD τ) (st4_4 t) fullShare ((pool_dat V c).before 4 t d))
    ∗ (∃ d, owns (c : Thread nD τ) (st4_5 t) fullShare ((pool_dat V c).before 5 t d)))

def pool_post (c : Dev nD) (t : Fin cfg4.N) : sProp 𝕄 :=
  iprop((pool_dat V c).Φ t.succ ∗ (pool_dat V c).owesAt () t.succ
    ∗ (pool_dat V c).leavesExact 0 t
    ∗ (pool_dat V c).leavesExact 1 t
    ∗ (pool_dat V c).leavesExact 2 t
    ∗ (pool_dat V c).leavesExact 3 t
    ∗ (pool_dat V c).leavesExact 4 t
    ∗ (pool_dat V c).leavesExact 5 t)

theorem pool_leaves_0 (c : Dev nD) (t : Fin cfg4.N) :
    (pool_dat V c).leavesExact 0 t = owns (c : Thread nD τ) (st4_0 t) fullShare (iblk4 V c 0 t) := by
  unfold Dat.leavesExact; rw [liveAt4_0 t, pool_after_in0]
theorem pool_leaves_1 (c : Dev nD) (t : Fin cfg4.N) :
    (pool_dat V c).leavesExact 1 t = owns (c : Thread nD τ) (st4_1 t) fullShare (iblk4 V c 1 t) := by
  unfold Dat.leavesExact; rw [liveAt4_1 t, pool_after_in1]
theorem pool_leaves_2 (c : Dev nD) (t : Fin cfg4.N) :
    (pool_dat V c).leavesExact 2 t = owns (c : Thread nD τ) (st4_2 t) fullShare (iblk4 V c 2 t) := by
  unfold Dat.leavesExact; rw [liveAt4_2 t, pool_after_in2]
theorem pool_leaves_3 (c : Dev nD) (t : Fin cfg4.N) :
    (pool_dat V c).leavesExact 3 t = owns (c : Thread nD τ) (st4_3 t) fullShare (iblk4 V c 3 t) := by
  unfold Dat.leavesExact; rw [liveAt4_3 t, pool_after_in3]
theorem pool_leaves_4_last (c : Dev nD) (t : Fin cfg4.N) (h : cond4_1 (grid4.coords t)) :
    (pool_dat V c).leavesExact 4 t = owns (c : Thread nD τ) (st4_4 t) fullShare (pool_hg V c) := by
  unfold Dat.leavesExact; rw [liveAt4_4 t h, pool_after_out4]
theorem pool_leaves_5_last (c : Dev nD) (t : Fin cfg4.N) (h : cond4_1 (grid4.coords t)) :
    (pool_dat V c).leavesExact 5 t = owns (c : Thread nD τ) (st4_5 t) fullShare (pool_logits V c) := by
  unfold Dat.leavesExact; rw [liveAt4_5 t h, pool_after_out5]

set_option maxHeartbeats 4000000 in

theorem pool_body (c : Dev nD) (t : Fin cfg4.N) :
    pool_pre V c t ⊢ wp frame (wpE (defs₀ (F := F)) Variants.none c none) Set.univ (bodyAt4 t) (fun _ => pool_post V c t) := by
  unfold pool_pre pool_post bodyAt4
  simp only [pool_before_0, pool_before_1, pool_before_2, pool_before_3]
  rw [show (pool_dat V c).owesAt () t.succ = (pool_dat V c).owesAt () t.castSucc from rfl]
  rw [show (pool_dat V c).Φ t.succ = pool_Φ V c (t.val + 1) t.isLt from rfl, pool_Φ_succ]
  rw [pool_leaves_0, pool_leaves_1, pool_leaves_2, pool_leaves_3]
  have hN : t.val < 25 := lt_of_lt_of_eq t.isLt (show cfg4.N = 25 from N_4)
  by_cases h0 : t.val = 0
  ·
    have hc0 : cond4_0 (grid4.coords t) := (hcond4_0 t).mpr h0
    have hc1 : ¬cond4_1 (grid4.coords t) := fun h => by have := (hcond4_1 t).mp h; omega
    rw [Dat.leavesExact_idle (pool_dat V c) 4 t (idleAt4_4 t hc1) (noFlush4_4 t hc1),
      Dat.leavesExact_idle (pool_dat V c) 5 t (idleAt4_5 t hc1) (noFlush4_5 t hc1)]
    rw [pool_acc_first V c t h0]; dsimp only
    rw [pool_Φ_castSucc V c t, pool_Φ_zero V c _ _ h0, PhiA4_eq]
    iintro ⟨⟨⟨⟨HS0, HS1⟩, HR⟩, Hg⟩, Ho, ⟨%d0, H0⟩, ⟨%d1, H1⟩, ⟨%d2, H2⟩, ⟨%d3, H3⟩, H4, H5⟩
    iapply (pool_run_A c Set.univ (grid4.coords t) _ _ _ _ _ _ _ _ _ _ _ _ _ _ _ _ hc0 hc1 (iblk4 V c 0 t) (iblk4 V c 1 t) _)
    isplitl [H0]; · iexact H0
    isplitl [H1]; · iexact H1
    isplitl [HS0]; · iexact HS0
    isplitl [HS1]; · iexact HS1
    iintro ⟨H0, H1, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc0 : ¬cond4_0 (grid4.coords t) := fun h => h0 ((hcond4_0 t).mp h)
    rw [pool_acc_later V c t h0]; dsimp only
    rw [pool_Φ_castSucc V c t, pool_Φ_pos V c _ _ h0]
    by_cases h1 : t.val = 24
    ·
      have hc1 : cond4_1 (grid4.coords t) := (hcond4_1 t).mpr h1
      rw [pool_leaves_4_last V c t hc1, pool_leaves_5_last V c t hc1, pool_hg_at V c t h1, pool_logits_at V c t h1,
        pool_acc_later V c t h0]; dsimp only
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply (pool_run_C c Set.univ (grid4.coords t) _ _ _ _ _ _ _ _ _ _ _ _ _ _ _ _ hc0 hc1 (iblk4 V c 0 t) (iblk4 V c 1 t)
        (iblk4 V c 2 t) (iblk4 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    ·
      have hc1 : ¬cond4_1 (grid4.coords t) := fun h => h1 ((hcond4_1 t).mp h)
      rw [Dat.leavesExact_idle (pool_dat V c) 4 t (idleAt4_4 t hc1) (noFlush4_4 t hc1),
        Dat.leavesExact_idle (pool_dat V c) 5 t (idleAt4_5 t hc1) (noFlush4_5 t hc1)]
      iintro ⟨⟨⟨⟨HS0, HS1⟩, HR⟩, Hg⟩, Ho, ⟨%d0, H0⟩, ⟨%d1, H1⟩, ⟨%d2, H2⟩, ⟨%d3, H3⟩, H4, H5⟩
      iapply (pool_run_B c Set.univ (grid4.coords t) _ _ _ _ _ _ _ _ _ _ _ _ _ _ _ _ hc0 hc1 (iblk4 V c 0 t) (iblk4 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

theorem pool_obligation (c : Dev nD) : BodyObligation (pool_dat (F := F) V c) (defs₀ (F := F)) Variants.none () Set.univ := fun t => by
  rw [bigSep_W4, bigSep_W4]
  exact pool_body V c t

theorem pool_hin (c : Dev nD) : (Pipeline.ΦA spec4 c : sProp 𝕄) ⊢ (pool_dat V c).Φ 0 := by
  rw [show (pool_dat V c).Φ 0 = pool_Φ V c 0 (Nat.zero_le _) from rfl, pool_Φ_zero V c 0 _ rfl]
theorem pool_hout (c : Dev nD) : (pool_dat V c).Φ (Fin.last cfg4.N) ⊢ (Pipeline.ΦA spec4 c : sProp 𝕄) := by
  rw [show (pool_dat V c).Φ (Fin.last cfg4.N) = pool_Φ V c (Fin.last cfg4.N).val (Nat.le_of_lt_succ (Fin.last cfg4.N).isLt) from rfl,
    pool_Φ_pos V c _ _ (by rw [Fin.val_last]; have : cfg4.N = 25 := N_4; omega), PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem pool_owed (c : Dev nD) (t) : (pool_dat V c).owed t = 0 := by dsimp only [pool_dat]
theorem pool_q (c : Dev nD) (w) : (pool_dat V c).q w = fullShare := by dsimp only [pool_dat]

end Cert.Kernel.Hand

end
-- ==== Proof.KB.Run.lean ====
import proofs.«422796_j77979426226619_2_alg».proof.Proof.KB.Lin0
import proofs.«422796_j77979426226619_2_alg».proof.Proof.KB.Lin1
import proofs.«422796_j77979426226619_2_alg».proof.Proof.KB.Lin2
import proofs.«422796_j77979426226619_2_alg».proof.Proof.KB.Lin3
import proofs.«422796_j77979426226619_2_alg».proof.Proof.KB.Pool
import proofs.«422796_j77979426226619_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev bd0 : Dev nD → Valuation τ sig (Elt F) := fun c b => (s₀ m ρ).mem ((c : Dev nD), b)

abbrev bd1 : Dev nD → Valuation τ sig (Elt F) := fun c => StableHlo.after hostOps0 (bd0 m ρ c)
abbrev bv1 : (c : Dev nD) → (b : Ref sig .tc) → Buf (Elt F) ((c : Thread nD τ).loc b) := fun c b => bd1 m ρ c b
theorem bd1_keep (c : Dev nD) (r : Ref sig .tc) (h : r ∉ hostOps0_W) :
    bd1 m ρ c (Proc.devRef .tc r) = bd0 m ρ c (Proc.devRef .tc r) :=
  StableHlo.after_of_writes_sub hostOps0 _ hostOps0_writes h
def bd2 (c : Dev nD) : Valuation τ sig (Elt F) :=
  Pipeline.withArrays spec0 c (bd1 m ρ c) fun w => (lin0_dat (bv1 m ρ) c).arrAt w cfg0.N
theorem bd2_arr (c : Dev nD) (w : Fin cfg0.W) :
    bd2 m ρ c (Proc.devRef .tc (Pipeline.arrRef spec0 w)) = (lin0_dat (bv1 m ρ) c).arrAt w cfg0.N := by
  unfold bd2; exact Pipeline.withArrays_arr spec0 launch0.win.arr_inj c _ _ w
theorem bd2_of_ne (c : Dev nD) (b : Ref sig .tc) (hb : ∀ w, Pipeline.arrRef spec0 w ≠ b) :
    bd2 m ρ c (Proc.devRef .tc b) = bd1 m ρ c (Proc.devRef .tc b) := by
  unfold bd2; exact Pipeline.withArrays_of_ne spec0 c _ _ b hb
theorem bd2_weights (c : Dev nD) :
    bd2 m ρ c (Proc.devRef .tc (Pipeline.arrRef spec0 1)) = bd1 m ρ c (Proc.devRef .tc (Pipeline.arrRef spec0 1)) :=
  (bd2_arr m ρ c 1).trans (((lin0_dat (bv1 m ρ) c).arrAt_in 1 rfl _).trans (lin0_A (bv1 m ρ) c 1))
abbrev bv2 : (c : Dev nD) → (b : Ref sig .tc) → Buf (Elt F) ((c : Thread nD τ).loc b) := fun c b => bd2 m ρ c b
theorem hF0 (c : Dev nD) (w : Fin cfg0.W) : (lin0_dat (bv1 m ρ) c).arrAt w cfg0.N = bv2 m ρ c (Pipeline.arrRef spec0 w) :=
  (bd2_arr m ρ c w).symm
theorem hrest0 (c : Dev nD) : ∀ b, b ∉ Finset.univ.image (Pipeline.arrRef spec0) → bv2 m ρ c b = bv1 m ρ c b :=
  fun b hb => bd2_of_ne m ρ c b fun w e => hb (Finset.mem_image.mpr ⟨w, Finset.mem_univ _, e⟩)

abbrev bd3 : Dev nD → Valuation τ sig (Elt F) := fun c => StableHlo.after hostOps1 (bd2 m ρ c)
abbrev bv3 : (c : Dev nD) → (b : Ref sig .tc) → Buf (Elt F) ((c : Thread nD τ).loc b) := fun c b => bd3 m ρ c b
theorem bd3_keep (c : Dev nD) (r : Ref sig .tc) (h : r ∉ hostOps1_W) :
    bd3 m ρ c (Proc.devRef .tc r) = bd2 m ρ c (Proc.devRef .tc r) :=
  StableHlo.after_of_writes_sub hostOps1 _ hostOps1_writes h
def bd4 (c : Dev nD) : Valuation τ sig (Elt F) :=
  Pipeline.withArrays spec1 c (bd3 m ρ c) fun w => (lin1_dat (bv3 m ρ) c).arrAt w cfg1.N
theorem bd4_arr (c : Dev nD) (w : Fin cfg1.W) :
    bd4 m ρ c (Proc.devRef .tc (Pipeline.arrRef spec1 w)) = (lin1_dat (bv3 m ρ) c).arrAt w cfg1.N := by
  unfold bd4; exact Pipeline.withArrays_arr spec1 launch1.win.arr_inj c _ _ w
theorem bd4_of_ne (c : Dev nD) (b : Ref sig .tc) (hb : ∀ w, Pipeline.arrRef spec1 w ≠ b) :
    bd4 m ρ c (Proc.devRef .tc b) = bd3 m ρ c (Proc.devRef .tc b) := by
  unfold bd4; exact Pipeline.withArrays_of_ne spec1 c _ _ b hb
theorem bd4_weights (c : Dev nD) :
    bd4 m ρ c (Proc.devRef .tc (Pipeline.arrRef spec1 1)) = bd3 m ρ c (Proc.devRef .tc (Pipeline.arrRef spec1 1)) :=
  (bd4_arr m ρ c 1).trans (((lin1_dat (bv3 m ρ) c).arrAt_in 1 rfl _).trans (lin1_A (bv3 m ρ) c 1))
abbrev bv4 : (c : Dev nD) → (b : Ref sig .tc) → Buf (Elt F) ((c : Thread nD τ).loc b) := fun c b => bd4 m ρ c b
theorem hF1 (c : Dev nD) (w : Fin cfg1.W) : (lin1_dat (bv3 m ρ) c).arrAt w cfg1.N = bv4 m ρ c (Pipeline.arrRef spec1 w) :=
  (bd4_arr m ρ c w).symm
theorem hrest1 (c : Dev nD) : ∀ b, b ∉ Finset.univ.image (Pipeline.arrRef spec1) → bv4 m ρ c b = bv3 m ρ c b :=
  fun b hb => bd4_of_ne m ρ c b fun w e => hb (Finset.mem_image.mpr ⟨w, Finset.mem_univ _, e⟩)

abbrev bd5 : Dev nD → Valuation τ sig (Elt F) := fun c => StableHlo.after hostOps2 (bd4 m ρ c)
abbrev bv5 : (c : Dev nD) → (b : Ref sig .tc) → Buf (Elt F) ((c : Thread nD τ).loc b) := fun c b => bd5 m ρ c b
theorem bd5_keep (c : Dev nD) (r : Ref sig .tc) (h : r ∉ hostOps2_W) :
    bd5 m ρ c (Proc.devRef .tc r) = bd4 m ρ c (Proc.devRef .tc r) :=
  StableHlo.after_of_writes_sub hostOps2 _ hostOps2_writes h
def bd6 (c : Dev nD) : Valuation τ sig (Elt F) :=
  Pipeline.withArrays spec2 c (bd5 m ρ c) fun w => (lin2_dat (bv5 m ρ) c).arrAt w cfg2.N
theorem bd6_arr (c : Dev nD) (w : Fin cfg2.W) :
    bd6 m ρ c (Proc.devRef .tc (Pipeline.arrRef spec2 w)) = (lin2_dat (bv5 m ρ) c).arrAt w cfg2.N := by
  unfold bd6; exact Pipeline.withArrays_arr spec2 launch2.win.arr_inj c _ _ w
theorem bd6_of_ne (c : Dev nD) (b : Ref sig .tc) (hb : ∀ w, Pipeline.arrRef spec2 w ≠ b) :
    bd6 m ρ c (Proc.devRef .tc b) = bd5 m ρ c (Proc.devRef .tc b) := by
  unfold bd6; exact Pipeline.withArrays_of_ne spec2 c _ _ b hb
theorem bd6_weights (c : Dev nD) :
    bd6 m ρ c (Proc.devRef .tc (Pipeline.arrRef spec2 1)) = bd5 m ρ c (Proc.devRef .tc (Pipeline.arrRef spec2 1)) :=
  (bd6_arr m ρ c 1).trans (((lin2_dat (bv5 m ρ) c).arrAt_in 1 rfl _).trans (lin2_A (bv5 m ρ) c 1))
abbrev bv6 : (c : Dev nD) → (b : Ref sig .tc) → Buf (Elt F) ((c : Thread nD τ).loc b) := fun c b => bd6 m ρ c b
theorem hF2 (c : Dev nD) (w : Fin cfg2.W) : (lin2_dat (bv5 m ρ) c).arrAt w cfg2.N = bv6 m ρ c (Pipeline.arrRef spec2 w) :=
  (bd6_arr m ρ c w).symm
theorem hrest2 (c : Dev nD) : ∀ b, b ∉ Finset.univ.image (Pipeline.arrRef spec2) → bv6 m ρ c b = bv5 m ρ c b :=
  fun b hb => bd6_of_ne m ρ c b fun w e => hb (Finset.mem_image.mpr ⟨w, Finset.mem_univ _, e⟩)

abbrev bd7 : Dev nD → Valuation τ sig (Elt F) := fun c => StableHlo.after hostOps3 (bd6 m ρ c)
abbrev bv7 : (c : Dev nD) → (b : Ref sig .tc) → Buf (Elt F) ((c : Thread nD τ).loc b) := fun c b => bd7 m ρ c b
theorem bd7_keep (c : Dev nD) (r : Ref sig .tc) (h : r ∉ hostOps3_W) :
    bd7 m ρ c (Proc.devRef .tc r) = bd6 m ρ c (Proc.devRef .tc r) :=
  StableHlo.after_of_writes_sub hostOps3 _ hostOps3_writes h
def bd8 (c : Dev nD) : Valuation τ sig (Elt F) :=
  Pipeline.withArrays spec3 c (bd7 m ρ c) fun w => (lin3_dat (bv7 m ρ) c).arrAt w cfg3.N
theorem bd8_arr (c : Dev nD) (w : Fin cfg3.W) :
    bd8 m ρ c (Proc.devRef .tc (Pipeline.arrRef spec3 w)) = (lin3_dat (bv7 m ρ) c).arrAt w cfg3.N := by
  unfold bd8; exact Pipeline.withArrays_arr spec3 launch3.win.arr_inj c _ _ w
theorem bd8_of_ne (c : Dev nD) (b : Ref sig .tc) (hb : ∀ w, Pipeline.arrRef spec3 w ≠ b) :
    bd8 m ρ c (Proc.devRef .tc b) = bd7 m ρ c (Proc.devRef .tc b) := by
  unfold bd8; exact Pipeline.withArrays_of_ne spec3 c _ _ b hb
theorem bd8_weights (c : Dev nD) :
    bd8 m ρ c (Proc.devRef .tc (Pipeline.arrRef spec3 1)) = bd7 m ρ c (Proc.devRef .tc (Pipeline.arrRef spec3 1)) :=
  (bd8_arr m ρ c 1).trans (((lin3_dat (bv7 m ρ) c).arrAt_in 1 rfl _).trans (lin3_A (bv7 m ρ) c 1))
abbrev bv8 : (c : Dev nD) → (b : Ref sig .tc) → Buf (Elt F) ((c : Thread nD τ).loc b) := fun c b => bd8 m ρ c b
theorem hF3 (c : Dev nD) (w : Fin cfg3.W) : (lin3_dat (bv7 m ρ) c).arrAt w cfg3.N = bv8 m ρ c (Pipeline.arrRef spec3 w) :=
  (bd8_arr m ρ c w).symm
theorem hrest3 (c : Dev nD) : ∀ b, b ∉ Finset.univ.image (Pipeline.arrRef spec3) → bv8 m ρ c b = bv7 m ρ c b :=
  fun b hb => bd8_of_ne m ρ c b fun w e => hb (Finset.mem_image.mpr ⟨w, Finset.mem_univ _, e⟩)

abbrev bd9 : Dev nD → Valuation τ sig (Elt F) := fun c => StableHlo.after hostOps4 (bd8 m ρ c)
abbrev bv9 : (c : Dev nD) → (b : Ref sig .tc) → Buf (Elt F) ((c : Thread nD τ).loc b) := fun c b => bd9 m ρ c b
theorem bd9_keep (c : Dev nD) (r : Ref sig .tc) (h : r ∉ hostOps4_W) :
    bd9 m ρ c (Proc.devRef .tc r) = bd8 m ρ c (Proc.devRef .tc r) :=
  StableHlo.after_of_writes_sub hostOps4 _ hostOps4_writes h
def bd10 (c : Dev nD) : Valuation τ sig (Elt F) :=
  Pipeline.withArrays spec4 c (bd9 m ρ c) fun w => (pool_dat (bv9 m ρ) c).arrAt w cfg4.N
theorem bd10_arr (c : Dev nD) (w : Fin cfg4.W) :
    bd10 m ρ c (Proc.devRef .tc (Pipeline.arrRef spec4 w)) = (pool_dat (bv9 m ρ) c).arrAt w cfg4.N := by
  unfold bd10; exact Pipeline.withArrays_arr spec4 launch4.win.arr_inj c _ _ w
theorem bd10_of_ne (c : Dev nD) (b : Ref sig .tc) (hb : ∀ w, Pipeline.arrRef spec4 w ≠ b) :
    bd10 m ρ c (Proc.devRef .tc b) = bd9 m ρ c (Proc.devRef .tc b) := by
  unfold bd10; exact Pipeline.withArrays_of_ne spec4 c _ _ b hb
abbrev bv10 : (c : Dev nD) → (b : Ref sig .tc) → Buf (Elt F) ((c : Thread nD τ).loc b) := fun c b => bd10 m ρ c b
theorem hF4 (c : Dev nD) (w : Fin cfg4.W) : (pool_dat (bv9 m ρ) c).arrAt w cfg4.N = bv10 m ρ c (Pipeline.arrRef spec4 w) :=
  (bd10_arr m ρ c w).symm
theorem hrest4 (c : Dev nD) : ∀ b, b ∉ Finset.univ.image (Pipeline.arrRef spec4) → bv10 m ρ c b = bv9 m ρ c b :=
  fun b hb => bd10_of_ne m ρ c b fun w e => hb (Finset.mem_image.mpr ⟨w, Finset.mem_univ _, e⟩)
abbrev bd11 : Dev nD → Valuation τ sig (Elt F) := fun c => StableHlo.after hostOps5 (bd10 m ρ c)
theorem bd11_keep (c : Dev nD) (r : Ref sig .tc) (h : r ∉ hostOps5_W) :
    bd11 m ρ c (Proc.devRef .tc r) = bd10 m ρ c (Proc.devRef .tc r) :=
  StableHlo.after_of_writes_sub hostOps5 _ hostOps5_writes h

/-- Each step up to the last dense layer either leaves the buffer alone or has no window on it, so the equalities chain. -/
theorem bd8_kept (c : Dev nD) (b : Ref sig .tc)
    (h : (∀ w, Pipeline.arrRef spec3 w ≠ b) ∧ b ∉ hostOps3_W ∧ (∀ w, Pipeline.arrRef spec2 w ≠ b) ∧ b ∉ hostOps2_W
      ∧ (∀ w, Pipeline.arrRef spec1 w ≠ b) ∧ b ∉ hostOps1_W ∧ (∀ w, Pipeline.arrRef spec0 w ≠ b) ∧ b ∉ hostOps0_W) :
    bd8 m ρ c (Proc.devRef .tc b) = m ((c : Thread nD τ).loc b) :=
  (bd8_of_ne m ρ c b h.1).trans <| (bd7_keep m ρ c b h.2.1).trans <| (bd6_of_ne m ρ c b h.2.2.1).trans <|
  (bd5_keep m ρ c b h.2.2.2.1).trans <| (bd4_of_ne m ρ c b h.2.2.2.2.1).trans <| (bd3_keep m ρ c b h.2.2.2.2.2.1).trans <|
  (bd2_of_ne m ρ c b h.2.2.2.2.2.2.1).trans <| (bd1_keep m ρ c b h.2.2.2.2.2.2.2).trans rfl
theorem bd11_kept (c : Dev nD) (b : Ref sig .tc) (h : b ∉ hostOps5_W ∧ (∀ w, Pipeline.arrRef spec4 w ≠ b) ∧ b ∉ hostOps4_W)
    (h8 : (∀ w, Pipeline.arrRef spec3 w ≠ b) ∧ b ∉ hostOps3_W ∧ (∀ w, Pipeline.arrRef spec2 w ≠ b) ∧ b ∉ hostOps2_W
      ∧ (∀ w, Pipeline.arrRef spec1 w ≠ b) ∧ b ∉ hostOps1_W ∧ (∀ w, Pipeline.arrRef spec0 w ≠ b) ∧ b ∉ hostOps0_W) :
    bd11 m ρ c (Proc.devRef .tc b) = m ((c : Thread nD τ).loc b) :=
  (bd11_keep m ρ c b h.1).trans <| (bd10_of_ne m ρ c b h.2.1).trans <| (bd9_keep m ρ c b h.2.2).trans (bd8_kept m ρ c b h8)
theorem bd11_arg0 (c : Dev nD) : bd11 m ρ c (Proc.devRef .tc main_arg0) = m ((c : Thread nD τ).loc main_arg0) :=
  bd11_kept m ρ c main_arg0 (by decide) (by decide)
theorem bd11_arg1 (c : Dev nD) : bd11 m ρ c (Proc.devRef .tc main_arg1) = m ((c : Thread nD τ).loc main_arg1) :=
  bd11_kept m ρ c main_arg1 (by decide) (by decide)
theorem bd11_arg2 (c : Dev nD) : bd11 m ρ c (Proc.devRef .tc main_arg2) = m ((c : Thread nD τ).loc main_arg2) :=
  bd11_kept m ρ c main_arg2 (by decide) (by decide)
theorem bd11_arg3 (c : Dev nD) : bd11 m ρ c (Proc.devRef .tc main_arg3) = m ((c : Thread nD τ).loc main_arg3) :=
  bd11_kept m ρ c main_arg3 (by decide) (by decide)
theorem bd11_arg5 (c : Dev nD) : bd11 m ρ c (Proc.devRef .tc main_arg5) = m ((c : Thread nD τ).loc main_arg5) :=
  bd11_kept m ρ c main_arg5 (by decide) (by decide)
theorem bd11_arg7 (c : Dev nD) : bd11 m ρ c (Proc.devRef .tc main_arg7) = m ((c : Thread nD τ).loc main_arg7) :=
  bd11_kept m ρ c main_arg7 (by decide) (by decide)
theorem bd11_arg9 (c : Dev nD) : bd11 m ρ c (Proc.devRef .tc main_arg9) = m ((c : Thread nD τ).loc main_arg9) :=
  bd11_kept m ρ c main_arg9 (by decide) (by decide)
theorem bd11_arg11 (c : Dev nD) : bd11 m ρ c (Proc.devRef .tc main_arg11) = m ((c : Thread nD τ).loc main_arg11) :=
  bd11_kept m ρ c main_arg11 (by decide) (by decide)
theorem bd11_arg12 (c : Dev nD) : bd11 m ρ c (Proc.devRef .tc main_arg12) = m ((c : Thread nD τ).loc main_arg12) :=
  bd11_kept m ρ c main_arg12 (by decide) (by decide)
theorem bd11_arg13 (c : Dev nD) : bd11 m ρ c (Proc.devRef .tc main_arg13) = m ((c : Thread nD τ).loc main_arg13) :=
  bd11_kept m ρ c main_arg13 (by decide) (by decide)
theorem bd8_arg3 (c : Dev nD) : bd8 m ρ c (Proc.devRef .tc main_arg3) = m ((c : Thread nD τ).loc main_arg3) :=
  bd8_kept m ρ c main_arg3 (by decide)
theorem bd8_arg12 (c : Dev nD) : bd8 m ρ c (Proc.devRef .tc main_arg12) = m ((c : Thread nD τ).loc main_arg12) :=
  bd8_kept m ρ c main_arg12 (by decide)
theorem bd8_arg13 (c : Dev nD) : bd8 m ρ c (Proc.devRef .tc main_arg13) = m ((c : Thread nD τ).loc main_arg13) :=
  bd8_kept m ρ c main_arg13 (by decide)
theorem bd11_arg4 (c : Dev nD) : bd11 m ρ c (Proc.devRef .tc main_arg4) = m ((c : Thread nD τ).loc main_arg4) :=
  (bd11_keep m ρ c main_arg4 (by decide)).trans <| (bd10_of_ne m ρ c main_arg4 (by decide)).trans <|
  (bd9_keep m ρ c main_arg4 (by decide)).trans <| (bd8_of_ne m ρ c main_arg4 (by decide)).trans <|
  (bd7_keep m ρ c main_arg4 (by decide)).trans <| (bd6_of_ne m ρ c main_arg4 (by decide)).trans <|
  (bd5_keep m ρ c main_arg4 (by decide)).trans <| (bd4_of_ne m ρ c main_arg4 (by decide)).trans <|
  (bd3_keep m ρ c main_arg4 (by decide)).trans <| (bd2_weights m ρ c).trans <|
  (bd1_keep m ρ c main_arg4 (by decide)).trans rfl
theorem bd11_arg6 (c : Dev nD) : bd11 m ρ c (Proc.devRef .tc main_arg6) = m ((c : Thread nD τ).loc main_arg6) :=
  (bd11_keep m ρ c main_arg6 (by decide)).trans <| (bd10_of_ne m ρ c main_arg6 (by decide)).trans <|
  (bd9_keep m ρ c main_arg6 (by decide)).trans <| (bd8_of_ne m ρ c main_arg6 (by decide)).trans <|
  (bd7_keep m ρ c main_arg6 (by decide)).trans <| (bd6_of_ne m ρ c main_arg6 (by decide)).trans <|
  (bd5_keep m ρ c main_arg6 (by decide)).trans <| (bd4_weights m ρ c).trans <|
  (bd3_keep m ρ c main_arg6 (by decide)).trans <| (bd2_of_ne m ρ c main_arg6 (by decide)).trans <|
  (bd1_keep m ρ c main_arg6 (by decide)).trans rfl
theorem bd11_arg8 (c : Dev nD) : bd11 m ρ c (Proc.devRef .tc main_arg8) = m ((c : Thread nD τ).loc main_arg8) :=
  (bd11_keep m ρ c main_arg8 (by decide)).trans <| (bd10_of_ne m ρ c main_arg8 (by decide)).trans <|
  (bd9_keep m ρ c main_arg8 (by decide)).trans <| (bd8_of_ne m ρ c main_arg8 (by decide)).trans <|
  (bd7_keep m ρ c main_arg8 (by decide)).trans <| (bd6_weights m ρ c).trans <|
  (bd5_keep m ρ c main_arg8 (by decide)).trans <| (bd4_of_ne m ρ c main_arg8 (by decide)).trans <|
  (bd3_keep m ρ c main_arg8 (by decide)).trans <| (bd2_of_ne m ρ c main_arg8 (by decide)).trans <|
  (bd1_keep m ρ c main_arg8 (by decide)).trans rfl
theorem bd11_arg10 (c : Dev nD) : bd11 m ρ c (Proc.devRef .tc main_arg10) = m ((c : Thread nD τ).loc main_arg10) :=
  (bd11_keep m ρ c main_arg10 (by decide)).trans <| (bd10_of_ne m ρ c main_arg10 (by decide)).trans <|
  (bd9_keep m ρ c main_arg10 (by decide)).trans <| (bd8_weights m ρ c).trans <|
  (bd7_keep m ρ c main_arg10 (by decide)).trans <| (bd6_of_ne m ρ c main_arg10 (by decide)).trans <|
  (bd5_keep m ρ c main_arg10 (by decide)).trans <| (bd4_of_ne m ρ c main_arg10 (by decide)).trans <|
  (bd3_keep m ρ c main_arg10 (by decide)).trans <| (bd2_of_ne m ρ c main_arg10 (by decide)).trans <|
  (bd1_keep m ρ c main_arg10 (by decide)).trans rfl

def pdats : (p : Fin 5) → (c : Dev nD) → Dat τ (Elt F) Unit ℕ (UR sig nD τ) ℕ (Pipeline.pin (pcfgs (F := F)) adm p) c
  | ⟨0, _⟩ => fun c => lin0_dat (bv1 m ρ) c
  | ⟨1, _⟩ => fun c => lin1_dat (bv3 m ρ) c
  | ⟨2, _⟩ => fun c => lin2_dat (bv5 m ρ) c
  | ⟨3, _⟩ => fun c => lin3_dat (bv7 m ρ) c
  | ⟨4, _⟩ => fun c => pool_dat (bv9 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (bd11 m ρ c) ∗ ∃ r, prngReg c r)

set_option backward.isDefEq.respectTransparency.types false in
/-- The five regions' records differ only in the region's facts, taken here as hypotheses, so one construction serves all five. -/
def plainReg (p : Fin 5) (launch : Pipeline.LaunchFacts (nD := nD) (τ := τ) cfgs p) (V V' : Dev nD → Valuation τ sig (Elt F))
    (hbody : ∀ c, BodyObligation (pdats m ρ p c) (defs₀ (F := F)) 𝒱₀ () Set.univ)
    (howed : ∀ c t, (pdats m ρ p c).owed t = 0) (hrec : ∀ c, (pdats m ρ p c).recorded 0 = Set.univ) (hq : ∀ c w, (pdats m ρ p c).q w = fullShare)
    (hA : ∀ c w, (pdats m ρ p c).A w = V c (Pipeline.arrRef (Pipeline.pin (pcfgs (F := F)) adm p).spec w))
    (hin : ∀ c, (Pipeline.ΦA (Pipeline.pin (pcfgs (F := F)) adm p).spec c : sProp 𝕄) ⊢ (pdats m ρ p c).Φ 0)
    (hout : ∀ c, (pdats m ρ p c).Φ (Fin.last (Pipeline.pin (pcfgs (F := F)) adm p).N) ⊢ (Pipeline.ΦA (Pipeline.pin (pcfgs (F := F)) adm p).spec c : sProp 𝕄))
    (hF : ∀ c w, (pdats m ρ p c).arrAt w (Pipeline.pin (pcfgs (F := F)) adm p).N = V' c (Pipeline.arrRef (Pipeline.pin (pcfgs (F := F)) adm p).spec w))
    (hrest : ∀ c (b : Ref sig .tc), b ∉ Finset.univ.image (Pipeline.arrRef (Pipeline.pin (pcfgs (F := F)) adm p).spec) → V' c b = V c b) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => V c b)
  hentry c := by
    rw [Pipeline.ownSems0_none]
    unfold Pipeline.Dat.owesAt Pipeline.owesWithin; rw [howed c]
    have hsplit := Pipeline.arrays_of_unscopedBufs (p := p) (pcfgs (F := F)) adm (pdats m ρ) launch.win launch.arr_whole c
      ((pdats m ρ p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (by rw [hrec c]; exact Set.mem_univ x)
      iexact HO
    isplitl [Hp]; · iexact Hp
    iexact Hrest
  hin c :=
    (show iprop(iprop(∃ r, prngReg c r) ∗ Pipeline.prefHeld (pcfgs (F := F) p).pre c (fun _ => fullShare) (adm p).1 ∗ Pipeline.scopedRest (Pipeline.pin (pcfgs (F := F)) adm p).spec c)
        ⊢ (Pipeline.ΦA (Pipeline.pin (pcfgs (F := F)) adm p).spec c : sProp 𝕄) from by
      unfold Pipeline.ΦA
      iintro ⟨Hp, -, Hr⟩
      isplitl [Hr]; · iexact Hr
      iexact Hp).trans (hin c)
  hout c := by
    rw [Pipeline.ownSems0_none]
    exact (hout c).trans (show (Pipeline.ΦA (Pipeline.pin (pcfgs (F := F)) adm p).spec c : sProp 𝕄)
        ⊢ iprop(iprop(∃ r, prngReg c r) ∗ BI.emp ∗ Pipeline.scopedRest (Pipeline.pin (pcfgs (F := F)) adm p).spec c) from by
      unfold Pipeline.ΦA
      iintro ⟨Hr, Hp⟩
      isplitl [Hp]; · iexact Hp
      isplitr; · iempintro
      iexact Hr)
  hexit c := by
    unfold Pipeline.Dat.owesAt Pipeline.owesWithin; rw [howed c]
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (fun b => V c b) (fun b => V' c b) ((pdats m ρ p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

set_option backward.isDefEq.respectTransparency.types false in
def reg0 : Pipeline.RegionSeg (pcfgs (F := F)) adm (pdats m ρ) () defs₀ 𝒱₀ L lv 0 :=
  plainReg m ρ 0 launch0 (bd1 m ρ) (bd2 m ρ) (fun c => lin0_obligation (bv1 m ρ) c) (fun _ _ => rfl) (fun _ => rfl) (fun _ _ => rfl) (fun _ _ => rfl)
    (fun _ => .rfl) (fun _ => .rfl) (hF0 m ρ) (hrest0 m ρ)
set_option backward.isDefEq.respectTransparency.types false in
def reg1 : Pipeline.RegionSeg (pcfgs (F := F)) adm (pdats m ρ) () defs₀ 𝒱₀ L lv 1 :=
  plainReg m ρ 1 launch1 (bd3 m ρ) (bd4 m ρ) (fun c => lin1_obligation (bv3 m ρ) c) (fun _ _ => rfl) (fun _ => rfl) (fun _ _ => rfl) (fun _ _ => rfl)
    (fun _ => .rfl) (fun _ => .rfl) (hF1 m ρ) (hrest1 m ρ)
set_option backward.isDefEq.respectTransparency.types false in
def reg2 : Pipeline.RegionSeg (pcfgs (F := F)) adm (pdats m ρ) () defs₀ 𝒱₀ L lv 2 :=
  plainReg m ρ 2 launch2 (bd5 m ρ) (bd6 m ρ) (fun c => lin2_obligation (bv5 m ρ) c) (fun _ _ => rfl) (fun _ => rfl) (fun _ _ => rfl) (fun _ _ => rfl)
    (fun _ => .rfl) (fun _ => .rfl) (hF2 m ρ) (hrest2 m ρ)
set_option backward.isDefEq.respectTransparency.types false in
def reg3 : Pipeline.RegionSeg (pcfgs (F := F)) adm (pdats m ρ) () defs₀ 𝒱₀ L lv 3 :=
  plainReg m ρ 3 launch3 (bd7 m ρ) (bd8 m ρ) (fun c => lin3_obligation (bv7 m ρ) c) (fun _ _ => rfl) (fun _ => rfl) (fun _ _ => rfl) (fun _ _ => rfl)
    (fun _ => .rfl) (fun _ => .rfl) (hF3 m ρ) (hrest3 m ρ)
set_option backward.isDefEq.respectTransparency.types false in
def reg4 : Pipeline.RegionSeg (pcfgs (F := F)) adm (pdats m ρ) () defs₀ 𝒱₀ L lv 4 :=
  plainReg m ρ 4 launch4 (bd9 m ρ) (bd10 m ρ) (fun c => pool_obligation (bv9 m ρ) c) (fun _ _ => rfl) (fun _ => rfl) (fun _ _ => rfl) (fun _ _ => rfl)
    (pool_hin (bv9 m ρ)) (pool_hout (bv9 m ρ)) (hF4 m ρ) (hrest4 m ρ)

abbrev lastSeg : Pipeline.HostSeg (Name := ℕ) (U := UR sig nD τ) (pcfgs (F := F)) defs₀ 𝒱₀ L lv :=
  hseg hostOps5 hostOps5_sub hostOps5_fresh (bd10 m ρ)

abbrev mainSegs : List (Pipeline.Seg (pcfgs (F := F)) adm (pdats m ρ) () defs₀ 𝒱₀ L lv) :=
  [ .host (hseg hostOps0 hostOps0_sub hostOps0_fresh (bd0 m ρ)),
    .region (reg0 m ρ),
    .host (hseg hostOps1 hostOps1_sub hostOps1_fresh (bd2 m ρ)),
    .region (reg1 m ρ),
    .host (hseg hostOps2 hostOps2_sub hostOps2_fresh (bd4 m ρ)),
    .region (reg2 m ρ),
    .host (hseg hostOps3 hostOps3_sub hostOps3_fresh (bd6 m ρ)),
    .region (reg3 m ρ),
    .host (hseg hostOps4 hostOps4_sub hostOps4_fresh (bd8 m ρ)),
    .region (reg4 m ρ),
    .host (lastSeg m ρ) ]

theorem main_run (c : Dev nD) : main (F := F) c = Pipeline.Seg.run (mainSegs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = bd11 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bd0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (bd11 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]
        · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (bd0 m ρ c)
        from Pipeline.unscopedBufs_held c (bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bd11 m ρ c b)
    (hfin := fun c s' => by
      iintro ⟨⟨Hh, -⟩, HSI⟩
      unfold StableHlo.held
      imodintro
      iapply (pointsTo_read_all (Pipeline.ucRefs τ sig) (fun b => (((c : Thread nD τ)).1, b)) (bd11 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (bd11_arg0 m ρ c), (h c _ (mem_uc main_arg1 (by decide))).trans (bd11_arg1 m ρ c),
     (h c _ (mem_uc main_arg2 (by decide))).trans (bd11_arg2 m ρ c), (h c _ (mem_uc main_arg3 (by decide))).trans (bd11_arg3 m ρ c),
     (h c _ (mem_uc main_arg4 (by decide))).trans (bd11_arg4 m ρ c), (h c _ (mem_uc main_arg5 (by decide))).trans (bd11_arg5 m ρ c),
     (h c _ (mem_uc main_arg6 (by decide))).trans (bd11_arg6 m ρ c), (h c _ (mem_uc main_arg7 (by decide))).trans (bd11_arg7 m ρ c),
     (h c _ (mem_uc main_arg8 (by decide))).trans (bd11_arg8 m ρ c), (h c _ (mem_uc main_arg9 (by decide))).trans (bd11_arg9 m ρ c),
     (h c _ (mem_uc main_arg10 (by decide))).trans (bd11_arg10 m ρ c), (h c _ (mem_uc main_arg11 (by decide))).trans (bd11_arg11 m ρ c),
     (h c _ (mem_uc main_arg12 (by decide))).trans (bd11_arg12 m ρ c), (h c _ (mem_uc main_arg13 (by decide))).trans (bd11_arg13 m ρ c)⟩)
    (run_all m ρ)

end Cert.Kernel.Hand

end
-- ==== Proof.KI.LinCore.lean ====
import proofs.«422796_j77979426226619_2_alg».proof.Proof.Gen.KernelIdeal.Launch
import proofs.«422796_j77979426226619_2_alg».proof.Proof.Gen.KernelIdeal.Skeleton
import proofs.«422796_j77979426226619_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rX : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

def lin_out (x0 : Vec F S2000x128 .f32) (x1 : Vec F S128x128 .f32) (x2 : Vec F S1x128 .f32) : Vec F S2000x128 .bf16 :=
  View.canon [⟨rX, k0_pay1 (View.ld x0 rX) (View.ld x1 rW) (View.ld x2 rB)⟩]

theorem lin_cover (p0 : Vec F S2000x128 .bf16) (y : S2000x128.Idx) :
    ∃ pc ∈ ([⟨rX, p0⟩] : List (View.Piece (Elt F) S2000x128 .bf16)), y ∈ pc.1.set :=
  View.cover_of_tiled [⟨rX, p0⟩] S2000x128.size (by rfl) y

set_option maxHeartbeats 1000000 in
/-- The four dense layers run one kernel under four names: its run is stated for any `k` equal to the first. -/
theorem lin_kernel
    (k : (i : grid0.Coords) → (arg1 : Memref sig .tc .vmem S2000x128 .f32) → arg1.IsWhole → (arg2 : Memref sig .tc .vmem S128x128 .f32) → arg2.IsWhole →
      (arg3 : Memref sig .tc .vmem S1x128 .f32) → arg3.IsWhole → (arg4 : Memref sig .tc .vmem S2000x128 .bf16) → arg4.IsWhole → Prog (TpuEff nD τ sig (Elt F) Λ₀ .tc) PUnit)
    (hk : k = cc0__linear_relu_kernel (F := F))
    (c : Dev nD) (E : Set ℕ) (i : grid0.Coords) (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .bf16) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (lin_out x0 x1 x2)) -∗ K ⟨⟩))
      ⊢ wp frame (wpE (defs₀ (F := F)) Variants.none c none) E (k i arg1 harg1 arg2 harg2 arg3 harg3 arg4 harg4) K := by
  subst hk
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (lin_cover _)

end Cert.KernelIdeal.Hand

end
-- ==== Proof.KI.Lin0.lean ====
import proofs.«422796_j77979426226619_2_alg».proof.Proof.KI.LinCore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def lin0_dat (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => lin_out (iblk0 V c 0 t) (iblk0 V c 1 t) (iblk0 V c 2 t)
  Φ _ := Pipeline.ΦA spec0 c
  q _ := fullShare
  owed _ := 0

theorem lin0_A (c : Dev nD) (w : Fin cfg0.W) : (lin0_dat V c).A w = V c (Pipeline.arrRef spec0 w) := rfl

theorem lin0_after_3 (c : Dev nD) (t : Fin cfg0.N) :
    (lin0_dat V c).after 3 t = lin_out (iblk0 V c 0 t) (iblk0 V c 1 t) (iblk0 V c 2 t) := by dsimp only [lin0_dat]

theorem lin0_before_0 (c : Dev nD) (t : Fin cfg0.N) (d) : (lin0_dat V c).before 0 t d = iblk0 V c 0 t :=
  ((lin0_dat V c).before_in_eq_fetched 0 rfl (fun _ => rfl) (fun _ _ _ => rfl) (fun _ => rfl) t d).trans rfl
theorem lin0_before_1 (c : Dev nD) (t : Fin cfg0.N) (d) : (lin0_dat V c).before 1 t d = iblk0 V c 1 t :=
  ((lin0_dat V c).before_in_eq_fetched 1 rfl (fun _ => rfl) (fun _ _ _ => rfl) (fun _ => rfl) t d).trans rfl
theorem lin0_before_2 (c : Dev nD) (t : Fin cfg0.N) (d) : (lin0_dat V c).before 2 t d = iblk0 V c 2 t :=
  ((lin0_dat V c).before_in_eq_fetched 2 rfl (fun _ => rfl) (fun _ _ _ => rfl) (fun _ => rfl) t d).trans rfl

def lin0_pre (c : Dev nD) (t : Fin cfg0.N) : sProp 𝕄 :=
  iprop((lin0_dat V c).Φ t.castSucc ∗ (lin0_dat V c).owesAt () t.castSucc
    ∗ (∃ d, owns (c : Thread nD τ) (st0_0 t) fullShare ((lin0_dat V c).before 0 t d))
    ∗ (∃ d, owns (c : Thread nD τ) (st0_1 t) fullShare ((lin0_dat V c).before 1 t d))
    ∗ (∃ d, owns (c : Thread nD τ) (st0_2 t) fullShare ((lin0_dat V c).before 2 t d))
    ∗ (∃ d, owns (c : Thread nD τ) (st0_3 t) fullShare ((lin0_dat V c).before 3 t d)))

def lin0_post (c : Dev nD) (t : Fin cfg0.N) : sProp 𝕄 :=
  iprop((lin0_dat V c).Φ t.succ ∗ (lin0_dat V c).owesAt () t.succ
    ∗ owns (c : Thread nD τ) (st0_0 t) fullShare ((lin0_dat V c).after 0 t)
    ∗ owns (c : Thread nD τ) (st0_1 t) fullShare ((lin0_dat V c).after 1 t)
    ∗ owns (c : Thread nD τ) (st0_2 t) fullShare ((lin0_dat V c).after 2 t)
    ∗ owns (c : Thread nD τ) (st0_3 t) fullShare ((lin0_dat V c).after 3 t))

theorem lin0_body (c : Dev nD) (t : Fin cfg0.N) :
    lin0_pre V c t ⊢ wp frame (wpE (defs₀ (F := F)) Variants.none c none) Set.univ (bodyAt0 t) (fun _ => lin0_post V c t) := by
  unfold lin0_pre lin0_post bodyAt0
  simp only [lin0_before_0, lin0_before_1, lin0_before_2]
  rw [show (lin0_dat V c).Φ t.succ = (lin0_dat V c).Φ t.castSucc from rfl,
    show (lin0_dat V c).owesAt () t.succ = (lin0_dat V c).owesAt () t.castSucc from rfl,
    show (lin0_dat V c).after 0 t = iblk0 V c 0 t from rfl, show (lin0_dat V c).after 1 t = iblk0 V c 1 t from rfl,
    show (lin0_dat V c).after 2 t = iblk0 V c 2 t from rfl, lin0_after_3]
  iintro ⟨HΦ, Ho, ⟨%d0, H0⟩, ⟨%d1, H1⟩, ⟨%d2, H2⟩, ⟨%d3, H3⟩⟩
  iapply (lin_kernel cc0__linear_relu_kernel rfl c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem lin0_obligation (c : Dev nD) : BodyObligation (lin0_dat (F := F) V c) (defs₀ (F := F)) Variants.none () Set.univ := fun t => by
  rw [bigSep_W0, bigSep_W0]
  exact lin0_body V c t

end Cert.KernelIdeal.Hand

end
-- ==== Proof.KI.Lin1.lean ====
import proofs.«422796_j77979426226619_2_alg».proof.Proof.KI.LinCore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def lin1_dat (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => lin_out (iblk1 V c 0 t) (iblk1 V c 1 t) (iblk1 V c 2 t)
  Φ _ := Pipeline.ΦA spec1 c
  q _ := fullShare
  owed _ := 0

theorem lin1_A (c : Dev nD) (w : Fin cfg1.W) : (lin1_dat V c).A w = V c (Pipeline.arrRef spec1 w) := rfl

theorem lin1_after_3 (c : Dev nD) (t : Fin cfg1.N) :
    (lin1_dat V c).after 3 t = lin_out (iblk1 V c 0 t) (iblk1 V c 1 t) (iblk1 V c 2 t) := by dsimp only [lin1_dat]

theorem lin1_before_0 (c : Dev nD) (t : Fin cfg1.N) (d) : (lin1_dat V c).before 0 t d = iblk1 V c 0 t :=
  ((lin1_dat V c).before_in_eq_fetched 0 rfl (fun _ => rfl) (fun _ _ _ => rfl) (fun _ => rfl) t d).trans rfl
theorem lin1_before_1 (c : Dev nD) (t : Fin cfg1.N) (d) : (lin1_dat V c).before 1 t d = iblk1 V c 1 t :=
  ((lin1_dat V c).before_in_eq_fetched 1 rfl (fun _ => rfl) (fun _ _ _ => rfl) (fun _ => rfl) t d).trans rfl
theorem lin1_before_2 (c : Dev nD) (t : Fin cfg1.N) (d) : (lin1_dat V c).before 2 t d = iblk1 V c 2 t :=
  ((lin1_dat V c).before_in_eq_fetched 2 rfl (fun _ => rfl) (fun _ _ _ => rfl) (fun _ => rfl) t d).trans rfl

def lin1_pre (c : Dev nD) (t : Fin cfg1.N) : sProp 𝕄 :=
  iprop((lin1_dat V c).Φ t.castSucc ∗ (lin1_dat V c).owesAt () t.castSucc
    ∗ (∃ d, owns (c : Thread nD τ) (st1_0 t) fullShare ((lin1_dat V c).before 0 t d))
    ∗ (∃ d, owns (c : Thread nD τ) (st1_1 t) fullShare ((lin1_dat V c).before 1 t d))
    ∗ (∃ d, owns (c : Thread nD τ) (st1_2 t) fullShare ((lin1_dat V c).before 2 t d))
    ∗ (∃ d, owns (c : Thread nD τ) (st1_3 t) fullShare ((lin1_dat V c).before 3 t d)))

def lin1_post (c : Dev nD) (t : Fin cfg1.N) : sProp 𝕄 :=
  iprop((lin1_dat V c).Φ t.succ ∗ (lin1_dat V c).owesAt () t.succ
    ∗ owns (c : Thread nD τ) (st1_0 t) fullShare ((lin1_dat V c).after 0 t)
    ∗ owns (c : Thread nD τ) (st1_1 t) fullShare ((lin1_dat V c).after 1 t)
    ∗ owns (c : Thread nD τ) (st1_2 t) fullShare ((lin1_dat V c).after 2 t)
    ∗ owns (c : Thread nD τ) (st1_3 t) fullShare ((lin1_dat V c).after 3 t))

theorem lin1_body (c : Dev nD) (t : Fin cfg1.N) :
    lin1_pre V c t ⊢ wp frame (wpE (defs₀ (F := F)) Variants.none c none) Set.univ (bodyAt1 t) (fun _ => lin1_post V c t) := by
  unfold lin1_pre lin1_post bodyAt1
  simp only [lin1_before_0, lin1_before_1, lin1_before_2]
  rw [show (lin1_dat V c).Φ t.succ = (lin1_dat V c).Φ t.castSucc from rfl,
    show (lin1_dat V c).owesAt () t.succ = (lin1_dat V c).owesAt () t.castSucc from rfl,
    show (lin1_dat V c).after 0 t = iblk1 V c 0 t from rfl, show (lin1_dat V c).after 1 t = iblk1 V c 1 t from rfl,
    show (lin1_dat V c).after 2 t = iblk1 V c 2 t from rfl, lin1_after_3]
  iintro ⟨HΦ, Ho, ⟨%d0, H0⟩, ⟨%d1, H1⟩, ⟨%d2, H2⟩, ⟨%d3, H3⟩⟩
  iapply (lin_kernel cc1__linear_relu_kernel rfl c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem lin1_obligation (c : Dev nD) : BodyObligation (lin1_dat (F := F) V c) (defs₀ (F := F)) Variants.none () Set.univ := fun t => by
  rw [bigSep_W1, bigSep_W1]
  exact lin1_body V c t

end Cert.KernelIdeal.Hand

end
-- ==== Proof.KI.Lin2.lean ====
import proofs.«422796_j77979426226619_2_alg».proof.Proof.KI.LinCore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def lin2_dat (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => lin_out (iblk2 V c 0 t) (iblk2 V c 1 t) (iblk2 V c 2 t)
  Φ _ := Pipeline.ΦA spec2 c
  q _ := fullShare
  owed _ := 0

theorem lin2_A (c : Dev nD) (w : Fin cfg2.W) : (lin2_dat V c).A w = V c (Pipeline.arrRef spec2 w) := rfl

theorem lin2_after_3 (c : Dev nD) (t : Fin cfg2.N) :
    (lin2_dat V c).after 3 t = lin_out (iblk2 V c 0 t) (iblk2 V c 1 t) (iblk2 V c 2 t) := by dsimp only [lin2_dat]

theorem lin2_before_0 (c : Dev nD) (t : Fin cfg2.N) (d) : (lin2_dat V c).before 0 t d = iblk2 V c 0 t :=
  ((lin2_dat V c).before_in_eq_fetched 0 rfl (fun _ => rfl) (fun _ _ _ => rfl) (fun _ => rfl) t d).trans rfl
theorem lin2_before_1 (c : Dev nD) (t : Fin cfg2.N) (d) : (lin2_dat V c).before 1 t d = iblk2 V c 1 t :=
  ((lin2_dat V c).before_in_eq_fetched 1 rfl (fun _ => rfl) (fun _ _ _ => rfl) (fun _ => rfl) t d).trans rfl
theorem lin2_before_2 (c : Dev nD) (t : Fin cfg2.N) (d) : (lin2_dat V c).before 2 t d = iblk2 V c 2 t :=
  ((lin2_dat V c).before_in_eq_fetched 2 rfl (fun _ => rfl) (fun _ _ _ => rfl) (fun _ => rfl) t d).trans rfl

def lin2_pre (c : Dev nD) (t : Fin cfg2.N) : sProp 𝕄 :=
  iprop((lin2_dat V c).Φ t.castSucc ∗ (lin2_dat V c).owesAt () t.castSucc
    ∗ (∃ d, owns (c : Thread nD τ) (st2_0 t) fullShare ((lin2_dat V c).before 0 t d))
    ∗ (∃ d, owns (c : Thread nD τ) (st2_1 t) fullShare ((lin2_dat V c).before 1 t d))
    ∗ (∃ d, owns (c : Thread nD τ) (st2_2 t) fullShare ((lin2_dat V c).before 2 t d))
    ∗ (∃ d, owns (c : Thread nD τ) (st2_3 t) fullShare ((lin2_dat V c).before 3 t d)))

def lin2_post (c : Dev nD) (t : Fin cfg2.N) : sProp 𝕄 :=
  iprop((lin2_dat V c).Φ t.succ ∗ (lin2_dat V c).owesAt () t.succ
    ∗ owns (c : Thread nD τ) (st2_0 t) fullShare ((lin2_dat V c).after 0 t)
    ∗ owns (c : Thread nD τ) (st2_1 t) fullShare ((lin2_dat V c).after 1 t)
    ∗ owns (c : Thread nD τ) (st2_2 t) fullShare ((lin2_dat V c).after 2 t)
    ∗ owns (c : Thread nD τ) (st2_3 t) fullShare ((lin2_dat V c).after 3 t))

theorem lin2_body (c : Dev nD) (t : Fin cfg2.N) :
    lin2_pre V c t ⊢ wp frame (wpE (defs₀ (F := F)) Variants.none c none) Set.univ (bodyAt2 t) (fun _ => lin2_post V c t) := by
  unfold lin2_pre lin2_post bodyAt2
  simp only [lin2_before_0, lin2_before_1, lin2_before_2]
  rw [show (lin2_dat V c).Φ t.succ = (lin2_dat V c).Φ t.castSucc from rfl,
    show (lin2_dat V c).owesAt () t.succ = (lin2_dat V c).owesAt () t.castSucc from rfl,
    show (lin2_dat V c).after 0 t = iblk2 V c 0 t from rfl, show (lin2_dat V c).after 1 t = iblk2 V c 1 t from rfl,
    show (lin2_dat V c).after 2 t = iblk2 V c 2 t from rfl, lin2_after_3]
  iintro ⟨HΦ, Ho, ⟨%d0, H0⟩, ⟨%d1, H1⟩, ⟨%d2, H2⟩, ⟨%d3, H3⟩⟩
  iapply (lin_kernel cc2__linear_relu_kernel rfl c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem lin2_obligation (c : Dev nD) : BodyObligation (lin2_dat (F := F) V c) (defs₀ (F := F)) Variants.none () Set.univ := fun t => by
  rw [bigSep_W2, bigSep_W2]
  exact lin2_body V c t

end Cert.KernelIdeal.Hand

end
-- ==== Proof.KI.Lin3.lean ====
import proofs.«422796_j77979426226619_2_alg».proof.Proof.KI.LinCore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def lin3_dat (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => lin_out (iblk3 V c 0 t) (iblk3 V c 1 t) (iblk3 V c 2 t)
  Φ _ := Pipeline.ΦA spec3 c
  q _ := fullShare
  owed _ := 0

theorem lin3_A (c : Dev nD) (w : Fin cfg3.W) : (lin3_dat V c).A w = V c (Pipeline.arrRef spec3 w) := rfl

theorem lin3_after_3 (c : Dev nD) (t : Fin cfg3.N) :
    (lin3_dat V c).after 3 t = lin_out (iblk3 V c 0 t) (iblk3 V c 1 t) (iblk3 V c 2 t) := by dsimp only [lin3_dat]

theorem lin3_before_0 (c : Dev nD) (t : Fin cfg3.N) (d) : (lin3_dat V c).before 0 t d = iblk3 V c 0 t :=
  ((lin3_dat V c).before_in_eq_fetched 0 rfl (fun _ => rfl) (fun _ _ _ => rfl) (fun _ => rfl) t d).trans rfl
theorem lin3_before_1 (c : Dev nD) (t : Fin cfg3.N) (d) : (lin3_dat V c).before 1 t d = iblk3 V c 1 t :=
  ((lin3_dat V c).before_in_eq_fetched 1 rfl (fun _ => rfl) (fun _ _ _ => rfl) (fun _ => rfl) t d).trans rfl
theorem lin3_before_2 (c : Dev nD) (t : Fin cfg3.N) (d) : (lin3_dat V c).before 2 t d = iblk3 V c 2 t :=
  ((lin3_dat V c).before_in_eq_fetched 2 rfl (fun _ => rfl) (fun _ _ _ => rfl) (fun _ => rfl) t d).trans rfl

def lin3_pre (c : Dev nD) (t : Fin cfg3.N) : sProp 𝕄 :=
  iprop((lin3_dat V c).Φ t.castSucc ∗ (lin3_dat V c).owesAt () t.castSucc
    ∗ (∃ d, owns (c : Thread nD τ) (st3_0 t) fullShare ((lin3_dat V c).before 0 t d))
    ∗ (∃ d, owns (c : Thread nD τ) (st3_1 t) fullShare ((lin3_dat V c).before 1 t d))
    ∗ (∃ d, owns (c : Thread nD τ) (st3_2 t) fullShare ((lin3_dat V c).before 2 t d))
    ∗ (∃ d, owns (c : Thread nD τ) (st3_3 t) fullShare ((lin3_dat V c).before 3 t d)))

def lin3_post (c : Dev nD) (t : Fin cfg3.N) : sProp 𝕄 :=
  iprop((lin3_dat V c).Φ t.succ ∗ (lin3_dat V c).owesAt () t.succ
    ∗ owns (c : Thread nD τ) (st3_0 t) fullShare ((lin3_dat V c).after 0 t)
    ∗ owns (c : Thread nD τ) (st3_1 t) fullShare ((lin3_dat V c).after 1 t)
    ∗ owns (c : Thread nD τ) (st3_2 t) fullShare ((lin3_dat V c).after 2 t)
    ∗ owns (c : Thread nD τ) (st3_3 t) fullShare ((lin3_dat V c).after 3 t))

theorem lin3_body (c : Dev nD) (t : Fin cfg3.N) :
    lin3_pre V c t ⊢ wp frame (wpE (defs₀ (F := F)) Variants.none c none) Set.univ (bodyAt3 t) (fun _ => lin3_post V c t) := by
  unfold lin3_pre lin3_post bodyAt3
  simp only [lin3_before_0, lin3_before_1, lin3_before_2]
  rw [show (lin3_dat V c).Φ t.succ = (lin3_dat V c).Φ t.castSucc from rfl,
    show (lin3_dat V c).owesAt () t.succ = (lin3_dat V c).owesAt () t.castSucc from rfl,
    show (lin3_dat V c).after 0 t = iblk3 V c 0 t from rfl, show (lin3_dat V c).after 1 t = iblk3 V c 1 t from rfl,
    show (lin3_dat V c).after 2 t = iblk3 V c 2 t from rfl, lin3_after_3]
  iintro ⟨HΦ, Ho, ⟨%d0, H0⟩, ⟨%d1, H1⟩, ⟨%d2, H2⟩, ⟨%d3, H3⟩⟩
  iapply (lin_kernel cc3__linear_relu_kernel rfl c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem lin3_obligation (c : Dev nD) : BodyObligation (lin3_dat (F := F) V c) (defs₀ (F := F)) Variants.none () Set.univ := fun t => by
  rw [bigSep_W3, bigSep_W3]
  exact lin3_body V c t

end Cert.KernelIdeal.Hand

end
-- ==== Proof.KI.Pool.lean ====
import proofs.«422796_j77979426226619_2_alg».proof.Proof.Gen.KernelIdeal.Launch
import proofs.«422796_j77979426226619_2_alg».proof.Proof.Gen.KernelIdeal.Skeleton
import proofs.«422796_j77979426226619_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop :=
  (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
abbrev cond4_1 (i : grid4.Coords) : Prop := k4_cond2 i = 1#1
theorem hcond4_1 : ∀ t : Fin cfg4.N, cond4_1 (grid4.coords t) ↔ t.val = 24 :=
  (by decide +kernel : ∀ t : Fin grid4.N, cond4_1 (grid4.coords t) ↔ t.val = 24)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem idleAt4_4 : ∀ t : Fin cfg4.N, ¬cond4_1 (grid4.coords t) → cfg4.idle 4 (grid4.coords t) = true := by decide +kernel
theorem idleAt4_5 : ∀ t : Fin cfg4.N, ¬cond4_1 (grid4.coords t) → cfg4.idle 5 (grid4.coords t) = true := by decide +kernel
theorem noFlush4_4 : ∀ t : Fin cfg4.N, ¬cond4_1 (grid4.coords t) → (cfg4.win 4).flush t = false := by decide +kernel
theorem noFlush4_5 : ∀ t : Fin cfg4.N, ¬cond4_1 (grid4.coords t) → (cfg4.win 5).flush t = false := by decide +kernel
theorem liveAt4_4 : ∀ t : Fin cfg4.N, cond4_1 (grid4.coords t) → cfg4.idle 4 (grid4.coords t) = false := by decide +kernel
theorem liveAt4_5 : ∀ t : Fin cfg4.N, cond4_1 (grid4.coords t) → cfg4.idle 5 (grid4.coords t) = false := by decide +kernel

theorem hz4 : (![0, 0] : Fin 2 → ℕ) = fun _ => 0 := funext fun a => by fin_cases a <;> rfl

theorem read_writes_cons_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (p : S.Idx → Elt F e) (L : List (View.Piece (Elt F) S e)) :
    v.read (Elt F) (v.writes (Elt F) f ((⟨Rect.unit off S.size inb, p⟩ : View.Piece (Elt F) S e) :: L)) = p :=
  (View.read_writes_eq_canon v f _ (fun y => ⟨_, List.mem_cons_self, View.mem_set_unit_zero h inb y⟩)).trans
    (View.canon_cons_unit_zero h inb p L)

theorem readAt_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f :=
  View.ld_unit_zero h inb _

set_option maxHeartbeats 1000000 in
theorem pool_run_A (c : Dev nD) (E : Set ℕ) (i : grid4.Coords)
    (arg1 : Memref sig .tc .vmem S2000x1 .i32) (harg1 : arg1.IsWhole) (arg2 : Memref sig .tc .vmem S2000x128 .bf16) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S512x128 .f32) (harg7 : arg7.IsWhole) (arg8 : Memref sig .tc .vmem S1x512 .f32) (harg8 : arg8.IsWhole)
    (hc0 : cond4_0 i) (hc1 : ¬cond4_1 i)
    (x0 : Vec F S2000x1 .i32) (x1 : Vec F S2000x128 .bf16) (K : PUnit → sProp 𝕄) :
    iprop(owns (c : Thread nD τ) arg1 fullShare x0 ∗ owns (c : Thread nD τ) arg2 fullShare x1
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg7 fullShare (k4_pay4 x0 x1 k4_pay1) ∗ owns (c : Thread nD τ) arg8 fullShare (k4_pay5 x0 k4_pay2)) -∗ K ⟨⟩))
      ⊢ wp frame (wpE (defs₀ (F := F)) Variants.none c none) E
          (cc4__pool_classify_kernel i arg1 harg1 arg2 harg2 arg3 harg3 arg4 harg4 arg5 harg5 arg6 harg6 arg7 harg7 arg8 harg8) K := by
  simp only [cc4__pool_classify_kernel_eq_skeleton]; unfold cc4__pool_classify_kernel_skel
  unfold owns
  iintro ⟨⟨%f0, %hf0, H0⟩, ⟨%f1, %hf1, H1⟩, ⟨%ds0, %fs0, -, HS0⟩, ⟨%ds1, %fs1, -, HS1⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    sl_unfold_words
    refine (read_writes_cons_whole _ _ hz4 _ _ _).trans ?_
    rw [View.readCov_cons_toLoadRect, readAt_whole _ _ hz4, readAt_whole _ _ hz4]
  iexists _; isplitr
  swap; · iexact HS1
  ipureintro
  sl_unfold_words
  refine (read_writes_cons_whole _ _ hz4 _ _ _).trans ?_
  rw [View.readCov_cons_toLoadRect, readAt_whole _ _ hz4]

set_option maxHeartbeats 1000000 in
theorem pool_run_B (c : Dev nD) (E : Set ℕ) (i : grid4.Coords)
    (arg1 : Memref sig .tc .vmem S2000x1 .i32) (harg1 : arg1.IsWhole) (arg2 : Memref sig .tc .vmem S2000x128 .bf16) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S512x128 .f32) (harg7 : arg7.IsWhole) (arg8 : Memref sig .tc .vmem S1x512 .f32) (harg8 : arg8.IsWhole)
    (hc0 : ¬cond4_0 i) (hc1 : ¬cond4_1 i)
    (x0 : Vec F S2000x1 .i32) (x1 : Vec F S2000x128 .bf16) (s0 : Vec F S512x128 .f32) (s1 : Vec F S1x512 .f32) (K : PUnit → sProp 𝕄) :
    iprop(owns (c : Thread nD τ) arg1 fullShare x0 ∗ owns (c : Thread nD τ) arg2 fullShare x1
        ∗ owns (c : Thread nD τ) arg7 fullShare s0 ∗ owns (c : Thread nD τ) arg8 fullShare s1
        ∗ (iprop(owns (c : Thread nD τ) arg1 fullShare x0 ∗ owns (c : Thread nD τ) arg2 fullShare x1
            ∗ owns (c : Thread nD τ) arg7 fullShare (k4_pay4 x0 x1 s0) ∗ owns (c : Thread nD τ) arg8 fullShare (k4_pay5 x0 s1)) -∗ K ⟨⟩))
      ⊢ wp frame (wpE (defs₀ (F := F)) Variants.none c none) E
          (cc4__pool_classify_kernel i arg1 harg1 arg2 harg2 arg3 harg3 arg4 harg4 arg5 harg5 arg6 harg6 arg7 harg7 arg8 harg8) K := by
  simp only [cc4__pool_classify_kernel_eq_skeleton]; unfold cc4__pool_classify_kernel_skel
  unfold owns
  iintro ⟨⟨%f0, %hf0, H0⟩, ⟨%f1, %hf1, H1⟩, ⟨%fs0, %hfs0, HS0⟩, ⟨%fs1, %hfs1, HS1⟩, Hk⟩
  subst hf0; subst hf1; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    refine (read_writes_cons_whole _ _ hz4 _ _ _).trans ?_
    rw [readAt_whole _ _ hz4, readAt_whole _ _ hz4, readAt_whole _ _ hz4]
  iexists _; isplitr
  swap; · iexact HS1
  ipureintro
  refine (read_writes_cons_whole _ _ hz4 _ _ _).trans ?_
  rw [readAt_whole _ _ hz4, readAt_whole _ _ hz4]

set_option maxHeartbeats 1000000 in

theorem pool_run_C (c : Dev nD) (E : Set ℕ) (i : grid4.Coords)
    (arg1 : Memref sig .tc .vmem S2000x1 .i32) (harg1 : arg1.IsWhole) (arg2 : Memref sig .tc .vmem S2000x128 .bf16) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S512x128 .f32) (harg7 : arg7.IsWhole) (arg8 : Memref sig .tc .vmem S1x512 .f32) (harg8 : arg8.IsWhole)
    (hc0 : ¬cond4_0 i) (hc1 : cond4_1 i)
    (x0 : Vec F S2000x1 .i32) (x1 : Vec F S2000x128 .bf16) (x2 : Vec F S128x128 .f32) (x3 : Vec F S1x128 .f32)
    (s0 : Vec F S512x128 .f32) (s1 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k4_pay6 (k4_pay5 x0 s1) (k4_pay4 x0 x1 s0))
            ∗ owns (c : Thread nD τ) arg6 fullShare (k4_pay7 (k4_pay5 x0 s1) (k4_pay4 x0 x1 s0) x2 x3)
            ∗ owns (c : Thread nD τ) arg7 fullShare (k4_pay4 x0 x1 s0) ∗ owns (c : Thread nD τ) arg8 fullShare (k4_pay5 x0 s1)) -∗ K ⟨⟩))
      ⊢ wp frame (wpE (defs₀ (F := F)) Variants.none c none) E
          (cc4__pool_classify_kernel i arg1 harg1 arg2 harg2 arg3 harg3 arg4 harg4 arg5 harg5 arg6 harg6 arg7 harg7 arg8 harg8) K := by
  simp only [cc4__pool_classify_kernel_eq_skeleton]; unfold cc4__pool_classify_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  subst hf0; subst hf1; subst hf2; subst hf3; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    refine (read_writes_cons_whole _ _ hz4 _ _ _).trans ?_
    rw [View.readCov_cons_toLoadRect, View.readCov_cons_toLoadRect, readAt_whole _ _ hz4, readAt_whole _ _ hz4,
      readAt_whole _ _ hz4, readAt_whole _ _ hz4]
  isplitl [H5]
  · iexists _; isplitr
    swap; · iexact H5
    ipureintro
    sl_unfold_words
    refine (read_writes_cons_whole _ _ hz4 _ _ _).trans ?_
    rw [View.readCov_cons_toLoadRect, View.readCov_cons_toLoadRect, readAt_whole _ _ hz4, readAt_whole _ _ hz4,
      readAt_whole _ _ hz4, readAt_whole _ _ hz4, readAt_whole _ _ hz4, readAt_whole _ _ hz4]
  isplitl [HS0]
  · iexists _; isplitr
    swap; · iexact HS0
    ipureintro
    sl_unfold_words
    refine (read_writes_cons_whole _ _ hz4 _ _ _).trans ?_
    rw [readAt_whole _ _ hz4, readAt_whole _ _ hz4, readAt_whole _ _ hz4]
  iexists _; isplitr
  swap; · iexact HS1
  ipureintro
  sl_unfold_words
  refine (read_writes_cons_whole _ _ hz4 _ _ _).trans ?_
  rw [readAt_whole _ _ hz4, readAt_whole _ _ hz4]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4_0 : Memref sig .tc .vmem S512x128 .f32 := Memref.whole cc4_scratch0
abbrev scM4_1 : Memref sig .tc .vmem S1x512 .f32 := Memref.whole cc4_scratch1

def pool_acc (c : Dev nD) : (n : ℕ) → n < cfg4.N → Vec F S512x128 .f32 × Vec F S1x512 .f32
  | 0, hn => (k4_pay4 (iblk4 V c 0 ⟨0, hn⟩) (iblk4 V c 1 ⟨0, hn⟩) k4_pay1, k4_pay5 (iblk4 V c 0 ⟨0, hn⟩) k4_pay2)
  | n + 1, hn => (k4_pay4 (iblk4 V c 0 ⟨n + 1, hn⟩) (iblk4 V c 1 ⟨n + 1, hn⟩) (pool_acc c n (Nat.lt_of_succ_lt hn)).1,
      k4_pay5 (iblk4 V c 0 ⟨n + 1, hn⟩) (pool_acc c n (Nat.lt_of_succ_lt hn)).2)

theorem pool_acc_first (c : Dev nD) (t : Fin cfg4.N) (h : t.val = 0) :
    pool_acc V c t.val t.isLt
      = (k4_pay4 (iblk4 V c 0 t) (iblk4 V c 1 t) k4_pay1, k4_pay5 (iblk4 V c 0 t) k4_pay2) := by
  obtain ⟨n, hn⟩ := t
  cases n with
  | zero => exact rfl
  | succ n => exact absurd h (Nat.succ_ne_zero n)

theorem pool_acc_later (c : Dev nD) (t : Fin cfg4.N) (h : t.val ≠ 0) :
    pool_acc V c t.val t.isLt
      = (k4_pay4 (iblk4 V c 0 t) (iblk4 V c 1 t) (pool_acc V c (t.val - 1) (Nat.lt_of_le_of_lt (Nat.sub_le _ _) t.isLt)).1,
          k4_pay5 (iblk4 V c 0 t) (pool_acc V c (t.val - 1) (Nat.lt_of_le_of_lt (Nat.sub_le _ _) t.isLt)).2) := by
  obtain ⟨n, hn⟩ := t
  cases n with
  | zero => exact absurd rfl h
  | succ n => exact rfl

abbrev tLast4 : Fin cfg4.N := ⟨24, by decide⟩

def pool_hg (c : Dev nD) : Vec F S512x128 .f32 :=
  k4_pay6 (pool_acc V c 24 (by decide)).2 (pool_acc V c 24 (by decide)).1

def pool_logits (c : Dev nD) : Vec F S512x128 .f32 :=
  k4_pay7 (pool_acc V c 24 (by decide)).2 (pool_acc V c 24 (by decide)).1 (iblk4 V c 2 tLast4) (iblk4 V c 3 tLast4)

theorem pool_hg_at (c : Dev nD) (t : Fin cfg4.N) (h : t.val = 24) :
    pool_hg V c = k4_pay6 (pool_acc V c t.val t.isLt).2 (pool_acc V c t.val t.isLt).1 := by
  obtain rfl : t = tLast4 := Fin.ext h
  rfl
theorem pool_logits_at (c : Dev nD) (t : Fin cfg4.N) (h : t.val = 24) :
    pool_logits V c = k4_pay7 (pool_acc V c t.val t.isLt).2 (pool_acc V c t.val t.isLt).1 (iblk4 V c 2 t) (iblk4 V c 3 t) := by
  obtain rfl : t = tLast4 := Fin.ext h
  rfl

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut spec4 c [cc4_scratch0, cc4_scratch1]) ∗ (∃ r, prngReg c r)) := by
  unfold Pipeline.ΦA; rw [scopedRest4_split]; simp only [scM4_0, scM4_1, owns_whole]; try rfl

def pool_Φ (c : Dev nD) : (n : ℕ) → n ≤ cfg4.N → sProp 𝕄
  | 0, _ => Pipeline.ΦA spec4 c
  | n + 1, hn => iprop(iprop(iprop(owns (c : Thread nD τ) scM4_0 fullShare (pool_acc V c n hn).1 ∗ owns (c : Thread nD τ) scM4_1 fullShare (pool_acc V c n hn).2)
      ∗ Pipeline.scopedRestBut spec4 c [cc4_scratch0, cc4_scratch1]) ∗ (∃ r, prngReg c r))

theorem pool_Φ_zero (c : Dev nD) (n : ℕ) (h : n ≤ cfg4.N) (hz : n = 0) : pool_Φ V c n h = Pipeline.ΦA spec4 c := by
  subst hz; rfl

theorem pool_Φ_succ (c : Dev nD) (n : ℕ) (hn : n < cfg4.N) :
    pool_Φ V c (n + 1) hn = iprop(iprop(iprop(owns (c : Thread nD τ) scM4_0 fullShare (pool_acc V c n hn).1 ∗ owns (c : Thread nD τ) scM4_1 fullShare (pool_acc V c n hn).2)
      ∗ Pipeline.scopedRestBut spec4 c [cc4_scratch0, cc4_scratch1]) ∗ (∃ r, prngReg c r)) := rfl

theorem pool_Φ_pos (c : Dev nD) (n : ℕ) (h : n ≤ cfg4.N) (hz : n ≠ 0) :
    pool_Φ V c n h = iprop(iprop(iprop(owns (c : Thread nD τ) scM4_0 fullShare (pool_acc V c (n - 1) (by omega)).1 ∗ owns (c : Thread nD τ) scM4_1 fullShare (pool_acc V c (n - 1) (by omega)).2)
      ∗ Pipeline.scopedRestBut spec4 c [cc4_scratch0, cc4_scratch1]) ∗ (∃ r, prngReg c r)) := by
  cases n with
  | zero => exact absurd rfl hz
  | succ n => rfl

def pool_dat (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => pool_hg V c
    | ⟨5, _⟩ => pool_logits V c
  Φ t := pool_Φ V c t.val (Nat.le_of_lt_succ t.isLt)
  q _ := fullShare
  owed _ := 0

theorem pool_A (c : Dev nD) (w : Fin cfg4.W) : (pool_dat V c).A w = V c (Pipeline.arrRef spec4 w) := by
  dsimp only [pool_dat]

theorem pool_after_in0 (c : Dev nD) (t : Fin cfg4.N) : (pool_dat V c).after 0 t = iblk4 V c 0 t := by dsimp only [pool_dat]
theorem pool_after_in1 (c : Dev nD) (t : Fin cfg4.N) : (pool_dat V c).after 1 t = iblk4 V c 1 t := by dsimp only [pool_dat]
theorem pool_after_in2 (c : Dev nD) (t : Fin cfg4.N) : (pool_dat V c).after 2 t = iblk4 V c 2 t := by dsimp only [pool_dat]
theorem pool_after_in3 (c : Dev nD) (t : Fin cfg4.N) : (pool_dat V c).after 3 t = iblk4 V c 3 t := by dsimp only [pool_dat]
theorem pool_after_out4 (c : Dev nD) (t : Fin cfg4.N) : (pool_dat V c).after 4 t = pool_hg V c := by dsimp only [pool_dat]
theorem pool_after_out5 (c : Dev nD) (t : Fin cfg4.N) : (pool_dat V c).after 5 t = pool_logits V c := by dsimp only [pool_dat]

theorem pool_after_4 (c : Dev nD) : (pool_dat V c).after 4 tLast4 = pool_hg V c := pool_after_out4 V c tLast4
theorem pool_after_5 (c : Dev nD) : (pool_dat V c).after 5 tLast4 = pool_logits V c := pool_after_out5 V c tLast4

theorem pool_before_0 (c : Dev nD) (t : Fin cfg4.N) (d) : (pool_dat V c).before 0 t d = iblk4 V c 0 t :=
  ((pool_dat V c).before_in_eq_fetched 0 rfl (fun _ => rfl) (fun _ _ _ => rfl) (fun _ => rfl) t d).trans rfl
theorem pool_before_1 (c : Dev nD) (t : Fin cfg4.N) (d) : (pool_dat V c).before 1 t d = iblk4 V c 1 t :=
  ((pool_dat V c).before_in_eq_fetched 1 rfl (fun _ => rfl) (fun _ _ _ => rfl) (fun _ => rfl) t d).trans rfl
theorem pool_before_2 (c : Dev nD) (t : Fin cfg4.N) (d) : (pool_dat V c).before 2 t d = iblk4 V c 2 t :=
  ((pool_dat V c).before_in_eq_fetched 2 rfl (fun _ => rfl) (fun _ _ _ => rfl) (fun _ => rfl) t d).trans rfl
theorem pool_before_3 (c : Dev nD) (t : Fin cfg4.N) (d) : (pool_dat V c).before 3 t d = iblk4 V c 3 t :=
  ((pool_dat V c).before_in_eq_fetched 3 rfl (fun _ => rfl) (fun _ _ _ => rfl) (fun _ => rfl) t d).trans rfl

theorem pool_Φ_castSucc (c : Dev nD) (t : Fin cfg4.N) :
    (pool_dat V c).Φ t.castSucc = pool_Φ V c t.val (Nat.le_of_lt t.isLt) := by
  dsimp only [pool_dat]; simp only [Fin.coe_castSucc]

def pool_pre (c : Dev nD) (t : Fin cfg4.N) : sProp 𝕄 :=
  iprop((pool_dat V c).Φ t.castSucc ∗ (pool_dat V c).owesAt () t.castSucc
    ∗ (∃ d, owns (c : Thread nD τ) (st4_0 t) fullShare ((pool_dat V c).before 0 t d))
    ∗ (∃ d, owns (c : Thread nD τ) (st4_1 t) fullShare ((pool_dat V c).before 1 t d))
    ∗ (∃ d, owns (c : Thread nD τ) (st4_2 t) fullShare ((pool_dat V c).before 2 t d))
    ∗ (∃ d, owns (c : Thread nD τ) (st4_3 t) fullShare ((pool_dat V c).before 3 t d))
    ∗ (∃ d, owns (c : Thread nD τ) (st4_4 t) fullShare ((pool_dat V c).before 4 t d))
    ∗ (∃ d, owns (c : Thread nD τ) (st4_5 t) fullShare ((pool_dat V c).before 5 t d)))

def pool_post (c : Dev nD) (t : Fin cfg4.N) : sProp 𝕄 :=
  iprop((pool_dat V c).Φ t.succ ∗ (pool_dat V c).owesAt () t.succ
    ∗ (pool_dat V c).leavesExact 0 t
    ∗ (pool_dat V c).leavesExact 1 t
    ∗ (pool_dat V c).leavesExact 2 t
    ∗ (pool_dat V c).leavesExact 3 t
    ∗ (pool_dat V c).leavesExact 4 t
    ∗ (pool_dat V c).leavesExact 5 t)

theorem pool_leaves_0 (c : Dev nD) (t : Fin cfg4.N) :
    (pool_dat V c).leavesExact 0 t = owns (c : Thread nD τ) (st4_0 t) fullShare (iblk4 V c 0 t) := by
  unfold Dat.leavesExact; rw [liveAt4_0 t, pool_after_in0]
theorem pool_leaves_1 (c : Dev nD) (t : Fin cfg4.N) :
    (pool_dat V c).leavesExact 1 t = owns (c : Thread nD τ) (st4_1 t) fullShare (iblk4 V c 1 t) := by
  unfold Dat.leavesExact; rw [liveAt4_1 t, pool_after_in1]
theorem pool_leaves_2 (c : Dev nD) (t : Fin cfg4.N) :
    (pool_dat V c).leavesExact 2 t = owns (c : Thread nD τ) (st4_2 t) fullShare (iblk4 V c 2 t) := by
  unfold Dat.leavesExact; rw [liveAt4_2 t, pool_after_in2]
theorem pool_leaves_3 (c : Dev nD) (t : Fin cfg4.N) :
    (pool_dat V c).leavesExact 3 t = owns (c : Thread nD τ) (st4_3 t) fullShare (iblk4 V c 3 t) := by
  unfold Dat.leavesExact; rw [liveAt4_3 t, pool_after_in3]
theorem pool_leaves_4_last (c : Dev nD) (t : Fin cfg4.N) (h : cond4_1 (grid4.coords t)) :
    (pool_dat V c).leavesExact 4 t = owns (c : Thread nD τ) (st4_4 t) fullShare (pool_hg V c) := by
  unfold Dat.leavesExact; rw [liveAt4_4 t h, pool_after_out4]
theorem pool_leaves_5_last (c : Dev nD) (t : Fin cfg4.N) (h : cond4_1 (grid4.coords t)) :
    (pool_dat V c).leavesExact 5 t = owns (c : Thread nD τ) (st4_5 t) fullShare (pool_logits V c) := by
  unfold Dat.leavesExact; rw [liveAt4_5 t h, pool_after_out5]

set_option maxHeartbeats 4000000 in

theorem pool_body (c : Dev nD) (t : Fin cfg4.N) :
    pool_pre V c t ⊢ wp frame (wpE (defs₀ (F := F)) Variants.none c none) Set.univ (bodyAt4 t) (fun _ => pool_post V c t) := by
  unfold pool_pre pool_post bodyAt4
  simp only [pool_before_0, pool_before_1, pool_before_2, pool_before_3]
  rw [show (pool_dat V c).owesAt () t.succ = (pool_dat V c).owesAt () t.castSucc from rfl]
  rw [show (pool_dat V c).Φ t.succ = pool_Φ V c (t.val + 1) t.isLt from rfl, pool_Φ_succ]
  rw [pool_leaves_0, pool_leaves_1, pool_leaves_2, pool_leaves_3]
  have hN : t.val < 25 := lt_of_lt_of_eq t.isLt (show cfg4.N = 25 from N_4)
  by_cases h0 : t.val = 0
  ·
    have hc0 : cond4_0 (grid4.coords t) := (hcond4_0 t).mpr h0
    have hc1 : ¬cond4_1 (grid4.coords t) := fun h => by have := (hcond4_1 t).mp h; omega
    rw [Dat.leavesExact_idle (pool_dat V c) 4 t (idleAt4_4 t hc1) (noFlush4_4 t hc1),
      Dat.leavesExact_idle (pool_dat V c) 5 t (idleAt4_5 t hc1) (noFlush4_5 t hc1)]
    rw [pool_acc_first V c t h0]; dsimp only
    rw [pool_Φ_castSucc V c t, pool_Φ_zero V c _ _ h0, PhiA4_eq]
    iintro ⟨⟨⟨⟨HS0, HS1⟩, HR⟩, Hg⟩, Ho, ⟨%d0, H0⟩, ⟨%d1, H1⟩, ⟨%d2, H2⟩, ⟨%d3, H3⟩, H4, H5⟩
    iapply (pool_run_A c Set.univ (grid4.coords t) _ _ _ _ _ _ _ _ _ _ _ _ _ _ _ _ hc0 hc1 (iblk4 V c 0 t) (iblk4 V c 1 t) _)
    isplitl [H0]; · iexact H0
    isplitl [H1]; · iexact H1
    isplitl [HS0]; · iexact HS0
    isplitl [HS1]; · iexact HS1
    iintro ⟨H0, H1, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc0 : ¬cond4_0 (grid4.coords t) := fun h => h0 ((hcond4_0 t).mp h)
    rw [pool_acc_later V c t h0]; dsimp only
    rw [pool_Φ_castSucc V c t, pool_Φ_pos V c _ _ h0]
    by_cases h1 : t.val = 24
    ·
      have hc1 : cond4_1 (grid4.coords t) := (hcond4_1 t).mpr h1
      rw [pool_leaves_4_last V c t hc1, pool_leaves_5_last V c t hc1, pool_hg_at V c t h1, pool_logits_at V c t h1,
        pool_acc_later V c t h0]; dsimp only
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply (pool_run_C c Set.univ (grid4.coords t) _ _ _ _ _ _ _ _ _ _ _ _ _ _ _ _ hc0 hc1 (iblk4 V c 0 t) (iblk4 V c 1 t)
        (iblk4 V c 2 t) (iblk4 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    ·
      have hc1 : ¬cond4_1 (grid4.coords t) := fun h => h1 ((hcond4_1 t).mp h)
      rw [Dat.leavesExact_idle (pool_dat V c) 4 t (idleAt4_4 t hc1) (noFlush4_4 t hc1),
        Dat.leavesExact_idle (pool_dat V c) 5 t (idleAt4_5 t hc1) (noFlush4_5 t hc1)]
      iintro ⟨⟨⟨⟨HS0, HS1⟩, HR⟩, Hg⟩, Ho, ⟨%d0, H0⟩, ⟨%d1, H1⟩, ⟨%d2, H2⟩, ⟨%d3, H3⟩, H4, H5⟩
      iapply (pool_run_B c Set.univ (grid4.coords t) _ _ _ _ _ _ _ _ _ _ _ _ _ _ _ _ hc0 hc1 (iblk4 V c 0 t) (iblk4 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

theorem pool_obligation (c : Dev nD) : BodyObligation (pool_dat (F := F) V c) (defs₀ (F := F)) Variants.none () Set.univ := fun t => by
  rw [bigSep_W4, bigSep_W4]
  exact pool_body V c t

theorem pool_hin (c : Dev nD) : (Pipeline.ΦA spec4 c : sProp 𝕄) ⊢ (pool_dat V c).Φ 0 := by
  rw [show (pool_dat V c).Φ 0 = pool_Φ V c 0 (Nat.zero_le _) from rfl, pool_Φ_zero V c 0 _ rfl]
theorem pool_hout (c : Dev nD) : (pool_dat V c).Φ (Fin.last cfg4.N) ⊢ (Pipeline.ΦA spec4 c : sProp 𝕄) := by
  rw [show (pool_dat V c).Φ (Fin.last cfg4.N) = pool_Φ V c (Fin.last cfg4.N).val (Nat.le_of_lt_succ (Fin.last cfg4.N).isLt) from rfl,
    pool_Φ_pos V c _ _ (by rw [Fin.val_last]; have : cfg4.N = 25 := N_4; omega), PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem pool_owed (c : Dev nD) (t) : (pool_dat V c).owed t = 0 := by dsimp only [pool_dat]
theorem pool_q (c : Dev nD) (w) : (pool_dat V c).q w = fullShare := by dsimp only [pool_dat]

end Cert.KernelIdeal.Hand

end
-- ==== Proof.KI.Run.lean ====
import proofs.«422796_j77979426226619_2_alg».proof.Proof.KI.Lin0
import proofs.«422796_j77979426226619_2_alg».proof.Proof.KI.Lin1
import proofs.«422796_j77979426226619_2_alg».proof.Proof.KI.Lin2
import proofs.«422796_j77979426226619_2_alg».proof.Proof.KI.Lin3
import proofs.«422796_j77979426226619_2_alg».proof.Proof.KI.Pool
import proofs.«422796_j77979426226619_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev bd0 : Dev nD → Valuation τ sig (Elt F) := fun c b => (s₀ m ρ).mem ((c : Dev nD), b)

abbrev bd1 : Dev nD → Valuation τ sig (Elt F) := fun c => StableHlo.after hostOps0 (bd0 m ρ c)
abbrev bv1 : (c : Dev nD) → (b : Ref sig .tc) → Buf (Elt F) ((c : Thread nD τ).loc b) := fun c b => bd1 m ρ c b
theorem bd1_keep (c : Dev nD) (r : Ref sig .tc) (h : r ∉ hostOps0_W) :
    bd1 m ρ c (Proc.devRef .tc r) = bd0 m ρ c (Proc.devRef .tc r) :=
  StableHlo.after_of_writes_sub hostOps0 _ hostOps0_writes h
def bd2 (c : Dev nD) : Valuation τ sig (Elt F) :=
  Pipeline.withArrays spec0 c (bd1 m ρ c) fun w => (lin0_dat (bv1 m ρ) c).arrAt w cfg0.N
theorem bd2_arr (c : Dev nD) (w : Fin cfg0.W) :
    bd2 m ρ c (Proc.devRef .tc (Pipeline.arrRef spec0 w)) = (lin0_dat (bv1 m ρ) c).arrAt w cfg0.N := by
  unfold bd2; exact Pipeline.withArrays_arr spec0 launch0.win.arr_inj c _ _ w
theorem bd2_of_ne (c : Dev nD) (b : Ref sig .tc) (hb : ∀ w, Pipeline.arrRef spec0 w ≠ b) :
    bd2 m ρ c (Proc.devRef .tc b) = bd1 m ρ c (Proc.devRef .tc b) := by
  unfold bd2; exact Pipeline.withArrays_of_ne spec0 c _ _ b hb
theorem bd2_weights (c : Dev nD) :
    bd2 m ρ c (Proc.devRef .tc (Pipeline.arrRef spec0 1)) = bd1 m ρ c (Proc.devRef .tc (Pipeline.arrRef spec0 1)) :=
  (bd2_arr m ρ c 1).trans (((lin0_dat (bv1 m ρ) c).arrAt_in 1 rfl _).trans (lin0_A (bv1 m ρ) c 1))
abbrev bv2 : (c : Dev nD) → (b : Ref sig .tc) → Buf (Elt F) ((c : Thread nD τ).loc b) := fun c b => bd2 m ρ c b
theorem hF0 (c : Dev nD) (w : Fin cfg0.W) : (lin0_dat (bv1 m ρ) c).arrAt w cfg0.N = bv2 m ρ c (Pipeline.arrRef spec0 w) :=
  (bd2_arr m ρ c w).symm
theorem hrest0 (c : Dev nD) : ∀ b, b ∉ Finset.univ.image (Pipeline.arrRef spec0) → bv2 m ρ c b = bv1 m ρ c b :=
  fun b hb => bd2_of_ne m ρ c b fun w e => hb (Finset.mem_image.mpr ⟨w, Finset.mem_univ _, e⟩)

abbrev bd3 : Dev nD → Valuation τ sig (Elt F) := fun c => StableHlo.after hostOps1 (bd2 m ρ c)
abbrev bv3 : (c : Dev nD) → (b : Ref sig .tc) → Buf (Elt F) ((c : Thread nD τ).loc b) := fun c b => bd3 m ρ c b
theorem bd3_keep (c : Dev nD) (r : Ref sig .tc) (h : r ∉ hostOps1_W) :
    bd3 m ρ c (Proc.devRef .tc r) = bd2 m ρ c (Proc.devRef .tc r) :=
  StableHlo.after_of_writes_sub hostOps1 _ hostOps1_writes h
def bd4 (c : Dev nD) : Valuation τ sig (Elt F) :=
  Pipeline.withArrays spec1 c (bd3 m ρ c) fun w => (lin1_dat (bv3 m ρ) c).arrAt w cfg1.N
theorem bd4_arr (c : Dev nD) (w : Fin cfg1.W) :
    bd4 m ρ c (Proc.devRef .tc (Pipeline.arrRef spec1 w)) = (lin1_dat (bv3 m ρ) c).arrAt w cfg1.N := by
  unfold bd4; exact Pipeline.withArrays_arr spec1 launch1.win.arr_inj c _ _ w
theorem bd4_of_ne (c : Dev nD) (b : Ref sig .tc) (hb : ∀ w, Pipeline.arrRef spec1 w ≠ b) :
    bd4 m ρ c (Proc.devRef .tc b) = bd3 m ρ c (Proc.devRef .tc b) := by
  unfold bd4; exact Pipeline.withArrays_of_ne spec1 c _ _ b hb
theorem bd4_weights (c : Dev nD) :
    bd4 m ρ c (Proc.devRef .tc (Pipeline.arrRef spec1 1)) = bd3 m ρ c (Proc.devRef .tc (Pipeline.arrRef spec1 1)) :=
  (bd4_arr m ρ c 1).trans (((lin1_dat (bv3 m ρ) c).arrAt_in 1 rfl _).trans (lin1_A (bv3 m ρ) c 1))
abbrev bv4 : (c : Dev nD) → (b : Ref sig .tc) → Buf (Elt F) ((c : Thread nD τ).loc b) := fun c b => bd4 m ρ c b
theorem hF1 (c : Dev nD) (w : Fin cfg1.W) : (lin1_dat (bv3 m ρ) c).arrAt w cfg1.N = bv4 m ρ c (Pipeline.arrRef spec1 w) :=
  (bd4_arr m ρ c w).symm
theorem hrest1 (c : Dev nD) : ∀ b, b ∉ Finset.univ.image (Pipeline.arrRef spec1) → bv4 m ρ c b = bv3 m ρ c b :=
  fun b hb => bd4_of_ne m ρ c b fun w e => hb (Finset.mem_image.mpr ⟨w, Finset.mem_univ _, e⟩)

abbrev bd5 : Dev nD → Valuation τ sig (Elt F) := fun c => StableHlo.after hostOps2 (bd4 m ρ c)
abbrev bv5 : (c : Dev nD) → (b : Ref sig .tc) → Buf (Elt F) ((c : Thread nD τ).loc b) := fun c b => bd5 m ρ c b
theorem bd5_keep (c : Dev nD) (r : Ref sig .tc) (h : r ∉ hostOps2_W) :
    bd5 m ρ c (Proc.devRef .tc r) = bd4 m ρ c (Proc.devRef .tc r) :=
  StableHlo.after_of_writes_sub hostOps2 _ hostOps2_writes h
def bd6 (c : Dev nD) : Valuation τ sig (Elt F) :=
  Pipeline.withArrays spec2 c (bd5 m ρ c) fun w => (lin2_dat (bv5 m ρ) c).arrAt w cfg2.N
theorem bd6_arr (c : Dev nD) (w : Fin cfg2.W) :
    bd6 m ρ c (Proc.devRef .tc (Pipeline.arrRef spec2 w)) = (lin2_dat (bv5 m ρ) c).arrAt w cfg2.N := by
  unfold bd6; exact Pipeline.withArrays_arr spec2 launch2.win.arr_inj c _ _ w
theorem bd6_of_ne (c : Dev nD) (b : Ref sig .tc) (hb : ∀ w, Pipeline.arrRef spec2 w ≠ b) :
    bd6 m ρ c (Proc.devRef .tc b) = bd5 m ρ c (Proc.devRef .tc b) := by
  unfold bd6; exact Pipeline.withArrays_of_ne spec2 c _ _ b hb
theorem bd6_weights (c : Dev nD) :
    bd6 m ρ c (Proc.devRef .tc (Pipeline.arrRef spec2 1)) = bd5 m ρ c (Proc.devRef .tc (Pipeline.arrRef spec2 1)) :=
  (bd6_arr m ρ c 1).trans (((lin2_dat (bv5 m ρ) c).arrAt_in 1 rfl _).trans (lin2_A (bv5 m ρ) c 1))
abbrev bv6 : (c : Dev nD) → (b : Ref sig .tc) → Buf (Elt F) ((c : Thread nD τ).loc b) := fun c b => bd6 m ρ c b
theorem hF2 (c : Dev nD) (w : Fin cfg2.W) : (lin2_dat (bv5 m ρ) c).arrAt w cfg2.N = bv6 m ρ c (Pipeline.arrRef spec2 w) :=
  (bd6_arr m ρ c w).symm
theorem hrest2 (c : Dev nD) : ∀ b, b ∉ Finset.univ.image (Pipeline.arrRef spec2) → bv6 m ρ c b = bv5 m ρ c b :=
  fun b hb => bd6_of_ne m ρ c b fun w e => hb (Finset.mem_image.mpr ⟨w, Finset.mem_univ _, e⟩)

abbrev bd7 : Dev nD → Valuation τ sig (Elt F) := fun c => StableHlo.after hostOps3 (bd6 m ρ c)
abbrev bv7 : (c : Dev nD) → (b : Ref sig .tc) → Buf (Elt F) ((c : Thread nD τ).loc b) := fun c b => bd7 m ρ c b
theorem bd7_keep (c : Dev nD) (r : Ref sig .tc) (h : r ∉ hostOps3_W) :
    bd7 m ρ c (Proc.devRef .tc r) = bd6 m ρ c (Proc.devRef .tc r) :=
  StableHlo.after_of_writes_sub hostOps3 _ hostOps3_writes h
def bd8 (c : Dev nD) : Valuation τ sig (Elt F) :=
  Pipeline.withArrays spec3 c (bd7 m ρ c) fun w => (lin3_dat (bv7 m ρ) c).arrAt w cfg3.N
theorem bd8_arr (c : Dev nD) (w : Fin cfg3.W) :
    bd8 m ρ c (Proc.devRef .tc (Pipeline.arrRef spec3 w)) = (lin3_dat (bv7 m ρ) c).arrAt w cfg3.N := by
  unfold bd8; exact Pipeline.withArrays_arr spec3 launch3.win.arr_inj c _ _ w
theorem bd8_of_ne (c : Dev nD) (b : Ref sig .tc) (hb : ∀ w, Pipeline.arrRef spec3 w ≠ b) :
    bd8 m ρ c (Proc.devRef .tc b) = bd7 m ρ c (Proc.devRef .tc b) := by
  unfold bd8; exact Pipeline.withArrays_of_ne spec3 c _ _ b hb
theorem bd8_weights (c : Dev nD) :
    bd8 m ρ c (Proc.devRef .tc (Pipeline.arrRef spec3 1)) = bd7 m ρ c (Proc.devRef .tc (Pipeline.arrRef spec3 1)) :=
  (bd8_arr m ρ c 1).trans (((lin3_dat (bv7 m ρ) c).arrAt_in 1 rfl _).trans (lin3_A (bv7 m ρ) c 1))
abbrev bv8 : (c : Dev nD) → (b : Ref sig .tc) → Buf (Elt F) ((c : Thread nD τ).loc b) := fun c b => bd8 m ρ c b
theorem hF3 (c : Dev nD) (w : Fin cfg3.W) : (lin3_dat (bv7 m ρ) c).arrAt w cfg3.N = bv8 m ρ c (Pipeline.arrRef spec3 w) :=
  (bd8_arr m ρ c w).symm
theorem hrest3 (c : Dev nD) : ∀ b, b ∉ Finset.univ.image (Pipeline.arrRef spec3) → bv8 m ρ c b = bv7 m ρ c b :=
  fun b hb => bd8_of_ne m ρ c b fun w e => hb (Finset.mem_image.mpr ⟨w, Finset.mem_univ _, e⟩)

abbrev bd9 : Dev nD → Valuation τ sig (Elt F) := fun c => StableHlo.after hostOps4 (bd8 m ρ c)
abbrev bv9 : (c : Dev nD) → (b : Ref sig .tc) → Buf (Elt F) ((c : Thread nD τ).loc b) := fun c b => bd9 m ρ c b
theorem bd9_keep (c : Dev nD) (r : Ref sig .tc) (h : r ∉ hostOps4_W) :
    bd9 m ρ c (Proc.devRef .tc r) = bd8 m ρ c (Proc.devRef .tc r) :=
  StableHlo.after_of_writes_sub hostOps4 _ hostOps4_writes h
def bd10 (c : Dev nD) : Valuation τ sig (Elt F) :=
  Pipeline.withArrays spec4 c (bd9 m ρ c) fun w => (pool_dat (bv9 m ρ) c).arrAt w cfg4.N
theorem bd10_arr (c : Dev nD) (w : Fin cfg4.W) :
    bd10 m ρ c (Proc.devRef .tc (Pipeline.arrRef spec4 w)) = (pool_dat (bv9 m ρ) c).arrAt w cfg4.N := by
  unfold bd10; exact Pipeline.withArrays_arr spec4 launch4.win.arr_inj c _ _ w
theorem bd10_of_ne (c : Dev nD) (b : Ref sig .tc) (hb : ∀ w, Pipeline.arrRef spec4 w ≠ b) :
    bd10 m ρ c (Proc.devRef .tc b) = bd9 m ρ c (Proc.devRef .tc b) := by
  unfold bd10; exact Pipeline.withArrays_of_ne spec4 c _ _ b hb
abbrev bv10 : (c : Dev nD) → (b : Ref sig .tc) → Buf (Elt F) ((c : Thread nD τ).loc b) := fun c b => bd10 m ρ c b
theorem hF4 (c : Dev nD) (w : Fin cfg4.W) : (pool_dat (bv9 m ρ) c).arrAt w cfg4.N = bv10 m ρ c (Pipeline.arrRef spec4 w) :=
  (bd10_arr m ρ c w).symm
theorem hrest4 (c : Dev nD) : ∀ b, b ∉ Finset.univ.image (Pipeline.arrRef spec4) → bv10 m ρ c b = bv9 m ρ c b :=
  fun b hb => bd10_of_ne m ρ c b fun w e => hb (Finset.mem_image.mpr ⟨w, Finset.mem_univ _, e⟩)
abbrev bd11 : Dev nD → Valuation τ sig (Elt F) := fun c => StableHlo.after hostOps5 (bd10 m ρ c)
theorem bd11_keep (c : Dev nD) (r : Ref sig .tc) (h : r ∉ hostOps5_W) :
    bd11 m ρ c (Proc.devRef .tc r) = bd10 m ρ c (Proc.devRef .tc r) :=
  StableHlo.after_of_writes_sub hostOps5 _ hostOps5_writes h

/-- Each step up to the last dense layer either leaves the buffer alone or has no window on it, so the equalities chain. -/
theorem bd8_kept (c : Dev nD) (b : Ref sig .tc)
    (h : (∀ w, Pipeline.arrRef spec3 w ≠ b) ∧ b ∉ hostOps3_W ∧ (∀ w, Pipeline.arrRef spec2 w ≠ b) ∧ b ∉ hostOps2_W
      ∧ (∀ w, Pipeline.arrRef spec1 w ≠ b) ∧ b ∉ hostOps1_W ∧ (∀ w, Pipeline.arrRef spec0 w ≠ b) ∧ b ∉ hostOps0_W) :
    bd8 m ρ c (Proc.devRef .tc b) = m ((c : Thread nD τ).loc b) :=
  (bd8_of_ne m ρ c b h.1).trans <| (bd7_keep m ρ c b h.2.1).trans <| (bd6_of_ne m ρ c b h.2.2.1).trans <|
  (bd5_keep m ρ c b h.2.2.2.1).trans <| (bd4_of_ne m ρ c b h.2.2.2.2.1).trans <| (bd3_keep m ρ c b h.2.2.2.2.2.1).trans <|
  (bd2_of_ne m ρ c b h.2.2.2.2.2.2.1).trans <| (bd1_keep m ρ c b h.2.2.2.2.2.2.2).trans rfl
theorem bd11_kept (c : Dev nD) (b : Ref sig .tc) (h : b ∉ hostOps5_W ∧ (∀ w, Pipeline.arrRef spec4 w ≠ b) ∧ b ∉ hostOps4_W)
    (h8 : (∀ w, Pipeline.arrRef spec3 w ≠ b) ∧ b ∉ hostOps3_W ∧ (∀ w, Pipeline.arrRef spec2 w ≠ b) ∧ b ∉ hostOps2_W
      ∧ (∀ w, Pipeline.arrRef spec1 w ≠ b) ∧ b ∉ hostOps1_W ∧ (∀ w, Pipeline.arrRef spec0 w ≠ b) ∧ b ∉ hostOps0_W) :
    bd11 m ρ c (Proc.devRef .tc b) = m ((c : Thread nD τ).loc b) :=
  (bd11_keep m ρ c b h.1).trans <| (bd10_of_ne m ρ c b h.2.1).trans <| (bd9_keep m ρ c b h.2.2).trans (bd8_kept m ρ c b h8)
theorem bd11_arg0 (c : Dev nD) : bd11 m ρ c (Proc.devRef .tc main_arg0) = m ((c : Thread nD τ).loc main_arg0) :=
  bd11_kept m ρ c main_arg0 (by decide) (by decide)
theorem bd11_arg1 (c : Dev nD) : bd11 m ρ c (Proc.devRef .tc main_arg1) = m ((c : Thread nD τ).loc main_arg1) :=
  bd11_kept m ρ c main_arg1 (by decide) (by decide)
theorem bd11_arg2 (c : Dev nD) : bd11 m ρ c (Proc.devRef .tc main_arg2) = m ((c : Thread nD τ).loc main_arg2) :=
  bd11_kept m ρ c main_arg2 (by decide) (by decide)
theorem bd11_arg3 (c : Dev nD) : bd11 m ρ c (Proc.devRef .tc main_arg3) = m ((c : Thread nD τ).loc main_arg3) :=
  bd11_kept m ρ c main_arg3 (by decide) (by decide)
theorem bd11_arg5 (c : Dev nD) : bd11 m ρ c (Proc.devRef .tc main_arg5) = m ((c : Thread nD τ).loc main_arg5) :=
  bd11_kept m ρ c main_arg5 (by decide) (by decide)
theorem bd11_arg7 (c : Dev nD) : bd11 m ρ c (Proc.devRef .tc main_arg7) = m ((c : Thread nD τ).loc main_arg7) :=
  bd11_kept m ρ c main_arg7 (by decide) (by decide)
theorem bd11_arg9 (c : Dev nD) : bd11 m ρ c (Proc.devRef .tc main_arg9) = m ((c : Thread nD τ).loc main_arg9) :=
  bd11_kept m ρ c main_arg9 (by decide) (by decide)
theorem bd11_arg11 (c : Dev nD) : bd11 m ρ c (Proc.devRef .tc main_arg11) = m ((c : Thread nD τ).loc main_arg11) :=
  bd11_kept m ρ c main_arg11 (by decide) (by decide)
theorem bd11_arg12 (c : Dev nD) : bd11 m ρ c (Proc.devRef .tc main_arg12) = m ((c : Thread nD τ).loc main_arg12) :=
  bd11_kept m ρ c main_arg12 (by decide) (by decide)
theorem bd11_arg13 (c : Dev nD) : bd11 m ρ c (Proc.devRef .tc main_arg13) = m ((c : Thread nD τ).loc main_arg13) :=
  bd11_kept m ρ c main_arg13 (by decide) (by decide)
theorem bd8_arg3 (c : Dev nD) : bd8 m ρ c (Proc.devRef .tc main_arg3) = m ((c : Thread nD τ).loc main_arg3) :=
  bd8_kept m ρ c main_arg3 (by decide)
theorem bd8_arg12 (c : Dev nD) : bd8 m ρ c (Proc.devRef .tc main_arg12) = m ((c : Thread nD τ).loc main_arg12) :=
  bd8_kept m ρ c main_arg12 (by decide)
theorem bd8_arg13 (c : Dev nD) : bd8 m ρ c (Proc.devRef .tc main_arg13) = m ((c : Thread nD τ).loc main_arg13) :=
  bd8_kept m ρ c main_arg13 (by decide)
theorem bd11_arg4 (c : Dev nD) : bd11 m ρ c (Proc.devRef .tc main_arg4) = m ((c : Thread nD τ).loc main_arg4) :=
  (bd11_keep m ρ c main_arg4 (by decide)).trans <| (bd10_of_ne m ρ c main_arg4 (by decide)).trans <|
  (bd9_keep m ρ c main_arg4 (by decide)).trans <| (bd8_of_ne m ρ c main_arg4 (by decide)).trans <|
  (bd7_keep m ρ c main_arg4 (by decide)).trans <| (bd6_of_ne m ρ c main_arg4 (by decide)).trans <|
  (bd5_keep m ρ c main_arg4 (by decide)).trans <| (bd4_of_ne m ρ c main_arg4 (by decide)).trans <|
  (bd3_keep m ρ c main_arg4 (by decide)).trans <| (bd2_weights m ρ c).trans <|
  (bd1_keep m ρ c main_arg4 (by decide)).trans rfl
theorem bd11_arg6 (c : Dev nD) : bd11 m ρ c (Proc.devRef .tc main_arg6) = m ((c : Thread nD τ).loc main_arg6) :=
  (bd11_keep m ρ c main_arg6 (by decide)).trans <| (bd10_of_ne m ρ c main_arg6 (by decide)).trans <|
  (bd9_keep m ρ c main_arg6 (by decide)).trans <| (bd8_of_ne m ρ c main_arg6 (by decide)).trans <|
  (bd7_keep m ρ c main_arg6 (by decide)).trans <| (bd6_of_ne m ρ c main_arg6 (by decide)).trans <|
  (bd5_keep m ρ c main_arg6 (by decide)).trans <| (bd4_weights m ρ c).trans <|
  (bd3_keep m ρ c main_arg6 (by decide)).trans <| (bd2_of_ne m ρ c main_arg6 (by decide)).trans <|
  (bd1_keep m ρ c main_arg6 (by decide)).trans rfl
theorem bd11_arg8 (c : Dev nD) : bd11 m ρ c (Proc.devRef .tc main_arg8) = m ((c : Thread nD τ).loc main_arg8) :=
  (bd11_keep m ρ c main_arg8 (by decide)).trans <| (bd10_of_ne m ρ c main_arg8 (by decide)).trans <|
  (bd9_keep m ρ c main_arg8 (by decide)).trans <| (bd8_of_ne m ρ c main_arg8 (by decide)).trans <|
  (bd7_keep m ρ c main_arg8 (by decide)).trans <| (bd6_weights m ρ c).trans <|
  (bd5_keep m ρ c main_arg8 (by decide)).trans <| (bd4_of_ne m ρ c main_arg8 (by decide)).trans <|
  (bd3_keep m ρ c main_arg8 (by decide)).trans <| (bd2_of_ne m ρ c main_arg8 (by decide)).trans <|
  (bd1_keep m ρ c main_arg8 (by decide)).trans rfl
theorem bd11_arg10 (c : Dev nD) : bd11 m ρ c (Proc.devRef .tc main_arg10) = m ((c : Thread nD τ).loc main_arg10) :=
  (bd11_keep m ρ c main_arg10 (by decide)).trans <| (bd10_of_ne m ρ c main_arg10 (by decide)).trans <|
  (bd9_keep m ρ c main_arg10 (by decide)).trans <| (bd8_weights m ρ c).trans <|
  (bd7_keep m ρ c main_arg10 (by decide)).trans <| (bd6_of_ne m ρ c main_arg10 (by decide)).trans <|
  (bd5_keep m ρ c main_arg10 (by decide)).trans <| (bd4_of_ne m ρ c main_arg10 (by decide)).trans <|
  (bd3_keep m ρ c main_arg10 (by decide)).trans <| (bd2_of_ne m ρ c main_arg10 (by decide)).trans <|
  (bd1_keep m ρ c main_arg10 (by decide)).trans rfl

def pdats : (p : Fin 5) → (c : Dev nD) → Dat τ (Elt F) Unit ℕ (UR sig nD τ) ℕ (Pipeline.pin (pcfgs (F := F)) adm p) c
  | ⟨0, _⟩ => fun c => lin0_dat (bv1 m ρ) c
  | ⟨1, _⟩ => fun c => lin1_dat (bv3 m ρ) c
  | ⟨2, _⟩ => fun c => lin2_dat (bv5 m ρ) c
  | ⟨3, _⟩ => fun c => lin3_dat (bv7 m ρ) c
  | ⟨4, _⟩ => fun c => pool_dat (bv9 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (bd11 m ρ c) ∗ ∃ r, prngReg c r)

set_option backward.isDefEq.respectTransparency.types false in
/-- The five regions' records differ only in the region's facts, taken here as hypotheses, so one construction serves all five. -/
def plainReg (p : Fin 5) (launch : Pipeline.LaunchFacts (nD := nD) (τ := τ) cfgs p) (V V' : Dev nD → Valuation τ sig (Elt F))
    (hbody : ∀ c, BodyObligation (pdats m ρ p c) (defs₀ (F := F)) 𝒱₀ () Set.univ)
    (howed : ∀ c t, (pdats m ρ p c).owed t = 0) (hrec : ∀ c, (pdats m ρ p c).recorded 0 = Set.univ) (hq : ∀ c w, (pdats m ρ p c).q w = fullShare)
    (hA : ∀ c w, (pdats m ρ p c).A w = V c (Pipeline.arrRef (Pipeline.pin (pcfgs (F := F)) adm p).spec w))
    (hin : ∀ c, (Pipeline.ΦA (Pipeline.pin (pcfgs (F := F)) adm p).spec c : sProp 𝕄) ⊢ (pdats m ρ p c).Φ 0)
    (hout : ∀ c, (pdats m ρ p c).Φ (Fin.last (Pipeline.pin (pcfgs (F := F)) adm p).N) ⊢ (Pipeline.ΦA (Pipeline.pin (pcfgs (F := F)) adm p).spec c : sProp 𝕄))
    (hF : ∀ c w, (pdats m ρ p c).arrAt w (Pipeline.pin (pcfgs (F := F)) adm p).N = V' c (Pipeline.arrRef (Pipeline.pin (pcfgs (F := F)) adm p).spec w))
    (hrest : ∀ c (b : Ref sig .tc), b ∉ Finset.univ.image (Pipeline.arrRef (Pipeline.pin (pcfgs (F := F)) adm p).spec) → V' c b = V c b) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => V c b)
  hentry c := by
    rw [Pipeline.ownSems0_none]
    unfold Pipeline.Dat.owesAt Pipeline.owesWithin; rw [howed c]
    have hsplit := Pipeline.arrays_of_unscopedBufs (p := p) (pcfgs (F := F)) adm (pdats m ρ) launch.win launch.arr_whole c
      ((pdats m ρ p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (by rw [hrec c]; exact Set.mem_univ x)
      iexact HO
    isplitl [Hp]; · iexact Hp
    iexact Hrest
  hin c :=
    (show iprop(iprop(∃ r, prngReg c r) ∗ Pipeline.prefHeld (pcfgs (F := F) p).pre c (fun _ => fullShare) (adm p).1 ∗ Pipeline.scopedRest (Pipeline.pin (pcfgs (F := F)) adm p).spec c)
        ⊢ (Pipeline.ΦA (Pipeline.pin (pcfgs (F := F)) adm p).spec c : sProp 𝕄) from by
      unfold Pipeline.ΦA
      iintro ⟨Hp, -, Hr⟩
      isplitl [Hr]; · iexact Hr
      iexact Hp).trans (hin c)
  hout c := by
    rw [Pipeline.ownSems0_none]
    exact (hout c).trans (show (Pipeline.ΦA (Pipeline.pin (pcfgs (F := F)) adm p).spec c : sProp 𝕄)
        ⊢ iprop(iprop(∃ r, prngReg c r) ∗ BI.emp ∗ Pipeline.scopedRest (Pipeline.pin (pcfgs (F := F)) adm p).spec c) from by
      unfold Pipeline.ΦA
      iintro ⟨Hr, Hp⟩
      isplitl [Hp]; · iexact Hp
      isplitr; · iempintro
      iexact Hr)
  hexit c := by
    unfold Pipeline.Dat.owesAt Pipeline.owesWithin; rw [howed c]
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (fun b => V c b) (fun b => V' c b) ((pdats m ρ p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

set_option backward.isDefEq.respectTransparency.types false in
def reg0 : Pipeline.RegionSeg (pcfgs (F := F)) adm (pdats m ρ) () defs₀ 𝒱₀ L lv 0 :=
  plainReg m ρ 0 launch0 (bd1 m ρ) (bd2 m ρ) (fun c => lin0_obligation (bv1 m ρ) c) (fun _ _ => rfl) (fun _ => rfl) (fun _ _ => rfl) (fun _ _ => rfl)
    (fun _ => .rfl) (fun _ => .rfl) (hF0 m ρ) (hrest0 m ρ)
set_option backward.isDefEq.respectTransparency.types false in
def reg1 : Pipeline.RegionSeg (pcfgs (F := F)) adm (pdats m ρ) () defs₀ 𝒱₀ L lv 1 :=
  plainReg m ρ 1 launch1 (bd3 m ρ) (bd4 m ρ) (fun c => lin1_obligation (bv3 m ρ) c) (fun _ _ => rfl) (fun _ => rfl) (fun _ _ => rfl) (fun _ _ => rfl)
    (fun _ => .rfl) (fun _ => .rfl) (hF1 m ρ) (hrest1 m ρ)
set_option backward.isDefEq.respectTransparency.types false in
def reg2 : Pipeline.RegionSeg (pcfgs (F := F)) adm (pdats m ρ) () defs₀ 𝒱₀ L lv 2 :=
  plainReg m ρ 2 launch2 (bd5 m ρ) (bd6 m ρ) (fun c => lin2_obligation (bv5 m ρ) c) (fun _ _ => rfl) (fun _ => rfl) (fun _ _ => rfl) (fun _ _ => rfl)
    (fun _ => .rfl) (fun _ => .rfl) (hF2 m ρ) (hrest2 m ρ)
set_option backward.isDefEq.respectTransparency.types false in
def reg3 : Pipeline.RegionSeg (pcfgs (F := F)) adm (pdats m ρ) () defs₀ 𝒱₀ L lv 3 :=
  plainReg m ρ 3 launch3 (bd7 m ρ) (bd8 m ρ) (fun c => lin3_obligation (bv7 m ρ) c) (fun _ _ => rfl) (fun _ => rfl) (fun _ _ => rfl) (fun _ _ => rfl)
    (fun _ => .rfl) (fun _ => .rfl) (hF3 m ρ) (hrest3 m ρ)
set_option backward.isDefEq.respectTransparency.types false in
def reg4 : Pipeline.RegionSeg (pcfgs (F := F)) adm (pdats m ρ) () defs₀ 𝒱₀ L lv 4 :=
  plainReg m ρ 4 launch4 (bd9 m ρ) (bd10 m ρ) (fun c => pool_obligation (bv9 m ρ) c) (fun _ _ => rfl) (fun _ => rfl) (fun _ _ => rfl) (fun _ _ => rfl)
    (pool_hin (bv9 m ρ)) (pool_hout (bv9 m ρ)) (hF4 m ρ) (hrest4 m ρ)

abbrev lastSeg : Pipeline.HostSeg (Name := ℕ) (U := UR sig nD τ) (pcfgs (F := F)) defs₀ 𝒱₀ L lv :=
  hseg hostOps5 hostOps5_sub hostOps5_fresh (bd10 m ρ)

abbrev mainSegs : List (Pipeline.Seg (pcfgs (F := F)) adm (pdats m ρ) () defs₀ 𝒱₀ L lv) :=
  [ .host (hseg hostOps0 hostOps0_sub hostOps0_fresh (bd0 m ρ)),
    .region (reg0 m ρ),
    .host (hseg hostOps1 hostOps1_sub hostOps1_fresh (bd2 m ρ)),
    .region (reg1 m ρ),
    .host (hseg hostOps2 hostOps2_sub hostOps2_fresh (bd4 m ρ)),
    .region (reg2 m ρ),
    .host (hseg hostOps3 hostOps3_sub hostOps3_fresh (bd6 m ρ)),
    .region (reg3 m ρ),
    .host (hseg hostOps4 hostOps4_sub hostOps4_fresh (bd8 m ρ)),
    .region (reg4 m ρ),
    .host (lastSeg m ρ) ]

theorem main_run (c : Dev nD) : main (F := F) c = Pipeline.Seg.run (mainSegs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = bd11 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bd0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (bd11 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]
        · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (bd0 m ρ c)
        from Pipeline.unscopedBufs_held c (bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bd11 m ρ c b)
    (hfin := fun c s' => by
      iintro ⟨⟨Hh, -⟩, HSI⟩
      unfold StableHlo.held
      imodintro
      iapply (pointsTo_read_all (Pipeline.ucRefs τ sig) (fun b => (((c : Thread nD τ)).1, b)) (bd11 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (bd11_arg0 m ρ c), (h c _ (mem_uc main_arg1 (by decide))).trans (bd11_arg1 m ρ c),
     (h c _ (mem_uc main_arg2 (by decide))).trans (bd11_arg2 m ρ c), (h c _ (mem_uc main_arg3 (by decide))).trans (bd11_arg3 m ρ c),
     (h c _ (mem_uc main_arg4 (by decide))).trans (bd11_arg4 m ρ c), (h c _ (mem_uc main_arg5 (by decide))).trans (bd11_arg5 m ρ c),
     (h c _ (mem_uc main_arg6 (by decide))).trans (bd11_arg6 m ρ c), (h c _ (mem_uc main_arg7 (by decide))).trans (bd11_arg7 m ρ c),
     (h c _ (mem_uc main_arg8 (by decide))).trans (bd11_arg8 m ρ c), (h c _ (mem_uc main_arg9 (by decide))).trans (bd11_arg9 m ρ c),
     (h c _ (mem_uc main_arg10 (by decide))).trans (bd11_arg10 m ρ c), (h c _ (mem_uc main_arg11 (by decide))).trans (bd11_arg11 m ρ c),
     (h c _ (mem_uc main_arg12 (by decide))).trans (bd11_arg12 m ρ c), (h c _ (mem_uc main_arg13 (by decide))).trans (bd11_arg13 m ρ c)⟩)
    (run_all m ρ)

end Cert.KernelIdeal.Hand

end
-- ==== Proof.RefRead.lean ====
import proofs.«422796_j77979426226619_2_alg».proof.Proof.RefRun
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_cst : (⟨S_, .f32⟩ : BufTy).Contents (Elt F) :=
  constant S_ .f32 0x3F800000#32

def val_main_v0 : (⟨S640000, .f32⟩ : BufTy).Contents (Elt F) :=
  broadcastInDim S640000 ![] bcast_S_S640000 (val_main_cst (F := F))

def val_main_cst_0 : (⟨S_, .f32⟩ : BufTy).Contents (Elt F) :=
  constant S_ .f32 0x00000000#32

def val_main_v1 : (⟨S50000, .f32⟩ : BufTy).Contents (Elt F) :=
  broadcastInDim S50000 ![] bcast_S_S50000 (val_main_cst_0 (F := F))

def val_main_v2 (x1 : (⟨S640000, .i32⟩ : BufTy).Contents (Elt F)) : (⟨S640000x1, .i32⟩ : BufTy).Contents (Elt F) :=
  broadcastInDim S640000x1 ![0] bcast_S640000_S640000x1_0 (x1)

def val_main_v3 (x1 : (⟨S640000, .i32⟩ : BufTy).Contents (Elt F)) : (⟨S50000, .f32⟩ : BufTy).Contents (Elt F) :=
  Host.scatterAdd scatter_S50000_S640000x1_S640000_n_0_0_1 (val_main_v1 (F := F)) (val_main_v2 (F := F) x1) (val_main_v0 (F := F))

def val_main_cst_1 : (⟨S_, .f32⟩ : BufTy).Contents (Elt F) :=
  constant S_ .f32 0x00000000#32

def val_main_v4 : (⟨S50000, .f32⟩ : BufTy).Contents (Elt F) :=
  broadcastInDim S50000 ![] bcast_S_S50000 (val_main_cst_1 (F := F))

def val_main_v5 (x2 : (⟨S640000, .i32⟩ : BufTy).Contents (Elt F)) : (⟨S640000x1, .i32⟩ : BufTy).Contents (Elt F) :=
  broadcastInDim S640000x1 ![0] bcast_S640000_S640000x1_0 (x2)

def val_main_v6 (x2 : (⟨S640000, .i32⟩ : BufTy).Contents (Elt F)) : (⟨S50000, .f32⟩ : BufTy).Contents (Elt F) :=
  Host.scatterAdd scatter_S50000_S640000x1_S640000_n_0_0_1 (val_main_v4 (F := F)) (val_main_v5 (F := F) x2) (val_main_v0 (F := F))

def val_main_cst_2 : (⟨S_, .f32⟩ : BufTy).Contents (Elt F) :=
  constant S_ .f32 0x00000000#32

def val_main_v7 : (⟨S50000, .f32⟩ : BufTy).Contents (Elt F) :=
  broadcastInDim S50000 ![] bcast_S_S50000 (val_main_cst_2 (F := F))

def val_main_v8 (x1 : (⟨S640000, .i32⟩ : BufTy).Contents (Elt F)) : (⟨S50000, .i1⟩ : BufTy).Contents (Elt F) :=
  cmpf (F := F) .ogt (val_main_v3 (F := F) x1) (val_main_v7 (F := F))

def val_main_cst_3 : (⟨S_, .f32⟩ : BufTy).Contents (Elt F) :=
  constant S_ .f32 0x3F800000#32

def val_main_v9 : (⟨S50000, .f32⟩ : BufTy).Contents (Elt F) :=
  broadcastInDim S50000 ![] bcast_S_S50000 (val_main_cst_3 (F := F))

def val_main_v10 (x1 : (⟨S640000, .i32⟩ : BufTy).Contents (Elt F)) : (⟨S50000, .f32⟩ : BufTy).Contents (Elt F) :=
  maximumf (val_main_v3 (F := F) x1) (val_main_v9 (F := F))

def val_main_v11 (x1 : (⟨S640000, .i32⟩ : BufTy).Contents (Elt F)) : (⟨S50000, .f32⟩ : BufTy).Contents (Elt F) :=
  Host.rsqrt (val_main_v10 (F := F) x1)

def val_main_cst_4 : (⟨S_, .f32⟩ : BufTy).Contents (Elt F) :=
  constant S_ .f32 0x00000000#32

def val_main_call0_v0 : (⟨S_, .f32⟩ : BufTy).Contents (Elt F) :=
  id (val_main_cst_4 (F := F))

def val_main_call0_v1 : (⟨S50000, .f32⟩ : BufTy).Contents (Elt F) :=
  broadcastInDim S50000 ![] bcast_S_S50000 (val_main_call0_v0 (F := F))

def val_main_v12 (x1 : (⟨S640000, .i32⟩ : BufTy).Contents (Elt F)) : (⟨S50000, .f32⟩ : BufTy).Contents (Elt F) :=
  select (val_main_v8 (F := F) x1) (val_main_v11 (F := F) x1) (val_main_call0_v1 (F := F))

def val_main_cst_5 : (⟨S_, .f32⟩ : BufTy).Contents (Elt F) :=
  constant S_ .f32 0x00000000#32

def val_main_v13 : (⟨S50000, .f32⟩ : BufTy).Contents (Elt F) :=
  broadcastInDim S50000 ![] bcast_S_S50000 (val_main_cst_5 (F := F))

def val_main_v14 (x2 : (⟨S640000, .i32⟩ : BufTy).Contents (Elt F)) : (⟨S50000, .i1⟩ : BufTy).Contents (Elt F) :=
  cmpf (F := F) .ogt (val_main_v6 (F := F) x2) (val_main_v13 (F := F))

def val_main_cst_6 : (⟨S_, .f32⟩ : BufTy).Contents (Elt F) :=
  constant S_ .f32 0x3F800000#32

def val_main_v15 : (⟨S50000, .f32⟩ : BufTy).Contents (Elt F) :=
  broadcastInDim S50000 ![] bcast_S_S50000 (val_main_cst_6 (F := F))

def val_main_v16 (x2 : (⟨S640000, .i32⟩ : BufTy).Contents (Elt F)) : (⟨S50000, .f32⟩ : BufTy).Contents (Elt F) :=
  maximumf (val_main_v6 (F := F) x2) (val_main_v15 (F := F))

def val_main_v17 (x2 : (⟨S640000, .i32⟩ : BufTy).Contents (Elt F)) : (⟨S50000, .f32⟩ : BufTy).Contents (Elt F) :=
  Host.rsqrt (val_main_v16 (F := F) x2)

def val_main_cst_7 : (⟨S_, .f32⟩ : BufTy).Contents (Elt F) :=
  constant S_ .f32 0x00000000#32

def val_main_call1_v0 : (⟨S_, .f32⟩ : BufTy).Contents (Elt F) :=
  id (val_main_cst_7 (F := F))

def val_main_call1_v1 : (⟨S50000, .f32⟩ : BufTy).Contents (Elt F) :=
  broadcastInDim S50000 ![] bcast_S_S50000 (val_main_call1_v0 (F := F))

def val_main_v18 (x2 : (⟨S640000, .i32⟩ : BufTy).Contents (Elt F)) : (⟨S50000, .f32⟩ : BufTy).Contents (Elt F) :=
  select (val_main_v14 (F := F) x2) (val_main_v17 (F := F) x2) (val_main_call1_v1 (F := F))

def val_main_v19 (x1 : (⟨S640000, .i32⟩ : BufTy).Contents (Elt F)) : (⟨S50000x1, .f32⟩ : BufTy).Contents (Elt F) :=
  broadcastInDim S50000x1 ![0] bcast_S50000_S50000x1_0 (val_main_v12 (F := F) x1)

def val_main_v20 (x1 : (⟨S640000, .i32⟩ : BufTy).Contents (Elt F)) : (⟨S50000x128, .f32⟩ : BufTy).Contents (Elt F) :=
  broadcastInDim S50000x128 ![0, 1] bcast_S50000x1_S50000x128_0_1 (val_main_v19 (F := F) x1)

def val_main_v21 (x0 : (⟨S50000x128, .f32⟩ : BufTy).Contents (Elt F)) (x1 : (⟨S640000, .i32⟩ : BufTy).Contents (Elt F)) : (⟨S50000x128, .f32⟩ : BufTy).Contents (Elt F) :=
  mulf (x0) (val_main_v20 (F := F) x1)

def val_main_c : (⟨S_, .i32⟩ : BufTy).Contents (Elt F) :=
  constantI S_ 32 0#32

def val_main_v22 : (⟨S640000, .i32⟩ : BufTy).Contents (Elt F) :=
  broadcastInDim S640000 ![] bcast_S_S640000 (val_main_c (F := F))

def val_main_v23 (x1 : (⟨S640000, .i32⟩ : BufTy).Contents (Elt F)) : (⟨S640000, .i1⟩ : BufTy).Contents (Elt F) :=
  cmpi .slt (x1) (val_main_v22 (F := F))

def val_main_c_8 : (⟨S_, .i32⟩ : BufTy).Contents (Elt F) :=
  constantI S_ 32 50000#32

def val_main_v24 : (⟨S640000, .i32⟩ : BufTy).Contents (Elt F) :=
  broadcastInDim S640000 ![] bcast_S_S640000 (val_main_c_8 (F := F))

def val_main_v25 (x1 : (⟨S640000, .i32⟩ : BufTy).Contents (Elt F)) : (⟨S640000, .i32⟩ : BufTy).Contents (Elt F) :=
  addi (x1) (val_main_v24 (F := F))

def val_main_v26 (x1 : (⟨S640000, .i32⟩ : BufTy).Contents (Elt F)) : (⟨S640000, .i32⟩ : BufTy).Contents (Elt F) :=
  select (val_main_v23 (F := F) x1) (val_main_v25 (F := F) x1) (x1)

def val_main_v27 (x1 : (⟨S640000, .i32⟩ : BufTy).Contents (Elt F)) : (⟨S640000x1, .i32⟩ : BufTy).Contents (Elt F) :=
  broadcastInDim S640000x1 ![0] bcast_S640000_S640000x1_0 (val_main_v26 (F := F) x1)

def val_main_v28 (x0 : (⟨S50000x128, .f32⟩ : BufTy).Contents (Elt F)) (x1 : (⟨S640000, .i32⟩ : BufTy).Contents (Elt F)) : (⟨S640000x128, .f32⟩ : BufTy).Contents (Elt F) :=
  Host.gather gather_S50000x128_S640000x1_S640000x128_1_0_n_n_0_1_1128 (val_main_v21 (F := F) x0 x1) (val_main_v27 (F := F) x1)

def val_main_cst_9 : (⟨S_, .f32⟩ : BufTy).Contents (Elt F) :=
  constant S_ .f32 0x00000000#32

def val_main_v29 : (⟨S50000x128, .f32⟩ : BufTy).Contents (Elt F) :=
  broadcastInDim S50000x128 ![] bcast_S_S50000x128 (val_main_cst_9 (F := F))

def val_main_v30 (x2 : (⟨S640000, .i32⟩ : BufTy).Contents (Elt F)) : (⟨S640000x1, .i32⟩ : BufTy).Contents (Elt F) :=
  broadcastInDim S640000x1 ![0] bcast_S640000_S640000x1_0 (x2)

def val_main_v31 (x0 : (⟨S50000x128, .f32⟩ : BufTy).Contents (Elt F)) (x1 x2 : (⟨S640000, .i32⟩ : BufTy).Contents (Elt F)) : (⟨S50000x128, .f32⟩ : BufTy).Contents (Elt F) :=
  Host.scatterAdd scatter_S50000x128_S640000x1_S640000x128_1_0_0_1 (val_main_v29 (F := F)) (val_main_v30 (F := F) x2) (val_main_v28 (F := F) x0 x1)

def val_main_v32 (x2 : (⟨S640000, .i32⟩ : BufTy).Contents (Elt F)) : (⟨S50000x1, .f32⟩ : BufTy).Contents (Elt F) :=
  broadcastInDim S50000x1 ![0] bcast_S50000_S50000x1_0 (val_main_v18 (F := F) x2)

def val_main_v33 (x2 : (⟨S640000, .i32⟩ : BufTy).Contents (Elt F)) : (⟨S50000x128, .f32⟩ : BufTy).Contents (Elt F) :=
  broadcastInDim S50000x128 ![0, 1] bcast_S50000x1_S50000x128_0_1 (val_main_v32 (F := F) x2)

def val_main_v34 (x0 : (⟨S50000x128, .f32⟩ : BufTy).Contents (Elt F)) (x1 x2 : (⟨S640000, .i32⟩ : BufTy).Contents (Elt F)) : (⟨S50000x128, .f32⟩ : BufTy).Contents (Elt F) :=
  mulf (val_main_v31 (F := F) x0 x1 x2) (val_main_v33 (F := F) x2)

def val_main_v35 (x0 : (⟨S50000x128, .f32⟩ : BufTy).Contents (Elt F)) (x1 x2 : (⟨S640000, .i32⟩ : BufTy).Contents (Elt F)) (x4 : (⟨S128x128, .f32⟩ : BufTy).Contents (Elt F)) : (⟨S50000x128, .f32⟩ : BufTy).Contents (Elt F) :=
  Host.dotGeneral dot_S50000x128_S128x128_S50000x128_1_0_0_1_n_n none (val_main_v34 (F := F) x0 x1 x2) (x4)

def val_main_v36 (x5 : (⟨S128, .f32⟩ : BufTy).Contents (Elt F)) : (⟨S1x128, .f32⟩ : BufTy).Contents (Elt F) :=
  broadcastInDim S1x128 ![1] bcast_S128_S1x128_1 (x5)

def val_main_v37 (x5 : (⟨S128, .f32⟩ : BufTy).Contents (Elt F)) : (⟨S50000x128, .f32⟩ : BufTy).Contents (Elt F) :=
  broadcastInDim S50000x128 ![0, 1] bcast_S1x128_S50000x128_0_1 (val_main_v36 (F := F) x5)

def val_main_v38 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) : (⟨S50000x128, .f32⟩ : BufTy).Contents (Elt F) :=
  addf (val_main_v35 (F := F) x0 x1 x2 x4) (val_main_v37 (F := F) x5)

def val_main_call2_cst : (⟨S_, .f32⟩ : BufTy).Contents (Elt F) :=
  constant S_ .f32 0x00000000#32

def val_main_call2_v0 : (⟨S50000x128, .f32⟩ : BufTy).Contents (Elt F) :=
  broadcastInDim S50000x128 ![] bcast_S_S50000x128 (val_main_call2_cst (F := F))

def val_main_v39 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) : (⟨S50000x128, .f32⟩ : BufTy).Contents (Elt F) :=
  maximumf (val_main_v38 (F := F) x0 x1 x2 x4 x5) (val_main_call2_v0 (F := F))

def val_main_v40 (x1 : (⟨S640000, .i32⟩ : BufTy).Contents (Elt F)) : (⟨S50000x1, .f32⟩ : BufTy).Contents (Elt F) :=
  broadcastInDim S50000x1 ![0] bcast_S50000_S50000x1_0 (val_main_v12 (F := F) x1)

def val_main_v41 (x1 : (⟨S640000, .i32⟩ : BufTy).Contents (Elt F)) : (⟨S50000x128, .f32⟩ : BufTy).Contents (Elt F) :=
  broadcastInDim S50000x128 ![0, 1] bcast_S50000x1_S50000x128_0_1 (val_main_v40 (F := F) x1)

def val_main_v42 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) : (⟨S50000x128, .f32⟩ : BufTy).Contents (Elt F) :=
  mulf (val_main_v39 (F := F) x0 x1 x2 x4 x5) (val_main_v41 (F := F) x1)

def val_main_c_10 : (⟨S_, .i32⟩ : BufTy).Contents (Elt F) :=
  constantI S_ 32 0#32

def val_main_v43 : (⟨S640000, .i32⟩ : BufTy).Contents (Elt F) :=
  broadcastInDim S640000 ![] bcast_S_S640000 (val_main_c_10 (F := F))

def val_main_v44 (x1 : (⟨S640000, .i32⟩ : BufTy).Contents (Elt F)) : (⟨S640000, .i1⟩ : BufTy).Contents (Elt F) :=
  cmpi .slt (x1) (val_main_v43 (F := F))

def val_main_c_11 : (⟨S_, .i32⟩ : BufTy).Contents (Elt F) :=
  constantI S_ 32 50000#32

def val_main_v45 : (⟨S640000, .i32⟩ : BufTy).Contents (Elt F) :=
  broadcastInDim S640000 ![] bcast_S_S640000 (val_main_c_11 (F := F))

def val_main_v46 (x1 : (⟨S640000, .i32⟩ : BufTy).Contents (Elt F)) : (⟨S640000, .i32⟩ : BufTy).Contents (Elt F) :=
  addi (x1) (val_main_v45 (F := F))

def val_main_v47 (x1 : (⟨S640000, .i32⟩ : BufTy).Contents (Elt F)) : (⟨S640000, .i32⟩ : BufTy).Contents (Elt F) :=
  select (val_main_v44 (F := F) x1) (val_main_v46 (F := F) x1) (x1)

def val_main_v48 (x1 : (⟨S640000, .i32⟩ : BufTy).Contents (Elt F)) : (⟨S640000x1, .i32⟩ : BufTy).Contents (Elt F) :=
  broadcastInDim S640000x1 ![0] bcast_S640000_S640000x1_0 (val_main_v47 (F := F) x1)

def val_main_v49 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) : (⟨S640000x128, .f32⟩ : BufTy).Contents (Elt F) :=
  Host.gather gather_S50000x128_S640000x1_S640000x128_1_0_n_n_0_1_1128 (val_main_v42 (F := F) x0 x1 x2 x4 x5) (val_main_v48 (F := F) x1)

def val_main_cst_12 : (⟨S_, .f32⟩ : BufTy).Contents (Elt F) :=
  constant S_ .f32 0x00000000#32

def val_main_v50 : (⟨S50000x128, .f32⟩ : BufTy).Contents (Elt F) :=
  broadcastInDim S50000x128 ![] bcast_S_S50000x128 (val_main_cst_12 (F := F))

def val_main_v51 (x2 : (⟨S640000, .i32⟩ : BufTy).Contents (Elt F)) : (⟨S640000x1, .i32⟩ : BufTy).Contents (Elt F) :=
  broadcastInDim S640000x1 ![0] bcast_S640000_S640000x1_0 (x2)

def val_main_v52 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) : (⟨S50000x128, .f32⟩ : BufTy).Contents (Elt F) :=
  Host.scatterAdd scatter_S50000x128_S640000x1_S640000x128_1_0_0_1 (val_main_v50 (F := F)) (val_main_v51 (F := F) x2) (val_main_v49 (F := F) x0 x1 x2 x4 x5)

def val_main_v53 (x2 : (⟨S640000, .i32⟩ : BufTy).Contents (Elt F)) : (⟨S50000x1, .f32⟩ : BufTy).Contents (Elt F) :=
  broadcastInDim S50000x1 ![0] bcast_S50000_S50000x1_0 (val_main_v18 (F := F) x2)

def val_main_v54 (x2 : (⟨S640000, .i32⟩ : BufTy).Contents (Elt F)) : (⟨S50000x128, .f32⟩ : BufTy).Contents (Elt F) :=
  broadcastInDim S50000x128 ![0, 1] bcast_S50000x1_S50000x128_0_1 (val_main_v53 (F := F) x2)

def val_main_v55 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) : (⟨S50000x128, .f32⟩ : BufTy).Contents (Elt F) :=
  mulf (val_main_v52 (F := F) x0 x1 x2 x4 x5) (val_main_v54 (F := F) x2)

def val_main_v56 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) : (⟨S50000x128, .f32⟩ : BufTy).Contents (Elt F) :=
  Host.dotGeneral dot_S50000x128_S128x128_S50000x128_1_0_0_1_n_n none (val_main_v55 (F := F) x0 x1 x2 x4 x5) (x6)

def val_main_v57 (x7 : (⟨S128, .f32⟩ : BufTy).Contents (Elt F)) : (⟨S1x128, .f32⟩ : BufTy).Contents (Elt F) :=
  broadcastInDim S1x128 ![1] bcast_S128_S1x128_1 (x7)

def val_main_v58 (x7 : (⟨S128, .f32⟩ : BufTy).Contents (Elt F)) : (⟨S50000x128, .f32⟩ : BufTy).Contents (Elt F) :=
  broadcastInDim S50000x128 ![0, 1] bcast_S1x128_S50000x128_0_1 (val_main_v57 (F := F) x7)

def val_main_v59 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) : (⟨S50000x128, .f32⟩ : BufTy).Contents (Elt F) :=
  addf (val_main_v56 (F := F) x0 x1 x2 x4 x5 x6) (val_main_v58 (F := F) x7)

def val_main_call3_cst : (⟨S_, .f32⟩ : BufTy).Contents (Elt F) :=
  constant S_ .f32 0x00000000#32

def val_main_call3_v0 : (⟨S50000x128, .f32⟩ : BufTy).Contents (Elt F) :=
  broadcastInDim S50000x128 ![] bcast_S_S50000x128 (val_main_call3_cst (F := F))

def val_main_v60 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) : (⟨S50000x128, .f32⟩ : BufTy).Contents (Elt F) :=
  maximumf (val_main_v59 (F := F) x0 x1 x2 x4 x5 x6 x7) (val_main_call3_v0 (F := F))

def val_main_v61 (x1 : (⟨S640000, .i32⟩ : BufTy).Contents (Elt F)) : (⟨S50000x1, .f32⟩ : BufTy).Contents (Elt F) :=
  broadcastInDim S50000x1 ![0] bcast_S50000_S50000x1_0 (val_main_v12 (F := F) x1)

def val_main_v62 (x1 : (⟨S640000, .i32⟩ : BufTy).Contents (Elt F)) : (⟨S50000x128, .f32⟩ : BufTy).Contents (Elt F) :=
  broadcastInDim S50000x128 ![0, 1] bcast_S50000x1_S50000x128_0_1 (val_main_v61 (F := F) x1)

def val_main_v63 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) : (⟨S50000x128, .f32⟩ : BufTy).Contents (Elt F) :=
  mulf (val_main_v60 (F := F) x0 x1 x2 x4 x5 x6 x7) (val_main_v62 (F := F) x1)

def val_main_c_13 : (⟨S_, .i32⟩ : BufTy).Contents (Elt F) :=
  constantI S_ 32 0#32

def val_main_v64 : (⟨S640000, .i32⟩ : BufTy).Contents (Elt F) :=
  broadcastInDim S640000 ![] bcast_S_S640000 (val_main_c_13 (F := F))

def val_main_v65 (x1 : (⟨S640000, .i32⟩ : BufTy).Contents (Elt F)) : (⟨S640000, .i1⟩ : BufTy).Contents (Elt F) :=
  cmpi .slt (x1) (val_main_v64 (F := F))

def val_main_c_14 : (⟨S_, .i32⟩ : BufTy).Contents (Elt F) :=
  constantI S_ 32 50000#32

def val_main_v66 : (⟨S640000, .i32⟩ : BufTy).Contents (Elt F) :=
  broadcastInDim S640000 ![] bcast_S_S640000 (val_main_c_14 (F := F))

def val_main_v67 (x1 : (⟨S640000, .i32⟩ : BufTy).Contents (Elt F)) : (⟨S640000, .i32⟩ : BufTy).Contents (Elt F) :=
  addi (x1) (val_main_v66 (F := F))

def val_main_v68 (x1 : (⟨S640000, .i32⟩ : BufTy).Contents (Elt F)) : (⟨S640000, .i32⟩ : BufTy).Contents (Elt F) :=
  select (val_main_v65 (F := F) x1) (val_main_v67 (F := F) x1) (x1)

def val_main_v69 (x1 : (⟨S640000, .i32⟩ : BufTy).Contents (Elt F)) : (⟨S640000x1, .i32⟩ : BufTy).Contents (Elt F) :=
  broadcastInDim S640000x1 ![0] bcast_S640000_S640000x1_0 (val_main_v68 (F := F) x1)

def val_main_v70 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) : (⟨S640000x128, .f32⟩ : BufTy).Contents (Elt F) :=
  Host.gather gather_S50000x128_S640000x1_S640000x128_1_0_n_n_0_1_1128 (val_main_v63 (F := F) x0 x1 x2 x4 x5 x6 x7) (val_main_v69 (F := F) x1)

def val_main_cst_15 : (⟨S_, .f32⟩ : BufTy).Contents (Elt F) :=
  constant S_ .f32 0x00000000#32

def val_main_v71 : (⟨S50000x128, .f32⟩ : BufTy).Contents (Elt F) :=
  broadcastInDim S50000x128 ![] bcast_S_S50000x128 (val_main_cst_15 (F := F))

def val_main_v72 (x2 : (⟨S640000, .i32⟩ : BufTy).Contents (Elt F)) : (⟨S640000x1, .i32⟩ : BufTy).Contents (Elt F) :=
  broadcastInDim S640000x1 ![0] bcast_S640000_S640000x1_0 (x2)

def val_main_v73 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) : (⟨S50000x128, .f32⟩ : BufTy).Contents (Elt F) :=
  Host.scatterAdd scatter_S50000x128_S640000x1_S640000x128_1_0_0_1 (val_main_v71 (F := F)) (val_main_v72 (F := F) x2) (val_main_v70 (F := F) x0 x1 x2 x4 x5 x6 x7)

def val_main_v74 (x2 : (⟨S640000, .i32⟩ : BufTy).Contents (Elt F)) : (⟨S50000x1, .f32⟩ : BufTy).Contents (Elt F) :=
  broadcastInDim S50000x1 ![0] bcast_S50000_S50000x1_0 (val_main_v18 (F := F) x2)

def val_main_v75 (x2 : (⟨S640000, .i32⟩ : BufTy).Contents (Elt F)) : (⟨S50000x128, .f32⟩ : BufTy).Contents (Elt F) :=
  broadcastInDim S50000x128 ![0, 1] bcast_S50000x1_S50000x128_0_1 (val_main_v74 (F := F) x2)

def val_main_v76 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) : (⟨S50000x128, .f32⟩ : BufTy).Contents (Elt F) :=
  mulf (val_main_v73 (F := F) x0 x1 x2 x4 x5 x6 x7) (val_main_v75 (F := F) x2)

def val_main_v77 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) : (⟨S50000x128, .f32⟩ : BufTy).Contents (Elt F) :=
  Host.dotGeneral dot_S50000x128_S128x128_S50000x128_1_0_0_1_n_n none (val_main_v76 (F := F) x0 x1 x2 x4 x5 x6 x7) (x8)

def val_main_v78 (x9 : (⟨S128, .f32⟩ : BufTy).Contents (Elt F)) : (⟨S1x128, .f32⟩ : BufTy).Contents (Elt F) :=
  broadcastInDim S1x128 ![1] bcast_S128_S1x128_1 (x9)

def val_main_v79 (x9 : (⟨S128, .f32⟩ : BufTy).Contents (Elt F)) : (⟨S50000x128, .f32⟩ : BufTy).Contents (Elt F) :=
  broadcastInDim S50000x128 ![0, 1] bcast_S1x128_S50000x128_0_1 (val_main_v78 (F := F) x9)

def val_main_v80 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) : (⟨S50000x128, .f32⟩ : BufTy).Contents (Elt F) :=
  addf (val_main_v77 (F := F) x0 x1 x2 x4 x5 x6 x7 x8) (val_main_v79 (F := F) x9)

def val_main_call4_cst : (⟨S_, .f32⟩ : BufTy).Contents (Elt F) :=
  constant S_ .f32 0x00000000#32

def val_main_call4_v0 : (⟨S50000x128, .f32⟩ : BufTy).Contents (Elt F) :=
  broadcastInDim S50000x128 ![] bcast_S_S50000x128 (val_main_call4_cst (F := F))

def val_main_v81 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) : (⟨S50000x128, .f32⟩ : BufTy).Contents (Elt F) :=
  maximumf (val_main_v80 (F := F) x0 x1 x2 x4 x5 x6 x7 x8 x9) (val_main_call4_v0 (F := F))

def val_main_v82 (x1 : (⟨S640000, .i32⟩ : BufTy).Contents (Elt F)) : (⟨S50000x1, .f32⟩ : BufTy).Contents (Elt F) :=
  broadcastInDim S50000x1 ![0] bcast_S50000_S50000x1_0 (val_main_v12 (F := F) x1)

def val_main_v83 (x1 : (⟨S640000, .i32⟩ : BufTy).Contents (Elt F)) : (⟨S50000x128, .f32⟩ : BufTy).Contents (Elt F) :=
  broadcastInDim S50000x128 ![0, 1] bcast_S50000x1_S50000x128_0_1 (val_main_v82 (F := F) x1)

def val_main_v84 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) : (⟨S50000x128, .f32⟩ : BufTy).Contents (Elt F) :=
  mulf (val_main_v81 (F := F) x0 x1 x2 x4 x5 x6 x7 x8 x9) (val_main_v83 (F := F) x1)

def val_main_c_16 : (⟨S_, .i32⟩ : BufTy).Contents (Elt F) :=
  constantI S_ 32 0#32

def val_main_v85 : (⟨S640000, .i32⟩ : BufTy).Contents (Elt F) :=
  broadcastInDim S640000 ![] bcast_S_S640000 (val_main_c_16 (F := F))

def val_main_v86 (x1 : (⟨S640000, .i32⟩ : BufTy).Contents (Elt F)) : (⟨S640000, .i1⟩ : BufTy).Contents (Elt F) :=
  cmpi .slt (x1) (val_main_v85 (F := F))

def val_main_c_17 : (⟨S_, .i32⟩ : BufTy).Contents (Elt F) :=
  constantI S_ 32 50000#32

def val_main_v87 : (⟨S640000, .i32⟩ : BufTy).Contents (Elt F) :=
  broadcastInDim S640000 ![] bcast_S_S640000 (val_main_c_17 (F := F))

def val_main_v88 (x1 : (⟨S640000, .i32⟩ : BufTy).Contents (Elt F)) : (⟨S640000, .i32⟩ : BufTy).Contents (Elt F) :=
  addi (x1) (val_main_v87 (F := F))

def val_main_v89 (x1 : (⟨S640000, .i32⟩ : BufTy).Contents (Elt F)) : (⟨S640000, .i32⟩ : BufTy).Contents (Elt F) :=
  select (val_main_v86 (F := F) x1) (val_main_v88 (F := F) x1) (x1)

def val_main_v90 (x1 : (⟨S640000, .i32⟩ : BufTy).Contents (Elt F)) : (⟨S640000x1, .i32⟩ : BufTy).Contents (Elt F) :=
  broadcastInDim S640000x1 ![0] bcast_S640000_S640000x1_0 (val_main_v89 (F := F) x1)

def val_main_v91 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) : (⟨S640000x128, .f32⟩ : BufTy).Contents (Elt F) :=
  Host.gather gather_S50000x128_S640000x1_S640000x128_1_0_n_n_0_1_1128 (val_main_v84 (F := F) x0 x1 x2 x4 x5 x6 x7 x8 x9) (val_main_v90 (F := F) x1)

def val_main_cst_18 : (⟨S_, .f32⟩ : BufTy).Contents (Elt F) :=
  constant S_ .f32 0x00000000#32

def val_main_v92 : (⟨S50000x128, .f32⟩ : BufTy).Contents (Elt F) :=
  broadcastInDim S50000x128 ![] bcast_S_S50000x128 (val_main_cst_18 (F := F))

def val_main_v93 (x2 : (⟨S640000, .i32⟩ : BufTy).Contents (Elt F)) : (⟨S640000x1, .i32⟩ : BufTy).Contents (Elt F) :=
  broadcastInDim S640000x1 ![0] bcast_S640000_S640000x1_0 (x2)

def val_main_v94 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) : (⟨S50000x128, .f32⟩ : BufTy).Contents (Elt F) :=
  Host.scatterAdd scatter_S50000x128_S640000x1_S640000x128_1_0_0_1 (val_main_v92 (F := F)) (val_main_v93 (F := F) x2) (val_main_v91 (F := F) x0 x1 x2 x4 x5 x6 x7 x8 x9)

def val_main_v95 (x2 : (⟨S640000, .i32⟩ : BufTy).Contents (Elt F)) : (⟨S50000x1, .f32⟩ : BufTy).Contents (Elt F) :=
  broadcastInDim S50000x1 ![0] bcast_S50000_S50000x1_0 (val_main_v18 (F := F) x2)

def val_main_v96 (x2 : (⟨S640000, .i32⟩ : BufTy).Contents (Elt F)) : (⟨S50000x128, .f32⟩ : BufTy).Contents (Elt F) :=
  broadcastInDim S50000x128 ![0, 1] bcast_S50000x1_S50000x128_0_1 (val_main_v95 (F := F) x2)

def val_main_v97 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) : (⟨S50000x128, .f32⟩ : BufTy).Contents (Elt F) :=
  mulf (val_main_v94 (F := F) x0 x1 x2 x4 x5 x6 x7 x8 x9) (val_main_v96 (F := F) x2)

def val_main_v98 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) : (⟨S50000x128, .f32⟩ : BufTy).Contents (Elt F) :=
  Host.dotGeneral dot_S50000x128_S128x128_S50000x128_1_0_0_1_n_n none (val_main_v97 (F := F) x0 x1 x2 x4 x5 x6 x7 x8 x9) (x10)

def val_main_v99 (x11 : (⟨S128, .f32⟩ : BufTy).Contents (Elt F)) : (⟨S1x128, .f32⟩ : BufTy).Contents (Elt F) :=
  broadcastInDim S1x128 ![1] bcast_S128_S1x128_1 (x11)

def val_main_v100 (x11 : (⟨S128, .f32⟩ : BufTy).Contents (Elt F)) : (⟨S50000x128, .f32⟩ : BufTy).Contents (Elt F) :=
  broadcastInDim S50000x128 ![0, 1] bcast_S1x128_S50000x128_0_1 (val_main_v99 (F := F) x11)

def val_main_v101 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) : (⟨S50000x128, .f32⟩ : BufTy).Contents (Elt F) :=
  addf (val_main_v98 (F := F) x0 x1 x2 x4 x5 x6 x7 x8 x9 x10) (val_main_v100 (F := F) x11)

def val_main_call5_cst : (⟨S_, .f32⟩ : BufTy).Contents (Elt F) :=
  constant S_ .f32 0x00000000#32

def val_main_call5_v0 : (⟨S50000x128, .f32⟩ : BufTy).Contents (Elt F) :=
  broadcastInDim S50000x128 ![] bcast_S_S50000x128 (val_main_call5_cst (F := F))

def val_main_v102 (x0 : (⟨S50000x128, .f32⟩ : BufTy).Contents (Elt F)) (x1 x2 : (⟨S640000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) : (⟨S50000x128, .f32⟩ : BufTy).Contents (Elt F) :=
  maximumf (val_main_v101 (F := F) x0 x1 x2 x4 x5 x6 x7 x8 x9 x10 x11) (val_main_call5_v0 (F := F))

def val_main_cst_19 : (⟨S_, .f32⟩ : BufTy).Contents (Elt F) :=
  constant S_ .f32 0x00000000#32

def val_main_v103 : (⟨S500x128, .f32⟩ : BufTy).Contents (Elt F) :=
  broadcastInDim S500x128 ![] bcast_S_S500x128 (val_main_cst_19 (F := F))

def val_main_v104 (x3 : (⟨S50000, .i32⟩ : BufTy).Contents (Elt F)) : (⟨S50000x1, .i32⟩ : BufTy).Contents (Elt F) :=
  broadcastInDim S50000x1 ![0] bcast_S50000_S50000x1_0 (x3)

def val_main_v105 (x0 : (⟨S50000x128, .f32⟩ : BufTy).Contents (Elt F)) (x1 x2 : (⟨S640000, .i32⟩ : BufTy).Contents (Elt F)) (x3 : (⟨S50000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) : (⟨S500x128, .f32⟩ : BufTy).Contents (Elt F) :=
  Host.scatterAdd scatter_S500x128_S50000x1_S50000x128_1_0_0_1 (val_main_v103 (F := F)) (val_main_v104 (F := F) x3) (val_main_v102 (F := F) x0 x1 x2 x4 x5 x6 x7 x8 x9 x10 x11)

def val_main_cst_20 : (⟨S_, .f32⟩ : BufTy).Contents (Elt F) :=
  constant S_ .f32 0x3F800000#32

def val_main_v106 : (⟨S50000, .f32⟩ : BufTy).Contents (Elt F) :=
  broadcastInDim S50000 ![] bcast_S_S50000 (val_main_cst_20 (F := F))

def val_main_cst_21 : (⟨S_, .f32⟩ : BufTy).Contents (Elt F) :=
  constant S_ .f32 0x00000000#32

def val_main_v107 : (⟨S500, .f32⟩ : BufTy).Contents (Elt F) :=
  broadcastInDim S500 ![] bcast_S_S500 (val_main_cst_21 (F := F))

def val_main_v108 (x3 : (⟨S50000, .i32⟩ : BufTy).Contents (Elt F)) : (⟨S50000x1, .i32⟩ : BufTy).Contents (Elt F) :=
  broadcastInDim S50000x1 ![0] bcast_S50000_S50000x1_0 (x3)

def val_main_v109 (x3 : (⟨S50000, .i32⟩ : BufTy).Contents (Elt F)) : (⟨S500, .f32⟩ : BufTy).Contents (Elt F) :=
  Host.scatterAdd scatter_S500_S50000x1_S50000_n_0_0_1 (val_main_v107 (F := F)) (val_main_v108 (F := F) x3) (val_main_v106 (F := F))

def val_main_cst_22 : (⟨S_, .f32⟩ : BufTy).Contents (Elt F) :=
  constant S_ .f32 0x3F800000#32

def val_main_v110 : (⟨S500, .f32⟩ : BufTy).Contents (Elt F) :=
  broadcastInDim S500 ![] bcast_S_S500 (val_main_cst_22 (F := F))

def val_main_v111 (x3 : (⟨S50000, .i32⟩ : BufTy).Contents (Elt F)) : (⟨S500, .f32⟩ : BufTy).Contents (Elt F) :=
  maximumf (val_main_v109 (F := F) x3) (val_main_v110 (F := F))

def val_main_v112 (x3 : (⟨S50000, .i32⟩ : BufTy).Contents (Elt F)) : (⟨S500x1, .f32⟩ : BufTy).Contents (Elt F) :=
  broadcastInDim S500x1 ![0] bcast_S500_S500x1_0 (val_main_v111 (F := F) x3)

def val_main_v113 (x3 : (⟨S50000, .i32⟩ : BufTy).Contents (Elt F)) : (⟨S500x128, .f32⟩ : BufTy).Contents (Elt F) :=
  broadcastInDim S500x128 ![0, 1] bcast_S500x1_S500x128_0_1 (val_main_v112 (F := F) x3)

def val_main_v114 (x0 : (⟨S50000x128, .f32⟩ : BufTy).Contents (Elt F)) (x1 x2 : (⟨S640000, .i32⟩ : BufTy).Contents (Elt F)) (x3 : (⟨S50000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) : (⟨S500x128, .f32⟩ : BufTy).Contents (Elt F) :=
  Host.divf (val_main_v105 (F := F) x0 x1 x2 x3 x4 x5 x6 x7 x8 x9 x10 x11) (val_main_v113 (F := F) x3)

def val_main_v115 (x0 : (⟨S50000x128, .f32⟩ : BufTy).Contents (Elt F)) (x1 x2 : (⟨S640000, .i32⟩ : BufTy).Contents (Elt F)) (x3 : (⟨S50000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) : (⟨S500x10, .f32⟩ : BufTy).Contents (Elt F) :=
  Host.dotGeneral dot_S500x128_S128x10_S500x10_1_0_0_1_n_n none (val_main_v114 (F := F) x0 x1 x2 x3 x4 x5 x6 x7 x8 x9 x10 x11) (x12)

def val_main_v116 (x13 : (⟨S10, .f32⟩ : BufTy).Contents (Elt F)) : (⟨S1x10, .f32⟩ : BufTy).Contents (Elt F) :=
  broadcastInDim S1x10 ![1] bcast_S10_S1x10_1 (x13)

def val_main_v117 (x13 : (⟨S10, .f32⟩ : BufTy).Contents (Elt F)) : (⟨S500x10, .f32⟩ : BufTy).Contents (Elt F) :=
  broadcastInDim S500x10 ![0, 1] bcast_S1x10_S500x10_0_1 (val_main_v116 (F := F) x13)

def val_main_v118 (x0 : (⟨S50000x128, .f32⟩ : BufTy).Contents (Elt F)) (x1 x2 : (⟨S640000, .i32⟩ : BufTy).Contents (Elt F)) (x3 : (⟨S50000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F)) : (⟨S500x10, .f32⟩ : BufTy).Contents (Elt F) :=
  addf (val_main_v115 (F := F) x0 x1 x2 x3 x4 x5 x6 x7 x8 x9 x10 x11 x12) (val_main_v117 (F := F) x13)

theorem val_main_v118_eq (m : (ℓ : Loc nD τ sig) → Buf (Elt F) ℓ) (c : Dev nD) :
    Cert.ReferenceIdeal.ValueP.res_main_v118 m c = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold Cert.ReferenceIdeal.ValueP.res_main_v118; rfl

theorem val_main_v114_eq (m : (ℓ : Loc nD τ sig) → Buf (Elt F) ℓ) (c : Dev nD) :
    Cert.ReferenceIdeal.ValueP.res_main_v114 m c = val_main_v114 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.ValueP.res_main_v114; rfl

end Cert.ReferenceIdeal.ReadP

end
-- ==== Proof.Val.Spec.lean ====
import proofs.«422796_j77979426226619_2_alg».proof.ReferenceIdeal
import proofs.«422796_j77979426226619_2_alg».proof.Proof.Gen.ReferenceIdeal
import Idealize.ShloMosaic.PureOps.Ideal

noncomputable section

namespace Cert.Spec

open Cert.ReferenceIdeal Cert.ReferenceIdeal.Gen Idealize.ShloMosaic Idealize.ShloMosaic.TcCoe

abbrev Arr (F : FTy → Type) (S : Shape) (e : EltTy) : Type := (⟨S, e⟩ : BufTy).Contents (Elt F)

variable {F : FTy → Type} [FloatOps F]

def degree (a : Arr F S640000 .i32) : Arr F S50000 .f32 :=
  Host.scatterAdd scatter_S50000_S640000x1_S640000_n_0_0_1 (broadcastInDim S50000 ![] bcast_S_S50000 (constant S_ .f32 0x00000000#32))
    (broadcastInDim S640000x1 ![0] bcast_S640000_S640000x1_0 a) (broadcastInDim S640000 ![] bcast_S_S640000 (constant S_ .f32 0x3F800000#32))

def degNorm (a : Arr F S640000 .i32) : Arr F S50000 .f32 :=
  select (cmpf (F := F) .ogt (degree (F := F) a) (broadcastInDim S50000 ![] bcast_S_S50000 (constant S_ .f32 0x00000000#32)))
    (Host.rsqrt (maximumf (degree (F := F) a) (broadcastInDim S50000 ![] bcast_S_S50000 (constant S_ .f32 0x3F800000#32))))
    (broadcastInDim S50000 ![] bcast_S_S50000 (id (constant S_ .f32 0x00000000#32)))

def rowScale (v : Arr F S50000 .f32) : Arr F S50000x128 .f32 :=
  broadcastInDim S50000x128 ![0, 1] bcast_S50000x1_S50000x128_0_1 (broadcastInDim S50000x1 ![0] bcast_S50000_S50000x1_0 v)

def srcIdx (a1 : Arr F S640000 .i32) : Arr F S640000x1 .i32 :=
  broadcastInDim S640000x1 ![0] bcast_S640000_S640000x1_0
    (select (cmpi .slt a1 (broadcastInDim S640000 ![] bcast_S_S640000 (constantI S_ 32 0#32)))
      (addi a1 (broadcastInDim S640000 ![] bcast_S_S640000 (constantI S_ 32 50000#32))) a1)

def agg (h : Arr F S50000x128 .f32) (ns nd : Arr F S50000 .f32) (a1 a2 : Arr F S640000 .i32) : Arr F S50000x128 .f32 :=
  mulf (Host.scatterAdd scatter_S50000x128_S640000x1_S640000x128_1_0_0_1
      (broadcastInDim S50000x128 ![] bcast_S_S50000x128 (constant S_ .f32 0x00000000#32))
      (broadcastInDim S640000x1 ![0] bcast_S640000_S640000x1_0 a2)
      (Host.gather gather_S50000x128_S640000x1_S640000x128_1_0_n_n_0_1_1128 (mulf h (rowScale (F := F) ns)) (srcIdx (F := F) a1)))
    (rowScale (F := F) nd)

def biasRow (b : Arr F S128 .f32) : Arr F S1x128 .f32 := broadcastInDim S1x128 ![1] bcast_S128_S1x128_1 b

def dense (g : Arr F S50000x128 .f32) (W : Arr F S128x128 .f32) (B : Arr F S1x128 .f32) : Arr F S50000x128 .f32 :=
  maximumf (addf (Host.dotGeneral dot_S50000x128_S128x128_S50000x128_1_0_0_1_n_n none g W)
      (broadcastInDim S50000x128 ![0, 1] bcast_S1x128_S50000x128_0_1 B))
    (broadcastInDim S50000x128 ![] bcast_S_S50000x128 (constant S_ .f32 0x00000000#32))

def layer (h : Arr F S50000x128 .f32) (ns nd : Arr F S50000 .f32) (a1 a2 : Arr F S640000 .i32) (W : Arr F S128x128 .f32) (b : Arr F S128 .f32) :
    Arr F S50000x128 .f32 :=
  dense (F := F) (agg (F := F) h ns nd a1 a2) W (biasRow (F := F) b)

def poolSums (h : Arr F S50000x128 .f32) (a3 : Arr F S50000 .i32) : Arr F S500x128 .f32 :=
  Host.scatterAdd scatter_S500x128_S50000x1_S50000x128_1_0_0_1 (broadcastInDim S500x128 ![] bcast_S_S500x128 (constant S_ .f32 0x00000000#32))
    (broadcastInDim S50000x1 ![0] bcast_S50000_S50000x1_0 a3) h
def poolCounts (a3 : Arr F S50000 .i32) : Arr F S500 .f32 :=
  Host.scatterAdd scatter_S500_S50000x1_S50000_n_0_0_1 (broadcastInDim S500 ![] bcast_S_S500 (constant S_ .f32 0x00000000#32))
    (broadcastInDim S50000x1 ![0] bcast_S50000_S50000x1_0 a3) (broadcastInDim S50000 ![] bcast_S_S50000 (constant S_ .f32 0x3F800000#32))

def poolHg (h : Arr F S50000x128 .f32) (a3 : Arr F S50000 .i32) : Arr F S500x128 .f32 :=
  Host.divf (poolSums (F := F) h a3)
    (broadcastInDim S500x128 ![0, 1] bcast_S500x1_S500x128_0_1 (broadcastInDim S500x1 ![0] bcast_S500_S500x1_0
      (maximumf (poolCounts (F := F) a3) (broadcastInDim S500 ![] bcast_S_S500 (constant S_ .f32 0x3F800000#32)))))

def classify (hg : Arr F S500x128 .f32) (Wc : Arr F S128x10 .f32) (bc : Arr F S10 .f32) : Arr F S500x10 .f32 :=
  addf (Host.dotGeneral dot_S500x128_S128x10_S500x10_1_0_0_1_n_n none hg Wc)
    (broadcastInDim S500x10 ![0, 1] bcast_S1x10_S500x10_0_1 (broadcastInDim S1x10 ![1] bcast_S10_S1x10_1 bc))

def feats (a0 : Arr F S50000x128 .f32) (a1 a2 : Arr F S640000 .i32) (W1 : Arr F S128x128 .f32) (b1 : Arr F S128 .f32) (W2 : Arr F S128x128 .f32) (b2 : Arr F S128 .f32)
    (W3 : Arr F S128x128 .f32) (b3 : Arr F S128 .f32) (W4 : Arr F S128x128 .f32) (b4 : Arr F S128 .f32) : Arr F S50000x128 .f32 :=
  layer (F := F) (layer (F := F) (layer (F := F) (layer (F := F) a0 (degNorm (F := F) a1) (degNorm (F := F) a2) a1 a2 W1 b1)
    (degNorm (F := F) a1) (degNorm (F := F) a2) a1 a2 W2 b2) (degNorm (F := F) a1) (degNorm (F := F) a2) a1 a2 W3 b3)
    (degNorm (F := F) a1) (degNorm (F := F) a2) a1 a2 W4 b4

end Cert.Spec

end
-- ==== Proof.Val.RefSpec.lean ====
import proofs.«422796_j77979426226619_2_alg».proof.Proof.RefRead
import proofs.«422796_j77979426226619_2_alg».proof.Proof.Val.Spec

noncomputable section

namespace Cert.ReferenceIdeal.RefSide

open Cert.ReferenceIdeal Cert.ReferenceIdeal.Gen Cert.ReferenceIdeal.ReadP Idealize.ShloMosaic Idealize.ShloMosaic.TcCoe
open Cert.Spec (Arr)

variable {F : FTy → Type} [FloatOps F]

theorem deg_tails (a1 : Arr F S640000 .i32) : val_main_v3 (F := F) a1 = Cert.Spec.degree (F := F) a1 := by
  unfold val_main_v3 val_main_v1 val_main_v2 val_main_v0 val_main_cst_0 val_main_cst Cert.Spec.degree; rfl
theorem deg_heads (a2 : Arr F S640000 .i32) : val_main_v6 (F := F) a2 = Cert.Spec.degree (F := F) a2 := by
  unfold val_main_v6 val_main_v4 val_main_v5 val_main_v0 val_main_cst_1 val_main_cst Cert.Spec.degree; rfl

theorem norm_tails (a1 : Arr F S640000 .i32) : val_main_v12 (F := F) a1 = Cert.Spec.degNorm (F := F) a1 := by
  unfold val_main_v12 val_main_v8 val_main_v11 val_main_v10 val_main_call0_v1 val_main_call0_v0 val_main_cst_4 val_main_v7 val_main_cst_2 val_main_v9 val_main_cst_3
  rw [deg_tails]; unfold Cert.Spec.degNorm; rfl
theorem norm_heads (a2 : Arr F S640000 .i32) : val_main_v18 (F := F) a2 = Cert.Spec.degNorm (F := F) a2 := by
  unfold val_main_v18 val_main_v14 val_main_v17 val_main_v16 val_main_call1_v1 val_main_call1_v0 val_main_cst_7 val_main_v13 val_main_cst_5 val_main_v15 val_main_cst_6
  rw [deg_heads]; unfold Cert.Spec.degNorm; rfl

theorem ns_row1 (a1 : Arr F S640000 .i32) : val_main_v20 (F := F) a1 = Cert.Spec.rowScale (F := F) (Cert.Spec.degNorm (F := F) a1) := by
  unfold val_main_v20 val_main_v19; rw [norm_tails]; unfold Cert.Spec.rowScale; rfl
theorem nd_row1 (a2 : Arr F S640000 .i32) : val_main_v33 (F := F) a2 = Cert.Spec.rowScale (F := F) (Cert.Spec.degNorm (F := F) a2) := by
  unfold val_main_v33 val_main_v32; rw [norm_heads]; unfold Cert.Spec.rowScale; rfl
theorem src_idx1 (a1 : Arr F S640000 .i32) : val_main_v27 (F := F) a1 = Cert.Spec.srcIdx (F := F) a1 := by
  unfold val_main_v27 val_main_v26 val_main_v23 val_main_v25 val_main_v22 val_main_v24 val_main_c val_main_c_8 Cert.Spec.srcIdx; rfl

theorem ns_row2 (a1 : Arr F S640000 .i32) : val_main_v41 (F := F) a1 = Cert.Spec.rowScale (F := F) (Cert.Spec.degNorm (F := F) a1) := by
  unfold val_main_v41 val_main_v40; rw [norm_tails]; unfold Cert.Spec.rowScale; rfl
theorem nd_row2 (a2 : Arr F S640000 .i32) : val_main_v54 (F := F) a2 = Cert.Spec.rowScale (F := F) (Cert.Spec.degNorm (F := F) a2) := by
  unfold val_main_v54 val_main_v53; rw [norm_heads]; unfold Cert.Spec.rowScale; rfl
theorem src_idx2 (a1 : Arr F S640000 .i32) : val_main_v48 (F := F) a1 = Cert.Spec.srcIdx (F := F) a1 := by
  unfold val_main_v48 val_main_v47 val_main_v44 val_main_v46 val_main_v43 val_main_v45 val_main_c_10 val_main_c_11 Cert.Spec.srcIdx; rfl

theorem ns_row3 (a1 : Arr F S640000 .i32) : val_main_v62 (F := F) a1 = Cert.Spec.rowScale (F := F) (Cert.Spec.degNorm (F := F) a1) := by
  unfold val_main_v62 val_main_v61; rw [norm_tails]; unfold Cert.Spec.rowScale; rfl
theorem nd_row3 (a2 : Arr F S640000 .i32) : val_main_v75 (F := F) a2 = Cert.Spec.rowScale (F := F) (Cert.Spec.degNorm (F := F) a2) := by
  unfold val_main_v75 val_main_v74; rw [norm_heads]; unfold Cert.Spec.rowScale; rfl
theorem src_idx3 (a1 : Arr F S640000 .i32) : val_main_v69 (F := F) a1 = Cert.Spec.srcIdx (F := F) a1 := by
  unfold val_main_v69 val_main_v68 val_main_v65 val_main_v67 val_main_v64 val_main_v66 val_main_c_13 val_main_c_14 Cert.Spec.srcIdx; rfl

theorem ns_row4 (a1 : Arr F S640000 .i32) : val_main_v83 (F := F) a1 = Cert.Spec.rowScale (F := F) (Cert.Spec.degNorm (F := F) a1) := by
  unfold val_main_v83 val_main_v82; rw [norm_tails]; unfold Cert.Spec.rowScale; rfl
theorem nd_row4 (a2 : Arr F S640000 .i32) : val_main_v96 (F := F) a2 = Cert.Spec.rowScale (F := F) (Cert.Spec.degNorm (F := F) a2) := by
  unfold val_main_v96 val_main_v95; rw [norm_heads]; unfold Cert.Spec.rowScale; rfl
theorem src_idx4 (a1 : Arr F S640000 .i32) : val_main_v90 (F := F) a1 = Cert.Spec.srcIdx (F := F) a1 := by
  unfold val_main_v90 val_main_v89 val_main_v86 val_main_v88 val_main_v85 val_main_v87 val_main_c_16 val_main_c_17 Cert.Spec.srcIdx; rfl

theorem layer1_step (a0 : Arr F S50000x128 .f32) (a1 a2 : Arr F S640000 .i32) (a4 : Arr F S128x128 .f32) (a5 : Arr F S128 .f32) :
    val_main_v39 (F := F) a0 a1 a2 a4 a5
      = Cert.Spec.layer (F := F) a0 (Cert.Spec.degNorm (F := F) a1) (Cert.Spec.degNorm (F := F) a2) a1 a2 a4 a5 := by
  unfold val_main_v39 val_main_v38 val_main_v35 val_main_v37 val_main_v36 val_main_call2_v0 val_main_call2_cst val_main_v34 val_main_v31 val_main_v29 val_main_cst_9 val_main_v30 val_main_v28 val_main_v21
  rw [ns_row1, nd_row1, src_idx1]
  unfold Cert.Spec.layer Cert.Spec.dense Cert.Spec.biasRow Cert.Spec.agg; rfl

theorem layer2_step (a0 : Arr F S50000x128 .f32) (a1 a2 : Arr F S640000 .i32) (a4 : Arr F S128x128 .f32) (a5 : Arr F S128 .f32) (a6 : Arr F S128x128 .f32) (a7 : Arr F S128 .f32) :
    val_main_v60 (F := F) a0 a1 a2 a4 a5 a6 a7
      = Cert.Spec.layer (F := F) (val_main_v39 (F := F) a0 a1 a2 a4 a5) (Cert.Spec.degNorm (F := F) a1) (Cert.Spec.degNorm (F := F) a2) a1 a2 a6 a7 := by
  unfold val_main_v60 val_main_v59 val_main_v56 val_main_v58 val_main_v57 val_main_call3_v0 val_main_call3_cst val_main_v55 val_main_v52 val_main_v50 val_main_cst_12 val_main_v51 val_main_v49 val_main_v42
  rw [ns_row2, nd_row2, src_idx2]
  unfold Cert.Spec.layer Cert.Spec.dense Cert.Spec.biasRow Cert.Spec.agg; rfl

theorem layer3_step (a0 : Arr F S50000x128 .f32) (a1 a2 : Arr F S640000 .i32) (a4 : Arr F S128x128 .f32) (a5 : Arr F S128 .f32) (a6 : Arr F S128x128 .f32) (a7 : Arr F S128 .f32) (a8 : Arr F S128x128 .f32) (a9 : Arr F S128 .f32) :
    val_main_v81 (F := F) a0 a1 a2 a4 a5 a6 a7 a8 a9
      = Cert.Spec.layer (F := F) (val_main_v60 (F := F) a0 a1 a2 a4 a5 a6 a7) (Cert.Spec.degNorm (F := F) a1) (Cert.Spec.degNorm (F := F) a2) a1 a2 a8 a9 := by
  unfold val_main_v81 val_main_v80 val_main_v77 val_main_v79 val_main_v78 val_main_call4_v0 val_main_call4_cst val_main_v76 val_main_v73 val_main_v71 val_main_cst_15 val_main_v72 val_main_v70 val_main_v63
  rw [ns_row3, nd_row3, src_idx3]
  unfold Cert.Spec.layer Cert.Spec.dense Cert.Spec.biasRow Cert.Spec.agg; rfl

theorem layer4_step (a0 : Arr F S50000x128 .f32) (a1 a2 : Arr F S640000 .i32) (a4 : Arr F S128x128 .f32) (a5 : Arr F S128 .f32) (a6 : Arr F S128x128 .f32) (a7 : Arr F S128 .f32) (a8 : Arr F S128x128 .f32) (a9 : Arr F S128 .f32) (a10 : Arr F S128x128 .f32) (a11 : Arr F S128 .f32) :
    val_main_v102 (F := F) a0 a1 a2 a4 a5 a6 a7 a8 a9 a10 a11
      = Cert.Spec.layer (F := F) (val_main_v81 (F := F) a0 a1 a2 a4 a5 a6 a7 a8 a9) (Cert.Spec.degNorm (F := F) a1) (Cert.Spec.degNorm (F := F) a2) a1 a2 a10 a11 := by
  unfold val_main_v102 val_main_v101 val_main_v98 val_main_v100 val_main_v99 val_main_call5_v0 val_main_call5_cst val_main_v97 val_main_v94 val_main_v92 val_main_cst_18 val_main_v93 val_main_v91 val_main_v84
  rw [ns_row4, nd_row4, src_idx4]
  unfold Cert.Spec.layer Cert.Spec.dense Cert.Spec.biasRow Cert.Spec.agg; rfl

theorem feats_eq (a0 : Arr F S50000x128 .f32) (a1 a2 : Arr F S640000 .i32) (a4 : Arr F S128x128 .f32) (a5 : Arr F S128 .f32) (a6 : Arr F S128x128 .f32) (a7 : Arr F S128 .f32) (a8 : Arr F S128x128 .f32) (a9 : Arr F S128 .f32) (a10 : Arr F S128x128 .f32) (a11 : Arr F S128 .f32) :
    val_main_v102 (F := F) a0 a1 a2 a4 a5 a6 a7 a8 a9 a10 a11 = Cert.Spec.feats (F := F) a0 a1 a2 a4 a5 a6 a7 a8 a9 a10 a11 := by
  rw [layer4_step, layer3_step, layer2_step, layer1_step]; unfold Cert.Spec.feats; rfl

theorem means_step (a0 : Arr F S50000x128 .f32) (a1 a2 : Arr F S640000 .i32) (a3 : Arr F S50000 .i32) (a4 : Arr F S128x128 .f32) (a5 : Arr F S128 .f32) (a6 : Arr F S128x128 .f32) (a7 : Arr F S128 .f32) (a8 : Arr F S128x128 .f32) (a9 : Arr F S128 .f32) (a10 : Arr F S128x128 .f32) (a11 : Arr F S128 .f32) :
    val_main_v114 (F := F) a0 a1 a2 a3 a4 a5 a6 a7 a8 a9 a10 a11
      = Cert.Spec.poolHg (F := F) (val_main_v102 (F := F) a0 a1 a2 a4 a5 a6 a7 a8 a9 a10 a11) a3 := by
  unfold val_main_v114 val_main_v105 val_main_v103 val_main_cst_19 val_main_v104 val_main_v113 val_main_v112 val_main_v111 val_main_v109 val_main_v107 val_main_cst_21 val_main_v108 val_main_v106 val_main_cst_20 val_main_v110 val_main_cst_22 Cert.Spec.poolHg Cert.Spec.poolSums Cert.Spec.poolCounts; rfl

theorem scores_step (a0 : Arr F S50000x128 .f32) (a1 a2 : Arr F S640000 .i32) (a3 : Arr F S50000 .i32) (a4 : Arr F S128x128 .f32) (a5 : Arr F S128 .f32) (a6 : Arr F S128x128 .f32) (a7 : Arr F S128 .f32) (a8 : Arr F S128x128 .f32) (a9 : Arr F S128 .f32) (a10 : Arr F S128x128 .f32) (a11 : Arr F S128 .f32) (a12 : Arr F S128x10 .f32) (a13 : Arr F S10 .f32) :
    val_main_v118 (F := F) a0 a1 a2 a3 a4 a5 a6 a7 a8 a9 a10 a11 a12 a13
      = Cert.Spec.classify (F := F) (val_main_v114 (F := F) a0 a1 a2 a3 a4 a5 a6 a7 a8 a9 a10 a11) a12 a13 := by
  unfold val_main_v118 val_main_v115 val_main_v117 val_main_v116 Cert.Spec.classify; rfl

theorem ref_means (a0 : Arr F S50000x128 .f32) (a1 a2 : Arr F S640000 .i32) (a3 : Arr F S50000 .i32) (a4 : Arr F S128x128 .f32) (a5 : Arr F S128 .f32)
    (a6 : Arr F S128x128 .f32) (a7 : Arr F S128 .f32) (a8 : Arr F S128x128 .f32) (a9 : Arr F S128 .f32) (a10 : Arr F S128x128 .f32) (a11 : Arr F S128 .f32) :
    val_main_v114 (F := F) a0 a1 a2 a3 a4 a5 a6 a7 a8 a9 a10 a11
      = Cert.Spec.poolHg (F := F) (Cert.Spec.feats (F := F) a0 a1 a2 a4 a5 a6 a7 a8 a9 a10 a11) a3 := by
  rw [means_step, feats_eq]

theorem ref_scores (a0 : Arr F S50000x128 .f32) (a1 a2 : Arr F S640000 .i32) (a3 : Arr F S50000 .i32) (a4 : Arr F S128x128 .f32) (a5 : Arr F S128 .f32)
    (a6 : Arr F S128x128 .f32) (a7 : Arr F S128 .f32) (a8 : Arr F S128x128 .f32) (a9 : Arr F S128 .f32) (a10 : Arr F S128x128 .f32) (a11 : Arr F S128 .f32)
    (a12 : Arr F S128x10 .f32) (a13 : Arr F S10 .f32) :
    val_main_v118 (F := F) a0 a1 a2 a3 a4 a5 a6 a7 a8 a9 a10 a11 a12 a13
      = Cert.Spec.classify (F := F) (Cert.Spec.poolHg (F := F) (Cert.Spec.feats (F := F) a0 a1 a2 a4 a5 a6 a7 a8 a9 a10 a11) a3) a12 a13 := by
  rw [scores_step, means_step, feats_eq]

end Cert.ReferenceIdeal.RefSide

end
-- ==== Proof.Val.Host.lean ====
import proofs.«422796_j77979426226619_2_alg».proof.Proof.Gen.KernelIdeal.Launch
import proofs.«422796_j77979426226619_2_alg».proof.Proof.Gen.KernelIdeal.Regions
import proofs.«422796_j77979426226619_2_alg».proof.Proof.Val.Spec
import Idealize.ShloMosaic.Lib.StableHlo.Run
import Idealize.ShloMosaic.Lib.Pipeline.Value
import Idealize.ShloMosaic.Lib.ValueIdx

noncomputable section

namespace Cert.KernelIdeal.Val

open Cert.KernelIdeal Cert.KernelIdeal.Gen
open Idealize.ShloMosaic Idealize.ShloMosaic.TcCoe Idealize.SL.Sem Idealize.ShloMosaic.StableHlo

variable (W : Valuation τ sig (Elt Ideal))

theorem ofBuf_toBuf {T : BufTy} {Val : EltTy → Type} (x : TRef sig T) (v : T.Contents Val) : x.ofBuf (x.toBuf v) = v := by
  obtain ⟨r, rfl, _, _⟩ := x; rfl

theorem reshape_row_eq_bcast {α : Type} (x : (⟨1, ![128]⟩ : Shape).Idx → α) (hs : (⟨1, ![128]⟩ : Shape).ShapeCasts ⟨2, ![1, 128]⟩)
    (hb : (⟨1, ![128]⟩ : Shape).BroadcastsInDim ⟨2, ![1, 128]⟩ ![1]) :
    shapeCast ⟨2, ![1, 128]⟩ x hs = broadcastInDim ⟨2, ![1, 128]⟩ ![1] hb x := by
  funext j
  refine (shapeCast_addUnit_apply ![128] x hs j).trans ?_
  refine (broadcastInDim_apply _ hb x j _ ?_).symm
  intro a
  match a with
  | ⟨0, _⟩ => rfl

theorem host0_normSrc : StableHlo.after hostOps0 W (Proc.devRef .tc main_call0_v12) = Cert.Spec.degNorm (F := Ideal) (W (Proc.devRef .tc main_arg1)) := by
  show StableHlo.after hostOps0 W (Proc.devRef .tc main_call0_v12) = _
  after_results_simp
  simp only [ofBuf_toBuf]
  simp only [cast_eq]
  rfl
theorem host0_normDst : StableHlo.after hostOps0 W (Proc.devRef .tc main_call0_v18) = Cert.Spec.degNorm (F := Ideal) (W (Proc.devRef .tc main_arg2)) := by
  show StableHlo.after hostOps0 W (Proc.devRef .tc main_call0_v18) = _
  after_results_simp
  simp only [ofBuf_toBuf]
  simp only [cast_eq]
  rfl
theorem host0_agg : StableHlo.after hostOps0 W (Proc.devRef .tc main_call0_v36)
    = Cert.Spec.agg (F := Ideal) (W (Proc.devRef .tc main_arg0)) (Cert.Spec.degNorm (F := Ideal) (W (Proc.devRef .tc main_arg1)))
        (Cert.Spec.degNorm (F := Ideal) (W (Proc.devRef .tc main_arg2))) (W (Proc.devRef .tc main_arg1)) (W (Proc.devRef .tc main_arg2)) := by
  show StableHlo.after hostOps0 W (Proc.devRef .tc main_call0_v36) = _
  after_results_simp
  simp only [ofBuf_toBuf]
  simp only [cast_eq]
  rfl
theorem host0_bias : StableHlo.after hostOps0 W (Proc.devRef .tc main_call0_v37) = Cert.Spec.biasRow (F := Ideal) (W (Proc.devRef .tc main_arg5)) := by
  show StableHlo.after hostOps0 W (Proc.devRef .tc main_call0_v37) = _
  after_results_simp
  exact reshape_row_eq_bcast _ _ _

theorem host1_agg : StableHlo.after hostOps1 W (Proc.devRef .tc main_call0_v57)
    = Cert.Spec.agg (F := Ideal) (W (Proc.devRef .tc main_call0_v38)) (W (Proc.devRef .tc main_call0_v12)) (W (Proc.devRef .tc main_call0_v18))
        (W (Proc.devRef .tc main_arg1)) (W (Proc.devRef .tc main_arg2)) := by
  show StableHlo.after hostOps1 W (Proc.devRef .tc main_call0_v57) = _
  after_results_simp
  simp only [ofBuf_toBuf]
  simp only [cast_eq]
  rfl
theorem host1_bias : StableHlo.after hostOps1 W (Proc.devRef .tc main_call0_v58) = Cert.Spec.biasRow (F := Ideal) (W (Proc.devRef .tc main_arg7)) := by
  show StableHlo.after hostOps1 W (Proc.devRef .tc main_call0_v58) = _
  after_results_simp
  exact reshape_row_eq_bcast _ _ _
theorem host2_agg : StableHlo.after hostOps2 W (Proc.devRef .tc main_call0_v78)
    = Cert.Spec.agg (F := Ideal) (W (Proc.devRef .tc main_call0_v59)) (W (Proc.devRef .tc main_call0_v12)) (W (Proc.devRef .tc main_call0_v18))
        (W (Proc.devRef .tc main_arg1)) (W (Proc.devRef .tc main_arg2)) := by
  show StableHlo.after hostOps2 W (Proc.devRef .tc main_call0_v78) = _
  after_results_simp
  simp only [ofBuf_toBuf]
  simp only [cast_eq]
  rfl
theorem host2_bias : StableHlo.after hostOps2 W (Proc.devRef .tc main_call0_v79) = Cert.Spec.biasRow (F := Ideal) (W (Proc.devRef .tc main_arg9)) := by
  show StableHlo.after hostOps2 W (Proc.devRef .tc main_call0_v79) = _
  after_results_simp
  exact reshape_row_eq_bcast _ _ _
theorem host3_agg : StableHlo.after hostOps3 W (Proc.devRef .tc main_call0_v99)
    = Cert.Spec.agg (F := Ideal) (W (Proc.devRef .tc main_call0_v80)) (W (Proc.devRef .tc main_call0_v12)) (W (Proc.devRef .tc main_call0_v18))
        (W (Proc.devRef .tc main_arg1)) (W (Proc.devRef .tc main_arg2)) := by
  show StableHlo.after hostOps3 W (Proc.devRef .tc main_call0_v99) = _
  after_results_simp
  simp only [ofBuf_toBuf]
  simp only [cast_eq]
  rfl
theorem host3_bias : StableHlo.after hostOps3 W (Proc.devRef .tc main_call0_v100) = Cert.Spec.biasRow (F := Ideal) (W (Proc.devRef .tc main_arg11)) := by
  show StableHlo.after hostOps3 W (Proc.devRef .tc main_call0_v100) = _
  after_results_simp
  exact reshape_row_eq_bcast _ _ _

end Cert.KernelIdeal.Val

end
-- ==== Proof.Val.LinArith.lean ====
import proofs.«422796_j77979426226619_2_alg».proof.Proof.Gen.KernelIdeal.Skeleton
import proofs.«422796_j77979426226619_2_alg».proof.Proof.Val.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

theorem lin_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lin_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem lin_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem lin_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem lin_matmul_apply {φ₁ φ₂ : FTy} (a : FVec Ideal S2000x128 φ₁) (b : FVec Ideal S128x128 φ₂) (r : Fin 2000) (j : Fin 128) :
    FloatOps.matmul dot_S2000x128_S128x128_S2000x128_1_0_0_1_n_n none a b (constant S2000x128 .f32 0x00000000#32) (ix2 r j)
      = ∑ k : Fin 128, a (ix2 r k) * b (ix2 k j) := by
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r j) ((ValueIdx.contrEquiv1 dot_S2000x128_S128x128_S2000x128_1_0_0_1_n_n 128 rfl rfl).symm k) = ix2 r k := funext fun a => Fin.ext (by
    match a with
    | ⟨0, _⟩ => exact lin_lhs_0 _ _
    | ⟨1, _⟩ => exact (lin_lhs_1 _ _).trans hk)
  have er : dot_S2000x128_S128x128_S2000x128_1_0_0_1_n_n.rhsIdx (ix2 r j) ((ValueIdx.contrEquiv1 dot_S2000x128_S128x128_S2000x128_1_0_0_1_n_n 128 rfl rfl).symm k) = ix2 k j := funext fun a => Fin.ext (by
    match a with
    | ⟨0, _⟩ => exact (lin_rhs_0 _ _).trans hk
    | ⟨1, _⟩ => exact lin_rhs_1 _ _)
  rw [el, er]

theorem lin_bias_apply {α : Type} (x : S1x128.Idx → α) (r : Fin 2000) (j : Fin 128) :
    broadcastTo S2000x128 (shapeCast S1x128 (shapeCast S1x128 x shapeCasts_S1x128_S1x128) shapeCasts_S1x128_S1x128) broadcasts_S1x128_S2000x128 (ix2 r j)
      = x (ix2 (0 : Fin 1) j) := by
  rw [shapeCast_self, shapeCast_self]
  exact broadcastTo_apply x broadcasts_S1x128_S2000x128 (ix2 r j) (ix2 (0 : Fin 1) j) (fun a => match a with
    | ⟨0, _⟩ => by show 0 = if (1 : Nat) = 1 then 0 else _; rw [if_pos rfl]
    | ⟨1, _⟩ => by show j.val = if (128 : Nat) = 1 then 0 else j.val; rw [if_neg (by decide)])

theorem lin_pay_apply (x0 : Vec Ideal S2000x128 .f32) (x1 : Vec Ideal S128x128 .f32) (x2 : Vec Ideal S1x128 .f32) (r : Fin 2000) (j : Fin 128) :
    k0_pay1 x0 x1 x2 (ix2 r j) = max ((∑ k : Fin 128, x0 (ix2 r k) * x1 (ix2 k j)) + x2 (ix2 (0 : Fin 1) j)) 0 := by
  unfold k0_pay1
  show max (FloatOps.matmul (F := Ideal) dot_S2000x128_S128x128_S2000x128_1_0_0_1_n_n none
        (truncf (F := Ideal) .bf16 (shapeCast S2000x128 x0 shapeCasts_S2000x128_S2000x128) bitsLt_bf16_f32) (truncf (F := Ideal) .bf16 x1 bitsLt_bf16_f32)
        (constant S2000x128 .f32 0x00000000#32) (ix2 r j)
      + broadcastTo S2000x128 (shapeCast S1x128 (shapeCast S1x128 x2 shapeCasts_S1x128_S1x128) shapeCasts_S1x128_S1x128)
          broadcasts_S1x128_S2000x128 (ix2 r j)) (Ideal.ofBits .f32 0x00000000#32) = _
  rw [lin_matmul_apply, lin_bias_apply, Ideal.ofBits_zero_f32, shapeCast_self]
  rfl

theorem lin_arr_lhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem lin_arr_lhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem lin_arr_rhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem lin_arr_rhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

theorem lin_arr_dot_apply (g : FVec Ideal Cert.ReferenceIdeal.S50000x128 .f32) (W : FVec Ideal Cert.ReferenceIdeal.S128x128 .f32) (r : Fin 50000) (j : Fin 128) :
    FloatOps.dotGeneral Cert.ReferenceIdeal.dot_S50000x128_S128x128_S50000x128_1_0_0_1_n_n none .single g W (ix2 r j)
      = ∑ k : Fin 128, g (ix2 r k) * W (ix2 k j) := by
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r j) ((ValueIdx.contrEquiv1 Cert.ReferenceIdeal.dot_S50000x128_S128x128_S50000x128_1_0_0_1_n_n 128 rfl rfl).symm k) = ix2 r k := funext fun a => Fin.ext (by
    match a with
    | ⟨0, _⟩ => exact lin_arr_lhs_0 _ _
    | ⟨1, _⟩ => exact (lin_arr_lhs_1 _ _).trans hk)
  have er : Cert.ReferenceIdeal.dot_S50000x128_S128x128_S50000x128_1_0_0_1_n_n.rhsIdx (ix2 r j) ((ValueIdx.contrEquiv1 Cert.ReferenceIdeal.dot_S50000x128_S128x128_S50000x128_1_0_0_1_n_n 128 rfl rfl).symm k) = ix2 k j := funext fun a => Fin.ext (by
    match a with
    | ⟨0, _⟩ => exact (lin_arr_rhs_0 _ _).trans hk
    | ⟨1, _⟩ => exact lin_arr_rhs_1 _ _)
  rw [el, er]

theorem lin_arr_bias_apply {α : Type} (B : Cert.ReferenceIdeal.S1x128.Idx → α) (r : Fin 50000) (j : Fin 128) :
    broadcastInDim Cert.ReferenceIdeal.S50000x128 ![0, 1] Cert.ReferenceIdeal.Gen.bcast_S1x128_S50000x128_0_1 B (ix2 r j) = B (ix2 (0 : Fin 1) j) :=
  broadcastInDim_apply _ Cert.ReferenceIdeal.Gen.bcast_S1x128_S50000x128_0_1 B (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])

theorem lin_arr_zero_apply (i : Cert.ReferenceIdeal.S50000x128.Idx) :
    broadcastInDim Cert.ReferenceIdeal.S50000x128 ![] Cert.ReferenceIdeal.Gen.bcast_S_S50000x128 (constant (F := Ideal) Cert.ReferenceIdeal.S_ .f32 0x00000000#32) i = 0 :=
  (broadcastInDim_apply _ Cert.ReferenceIdeal.Gen.bcast_S_S50000x128 (constant (F := Ideal) Cert.ReferenceIdeal.S_ .f32 0x00000000#32) i (fun a => a.elim0) (fun a => a.elim0)).trans
    Ideal.ofBits_zero_f32

theorem lin_dense_apply (g : Cert.Spec.Arr Ideal Cert.ReferenceIdeal.S50000x128 .f32) (W : Cert.Spec.Arr Ideal Cert.ReferenceIdeal.S128x128 .f32)
    (B : Cert.Spec.Arr Ideal Cert.ReferenceIdeal.S1x128 .f32) (r : Fin 50000) (j : Fin 128) :
    Cert.Spec.dense (F := Ideal) g W B (ix2 r j) = max ((∑ k : Fin 128, g (ix2 r k) * W (ix2 k j)) + B (ix2 (0 : Fin 1) j)) 0 := by
  unfold Cert.Spec.dense
  show max (FloatOps.dotGeneral (F := Ideal) Cert.ReferenceIdeal.dot_S50000x128_S128x128_S50000x128_1_0_0_1_n_n none .single g W (ix2 r j)
      + broadcastInDim Cert.ReferenceIdeal.S50000x128 ![0, 1] Cert.ReferenceIdeal.Gen.bcast_S1x128_S50000x128_0_1 B (ix2 r j))
    (broadcastInDim Cert.ReferenceIdeal.S50000x128 ![] Cert.ReferenceIdeal.Gen.bcast_S_S50000x128 (constant (F := Ideal) Cert.ReferenceIdeal.S_ .f32 0x00000000#32) (ix2 r j)) = _
  rw [lin_arr_dot_apply, lin_arr_bias_apply, lin_arr_zero_apply]

theorem lin_hz : (![0, 0] : Fin 2 → Nat) = fun _ => 0 := funext fun a => by fin_cases a <;> rfl

/-- One stored entry is the dense layer's entry when the block's rows are the array's from row `R` on: both are the same sum, bias and clip. -/
theorem lin_entry (x0 : Vec Ideal S2000x128 .f32) (x1 : Vec Ideal S128x128 .f32) (x2 : Vec Ideal S1x128 .f32)
    (g : Cert.Spec.Arr Ideal Cert.ReferenceIdeal.S50000x128 .f32) (W : Cert.Spec.Arr Ideal Cert.ReferenceIdeal.S128x128 .f32)
    (B : Cert.Spec.Arr Ideal Cert.ReferenceIdeal.S1x128 .f32) (r : Fin 2000) (j : Fin 128) (R : Fin 50000)
    (h0 : ∀ k : Fin 128, x0 (ix2 r k) = g (ix2 R k)) (h1 : ∀ k : Fin 128, x1 (ix2 k j) = W (ix2 k j))
    (h2 : x2 (ix2 (0 : Fin 1) j) = B (ix2 (0 : Fin 1) j)) :
    k0_pay1 x0 x1 x2 (ix2 r j) = Cert.Spec.dense (F := Ideal) g W B (ix2 R j) := by
  rw [lin_pay_apply, lin_dense_apply]
  simp only [h0, h1, h2]

end Cert.KernelIdeal.Val

end
-- ==== Proof.Val.LinVal0.lean ====
import proofs.«422796_j77979426226619_2_alg».proof.Proof.KI.Lin0
import proofs.«422796_j77979426226619_2_alg».proof.Proof.Val.LinArith

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem lin0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lin0_point_lt (t : Fin cfg0.N) : t.val < 25 := lt_of_lt_of_eq t.isLt N_0

theorem lin0_iblk_0_apply (c : Dev nD) (t : Fin cfg0.N) (r : Fin 2000) (k : Fin 128) (R : Fin 50000) (hR : R.val = t.val * 2000 + r.val) :
    (iblk0 V c 0 t : Vec Ideal S2000x128 .f32) (ix2 r k) = (V c (Pipeline.arrRef spec0 0) : Vec Ideal S50000x128 .f32) (ix2 R k) := by
  obtain ⟨e0, e1, -⟩ := lin0_idx_facts t
  unfold iblk0
  rw [View.read_apply]
  show V c (Pipeline.arrRef spec0 0) (((cfg0.win 0).blk t).view.emb (ix2 r k)) = _
  congr 1
  funext a
  apply Fin.ext
  match a with
  | ⟨0, _⟩ => show win0_0.index t (0 : Fin 2) * 2000 + 1 * r.val = R.val; rw [e0, hR]; omega
  | ⟨1, _⟩ => show win0_0.index t (1 : Fin 2) * 128 + 1 * k.val = k.val; rw [e1]; omega

theorem lin0_iblk_1_apply (c : Dev nD) (t : Fin cfg0.N) (k : Fin 128) (j : Fin 128) :
    (iblk0 V c 1 t : Vec Ideal S128x128 .f32) (ix2 k j) = (V c (Pipeline.arrRef spec0 1) : Vec Ideal S128x128 .f32) (ix2 k j) := by
  obtain ⟨-, -, e0, e1, -⟩ := lin0_idx_facts t
  unfold iblk0
  rw [View.read_apply]
  show V c (Pipeline.arrRef spec0 1) (((cfg0.win 1).blk t).view.emb (ix2 k j)) = _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * j.val = j.val; rw [e1]; omega

theorem lin0_iblk_2_apply (c : Dev nD) (t : Fin cfg0.N) (j : Fin 128) :
    (iblk0 V c 2 t : Vec Ideal S1x128 .f32) (ix2 (0 : Fin 1) j) = (V c (Pipeline.arrRef spec0 2) : Vec Ideal S1x128 .f32) (ix2 (0 : Fin 1) j) := by
  obtain ⟨-, -, -, -, e0, e1, -⟩ := lin0_idx_facts t
  unfold iblk0
  rw [View.read_apply]
  show V c (Pipeline.arrRef spec0 2) (((cfg0.win 2).blk t).view.emb (ix2 (0 : Fin 1) j)) = _
  congr 1
  funext a
  apply Fin.ext
  match a with
  | ⟨0, _⟩ => show win0_2.index t (0 : Fin 2) * 1 + 1 * 0 = 0; rw [e0]
  | ⟨1, _⟩ => show win0_2.index t (1 : Fin 2) * 128 + 1 * j.val = j.val; rw [e1]; omega

theorem lin0_emb_3 (t : Fin cfg0.N) (r : Fin 2000) (j : Fin 128) (R : Fin 50000) (hR : R.val = t.val * 2000 + r.val) :
    ((cfg0.win 3).blk t).view.emb (ix2 r j) = (ix2 R j : S50000x128.Idx) := by
  obtain ⟨-, -, -, -, -, -, e0, e1⟩ := lin0_idx_facts t
  funext a
  apply Fin.ext
  match a with
  | ⟨0, _⟩ => show win0_3.index t (0 : Fin 2) * 2000 + 1 * r.val = R.val; rw [e0, hR]; omega
  | ⟨1, _⟩ => show win0_3.index t (1 : Fin 2) * 128 + 1 * j.val = j.val; rw [e1]; omega

theorem lin0_flushed_eq (c : Dev nD) (t : Fin cfg0.N) :
    (lin0_dat (F := Ideal) V c).flushed 3 t = ((cfg0.win 3).blk t).view.read (Elt Ideal)
      (Cert.Spec.dense (F := Ideal) (V c (Pipeline.arrRef spec0 0)) (V c (Pipeline.arrRef spec0 1)) (V c (Pipeline.arrRef spec0 2))) := by
  show (cfg0.win 3).cut (grid0.coords t) ((lin0_dat V c).after 3 t) = _
  rw [lin0_after_3]
  unfold lin_out
  rw [View.canon_unit_zero lin_hz]
  simp only [View.ld_unit_zero (S := S2000x128) lin_hz, View.ld_unit_zero (S := S128x128) lin_hz, View.ld_unit_zero (S := S1x128) lin_hz]
  funext y
  obtain ⟨r, j, rfl⟩ : ∃ (r : Fin 2000) (j : Fin 128), y = ix2 r j := ⟨y 0, y 1, eq_ix2 y⟩
  have ht := lin0_point_lt t
  have hR : t.val * 2000 + r.val < 50000 := by have := r.isLt; omega
  rw [View.read_apply, lin0_emb_3 t r j ⟨_, hR⟩ rfl]
  exact lin_entry (iblk0 V c 0 t) (iblk0 V c 1 t) (iblk0 V c 2 t) (V c (Pipeline.arrRef spec0 0)) (V c (Pipeline.arrRef spec0 1))
    (V c (Pipeline.arrRef spec0 2)) r j ⟨_, hR⟩ (fun k => lin0_iblk_0_apply V c t r k ⟨_, hR⟩ rfl) (fun k => lin0_iblk_1_apply V c t k j)
    (lin0_iblk_2_apply V c t j)

theorem lin0_mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole (Pipeline.arrRef spec0 3)).slice (win0_3.rect t)).set ↔ _
  rw [View.set_slice_whole, Rect.mem_set_unit]
  exact Iff.rfl

/-- Row `R` of the result lies in the block of point `R / 2000`, so the blocks cover the array. -/
theorem lin0_rows_cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hq : (i 0).val / 2000 < cfg0.N := lt_of_lt_of_eq (by omega : (i 0).val / 2000 < 25) N_0.symm
  refine ⟨⟨(i 0).val / 2000, hq⟩, flush0_3 _, ?_⟩
  obtain ⟨-, -, -, -, -, -, e0, e1⟩ := lin0_idx_facts ⟨(i 0).val / 2000, hq⟩
  rw [lin0_mem_blk]
  intro a
  match a with
  | ⟨0, _⟩ => show win0_3.index ⟨(i 0).val / 2000, hq⟩ (0 : Fin 2) * 2000 ≤ (i 0).val ∧ (i 0).val < win0_3.index ⟨(i 0).val / 2000, hq⟩ (0 : Fin 2) * 2000 + 2000
              rw [e0]; show (i 0).val / 2000 * 2000 ≤ (i 0).val ∧ (i 0).val < (i 0).val / 2000 * 2000 + 2000; omega
  | ⟨1, _⟩ => show win0_3.index ⟨(i 0).val / 2000, hq⟩ (1 : Fin 2) * 128 ≤ (i 1).val ∧ (i 1).val < win0_3.index ⟨(i 0).val / 2000, hq⟩ (1 : Fin 2) * 128 + 128
              rw [e1]; omega

theorem lin0_value (c : Dev nD) :
    (lin0_dat (F := Ideal) V c).arrAt 3 cfg0.N
      = Cert.Spec.dense (F := Ideal) (V c (Pipeline.arrRef spec0 0)) (V c (Pipeline.arrRef spec0 1)) (V c (Pipeline.arrRef spec0 2)) :=
  (lin0_dat (F := Ideal) V c).arrAt_eq_of_cover 3 _ (fun t _ => lin0_flushed_eq V c t) lin0_rows_cover

end Cert.KernelIdeal.Val

end
-- ==== Proof.Val.LinVal1.lean ====
import proofs.«422796_j77979426226619_2_alg».proof.Proof.KI.Lin1
import proofs.«422796_j77979426226619_2_alg».proof.Proof.Val.LinArith

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem lin1_idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lin1_point_lt (t : Fin cfg1.N) : t.val < 25 := lt_of_lt_of_eq t.isLt N_1

theorem lin1_iblk_0_apply (c : Dev nD) (t : Fin cfg1.N) (r : Fin 2000) (k : Fin 128) (R : Fin 50000) (hR : R.val = t.val * 2000 + r.val) :
    (iblk1 V c 0 t : Vec Ideal S2000x128 .f32) (ix2 r k) = (V c (Pipeline.arrRef spec1 0) : Vec Ideal S50000x128 .f32) (ix2 R k) := by
  obtain ⟨e0, e1, -⟩ := lin1_idx_facts t
  unfold iblk1
  rw [View.read_apply]
  show V c (Pipeline.arrRef spec1 0) (((cfg1.win 0).blk t).view.emb (ix2 r k)) = _
  congr 1
  funext a
  apply Fin.ext
  match a with
  | ⟨0, _⟩ => show win1_0.index t (0 : Fin 2) * 2000 + 1 * r.val = R.val; rw [e0, hR]; omega
  | ⟨1, _⟩ => show win1_0.index t (1 : Fin 2) * 128 + 1 * k.val = k.val; rw [e1]; omega

theorem lin1_iblk_1_apply (c : Dev nD) (t : Fin cfg1.N) (k : Fin 128) (j : Fin 128) :
    (iblk1 V c 1 t : Vec Ideal S128x128 .f32) (ix2 k j) = (V c (Pipeline.arrRef spec1 1) : Vec Ideal S128x128 .f32) (ix2 k j) := by
  obtain ⟨-, -, e0, e1, -⟩ := lin1_idx_facts t
  unfold iblk1
  rw [View.read_apply]
  show V c (Pipeline.arrRef spec1 1) (((cfg1.win 1).blk t).view.emb (ix2 k j)) = _
  congr 1
  funext a
  apply Fin.ext
  match a with
  | ⟨0, _⟩ => show win1_1.index t (0 : Fin 2) * 128 + 1 * k.val = k.val; rw [e0]; omega
  | ⟨1, _⟩ => show win1_1.index t (1 : Fin 2) * 128 + 1 * j.val = j.val; rw [e1]; omega

theorem lin1_iblk_2_apply (c : Dev nD) (t : Fin cfg1.N) (j : Fin 128) :
    (iblk1 V c 2 t : Vec Ideal S1x128 .f32) (ix2 (0 : Fin 1) j) = (V c (Pipeline.arrRef spec1 2) : Vec Ideal S1x128 .f32) (ix2 (0 : Fin 1) j) := by
  obtain ⟨-, -, -, -, e0, e1, -⟩ := lin1_idx_facts t
  unfold iblk1
  rw [View.read_apply]
  show V c (Pipeline.arrRef spec1 2) (((cfg1.win 2).blk t).view.emb (ix2 (0 : Fin 1) j)) = _
  congr 1
  funext a
  apply Fin.ext
  match a with
  | ⟨0, _⟩ => show win1_2.index t (0 : Fin 2) * 1 + 1 * 0 = 0; rw [e0]
  | ⟨1, _⟩ => show win1_2.index t (1 : Fin 2) * 128 + 1 * j.val = j.val; rw [e1]; omega

theorem lin1_emb_3 (t : Fin cfg1.N) (r : Fin 2000) (j : Fin 128) (R : Fin 50000) (hR : R.val = t.val * 2000 + r.val) :
    ((cfg1.win 3).blk t).view.emb (ix2 r j) = (ix2 R j : S50000x128.Idx) := by
  obtain ⟨-, -, -, -, -, -, e0, e1⟩ := lin1_idx_facts t
  funext a
  apply Fin.ext
  match a with
  | ⟨0, _⟩ => show win1_3.index t (0 : Fin 2) * 2000 + 1 * r.val = R.val; rw [e0, hR]; omega
  | ⟨1, _⟩ => show win1_3.index t (1 : Fin 2) * 128 + 1 * j.val = j.val; rw [e1]; omega

theorem lin1_flushed_eq (c : Dev nD) (t : Fin cfg1.N) :
    (lin1_dat (F := Ideal) V c).flushed 3 t = ((cfg1.win 3).blk t).view.read (Elt Ideal)
      (Cert.Spec.dense (F := Ideal) (V c (Pipeline.arrRef spec1 0)) (V c (Pipeline.arrRef spec1 1)) (V c (Pipeline.arrRef spec1 2))) := by
  show (cfg1.win 3).cut (grid1.coords t) ((lin1_dat V c).after 3 t) = _
  rw [lin1_after_3]
  unfold lin_out
  rw [View.canon_unit_zero lin_hz]
  simp only [View.ld_unit_zero (S := S2000x128) lin_hz, View.ld_unit_zero (S := S128x128) lin_hz, View.ld_unit_zero (S := S1x128) lin_hz]
  funext y
  obtain ⟨r, j, rfl⟩ : ∃ (r : Fin 2000) (j : Fin 128), y = ix2 r j := ⟨y 0, y 1, eq_ix2 y⟩
  have ht := lin1_point_lt t
  have hR : t.val * 2000 + r.val < 50000 := by have := r.isLt; omega
  rw [View.read_apply, lin1_emb_3 t r j ⟨_, hR⟩ rfl]
  exact lin_entry (iblk1 V c 0 t) (iblk1 V c 1 t) (iblk1 V c 2 t) (V c (Pipeline.arrRef spec1 0)) (V c (Pipeline.arrRef spec1 1))
    (V c (Pipeline.arrRef spec1 2)) r j ⟨_, hR⟩ (fun k => lin1_iblk_0_apply V c t r k ⟨_, hR⟩ rfl) (fun k => lin1_iblk_1_apply V c t k j)
    (lin1_iblk_2_apply V c t j)

theorem lin1_mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole (Pipeline.arrRef spec1 3)).slice (win1_3.rect t)).set ↔ _
  rw [View.set_slice_whole, Rect.mem_set_unit]
  exact Iff.rfl

/-- Row `R` of the result lies in the block of point `R / 2000`, so the blocks cover the array. -/
theorem lin1_rows_cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hq : (i 0).val / 2000 < cfg1.N := lt_of_lt_of_eq (by omega : (i 0).val / 2000 < 25) N_1.symm
  refine ⟨⟨(i 0).val / 2000, hq⟩, flush1_3 _, ?_⟩
  obtain ⟨-, -, -, -, -, -, e0, e1⟩ := lin1_idx_facts ⟨(i 0).val / 2000, hq⟩
  rw [lin1_mem_blk]
  intro a
  match a with
  | ⟨0, _⟩ => show win1_3.index ⟨(i 0).val / 2000, hq⟩ (0 : Fin 2) * 2000 ≤ (i 0).val ∧ (i 0).val < win1_3.index ⟨(i 0).val / 2000, hq⟩ (0 : Fin 2) * 2000 + 2000
              rw [e0]; show (i 0).val / 2000 * 2000 ≤ (i 0).val ∧ (i 0).val < (i 0).val / 2000 * 2000 + 2000; omega
  | ⟨1, _⟩ => show win1_3.index ⟨(i 0).val / 2000, hq⟩ (1 : Fin 2) * 128 ≤ (i 1).val ∧ (i 1).val < win1_3.index ⟨(i 0).val / 2000, hq⟩ (1 : Fin 2) * 128 + 128
              rw [e1]; omega

theorem lin1_value (c : Dev nD) :
    (lin1_dat (F := Ideal) V c).arrAt 3 cfg1.N
      = Cert.Spec.dense (F := Ideal) (V c (Pipeline.arrRef spec1 0)) (V c (Pipeline.arrRef spec1 1)) (V c (Pipeline.arrRef spec1 2)) :=
  (lin1_dat (F := Ideal) V c).arrAt_eq_of_cover 3 _ (fun t _ => lin1_flushed_eq V c t) lin1_rows_cover

end Cert.KernelIdeal.Val

end
-- ==== Proof.Val.LinVal2.lean ====
import proofs.«422796_j77979426226619_2_alg».proof.Proof.KI.Lin2
import proofs.«422796_j77979426226619_2_alg».proof.Proof.Val.LinArith

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem lin2_idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lin2_point_lt (t : Fin cfg2.N) : t.val < 25 := lt_of_lt_of_eq t.isLt N_2

theorem lin2_iblk_0_apply (c : Dev nD) (t : Fin cfg2.N) (r : Fin 2000) (k : Fin 128) (R : Fin 50000) (hR : R.val = t.val * 2000 + r.val) :
    (iblk2 V c 0 t : Vec Ideal S2000x128 .f32) (ix2 r k) = (V c (Pipeline.arrRef spec2 0) : Vec Ideal S50000x128 .f32) (ix2 R k) := by
  obtain ⟨e0, e1, -⟩ := lin2_idx_facts t
  unfold iblk2
  rw [View.read_apply]
  show V c (Pipeline.arrRef spec2 0) (((cfg2.win 0).blk t).view.emb (ix2 r k)) = _
  congr 1
  funext a
  apply Fin.ext
  match a with
  | ⟨0, _⟩ => show win2_0.index t (0 : Fin 2) * 2000 + 1 * r.val = R.val; rw [e0, hR]; omega
  | ⟨1, _⟩ => show win2_0.index t (1 : Fin 2) * 128 + 1 * k.val = k.val; rw [e1]; omega

theorem lin2_iblk_1_apply (c : Dev nD) (t : Fin cfg2.N) (k : Fin 128) (j : Fin 128) :
    (iblk2 V c 1 t : Vec Ideal S128x128 .f32) (ix2 k j) = (V c (Pipeline.arrRef spec2 1) : Vec Ideal S128x128 .f32) (ix2 k j) := by
  obtain ⟨-, -, e0, e1, -⟩ := lin2_idx_facts t
  unfold iblk2
  rw [View.read_apply]
  show V c (Pipeline.arrRef spec2 1) (((cfg2.win 1).blk t).view.emb (ix2 k j)) = _
  congr 1
  funext a
  apply Fin.ext
  match a with
  | ⟨0, _⟩ => show win2_1.index t (0 : Fin 2) * 128 + 1 * k.val = k.val; rw [e0]; omega
  | ⟨1, _⟩ => show win2_1.index t (1 : Fin 2) * 128 + 1 * j.val = j.val; rw [e1]; omega

theorem lin2_iblk_2_apply (c : Dev nD) (t : Fin cfg2.N) (j : Fin 128) :
    (iblk2 V c 2 t : Vec Ideal S1x128 .f32) (ix2 (0 : Fin 1) j) = (V c (Pipeline.arrRef spec2 2) : Vec Ideal S1x128 .f32) (ix2 (0 : Fin 1) j) := by
  obtain ⟨-, -, -, -, e0, e1, -⟩ := lin2_idx_facts t
  unfold iblk2
  rw [View.read_apply]
  show V c (Pipeline.arrRef spec2 2) (((cfg2.win 2).blk t).view.emb (ix2 (0 : Fin 1) j)) = _
  congr 1
  funext a
  apply Fin.ext
  match a with
  | ⟨0, _⟩ => show win2_2.index t (0 : Fin 2) * 1 + 1 * 0 = 0; rw [e0]
  | ⟨1, _⟩ => show win2_2.index t (1 : Fin 2) * 128 + 1 * j.val = j.val; rw [e1]; omega

theorem lin2_emb_3 (t : Fin cfg2.N) (r : Fin 2000) (j : Fin 128) (R : Fin 50000) (hR : R.val = t.val * 2000 + r.val) :
    ((cfg2.win 3).blk t).view.emb (ix2 r j) = (ix2 R j : S50000x128.Idx) := by
  obtain ⟨-, -, -, -, -, -, e0, e1⟩ := lin2_idx_facts t
  funext a
  apply Fin.ext
  match a with
  | ⟨0, _⟩ => show win2_3.index t (0 : Fin 2) * 2000 + 1 * r.val = R.val; rw [e0, hR]; omega
  | ⟨1, _⟩ => show win2_3.index t (1 : Fin 2) * 128 + 1 * j.val = j.val; rw [e1]; omega

theorem lin2_flushed_eq (c : Dev nD) (t : Fin cfg2.N) :
    (lin2_dat (F := Ideal) V c).flushed 3 t = ((cfg2.win 3).blk t).view.read (Elt Ideal)
      (Cert.Spec.dense (F := Ideal) (V c (Pipeline.arrRef spec2 0)) (V c (Pipeline.arrRef spec2 1)) (V c (Pipeline.arrRef spec2 2))) := by
  show (cfg2.win 3).cut (grid2.coords t) ((lin2_dat V c).after 3 t) = _
  rw [lin2_after_3]
  unfold lin_out
  rw [View.canon_unit_zero lin_hz]
  simp only [View.ld_unit_zero (S := S2000x128) lin_hz, View.ld_unit_zero (S := S128x128) lin_hz, View.ld_unit_zero (S := S1x128) lin_hz]
  funext y
  obtain ⟨r, j, rfl⟩ : ∃ (r : Fin 2000) (j : Fin 128), y = ix2 r j := ⟨y 0, y 1, eq_ix2 y⟩
  have ht := lin2_point_lt t
  have hR : t.val * 2000 + r.val < 50000 := by have := r.isLt; omega
  rw [View.read_apply, lin2_emb_3 t r j ⟨_, hR⟩ rfl]
  exact lin_entry (iblk2 V c 0 t) (iblk2 V c 1 t) (iblk2 V c 2 t) (V c (Pipeline.arrRef spec2 0)) (V c (Pipeline.arrRef spec2 1))
    (V c (Pipeline.arrRef spec2 2)) r j ⟨_, hR⟩ (fun k => lin2_iblk_0_apply V c t r k ⟨_, hR⟩ rfl) (fun k => lin2_iblk_1_apply V c t k j)
    (lin2_iblk_2_apply V c t j)

theorem lin2_mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole (Pipeline.arrRef spec2 3)).slice (win2_3.rect t)).set ↔ _
  rw [View.set_slice_whole, Rect.mem_set_unit]
  exact Iff.rfl

/-- Row `R` of the result lies in the block of point `R / 2000`, so the blocks cover the array. -/
theorem lin2_rows_cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hq : (i 0).val / 2000 < cfg2.N := lt_of_lt_of_eq (by omega : (i 0).val / 2000 < 25) N_2.symm
  refine ⟨⟨(i 0).val / 2000, hq⟩, flush2_3 _, ?_⟩
  obtain ⟨-, -, -, -, -, -, e0, e1⟩ := lin2_idx_facts ⟨(i 0).val / 2000, hq⟩
  rw [lin2_mem_blk]
  intro a
  match a with
  | ⟨0, _⟩ => show win2_3.index ⟨(i 0).val / 2000, hq⟩ (0 : Fin 2) * 2000 ≤ (i 0).val ∧ (i 0).val < win2_3.index ⟨(i 0).val / 2000, hq⟩ (0 : Fin 2) * 2000 + 2000
              rw [e0]; show (i 0).val / 2000 * 2000 ≤ (i 0).val ∧ (i 0).val < (i 0).val / 2000 * 2000 + 2000; omega
  | ⟨1, _⟩ => show win2_3.index ⟨(i 0).val / 2000, hq⟩ (1 : Fin 2) * 128 ≤ (i 1).val ∧ (i 1).val < win2_3.index ⟨(i 0).val / 2000, hq⟩ (1 : Fin 2) * 128 + 128
              rw [e1]; omega

theorem lin2_value (c : Dev nD) :
    (lin2_dat (F := Ideal) V c).arrAt 3 cfg2.N
      = Cert.Spec.dense (F := Ideal) (V c (Pipeline.arrRef spec2 0)) (V c (Pipeline.arrRef spec2 1)) (V c (Pipeline.arrRef spec2 2)) :=
  (lin2_dat (F := Ideal) V c).arrAt_eq_of_cover 3 _ (fun t _ => lin2_flushed_eq V c t) lin2_rows_cover

end Cert.KernelIdeal.Val

end
-- ==== Proof.Val.LinVal3.lean ====
import proofs.«422796_j77979426226619_2_alg».proof.Proof.KI.Lin3
import proofs.«422796_j77979426226619_2_alg».proof.Proof.Val.LinArith

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem lin3_idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem lin3_point_lt (t : Fin cfg3.N) : t.val < 25 := lt_of_lt_of_eq t.isLt N_3

theorem lin3_iblk_0_apply (c : Dev nD) (t : Fin cfg3.N) (r : Fin 2000) (k : Fin 128) (R : Fin 50000) (hR : R.val = t.val * 2000 + r.val) :
    (iblk3 V c 0 t : Vec Ideal S2000x128 .f32) (ix2 r k) = (V c (Pipeline.arrRef spec3 0) : Vec Ideal S50000x128 .f32) (ix2 R k) := by
  obtain ⟨e0, e1, -⟩ := lin3_idx_facts t
  unfold iblk3
  rw [View.read_apply]
  show V c (Pipeline.arrRef spec3 0) (((cfg3.win 0).blk t).view.emb (ix2 r k)) = _
  congr 1
  funext a
  apply Fin.ext
  match a with
  | ⟨0, _⟩ => show win3_0.index t (0 : Fin 2) * 2000 + 1 * r.val = R.val; rw [e0, hR]; omega
  | ⟨1, _⟩ => show win3_0.index t (1 : Fin 2) * 128 + 1 * k.val = k.val; rw [e1]; omega

theorem lin3_iblk_1_apply (c : Dev nD) (t : Fin cfg3.N) (k : Fin 128) (j : Fin 128) :
    (iblk3 V c 1 t : Vec Ideal S128x128 .f32) (ix2 k j) = (V c (Pipeline.arrRef spec3 1) : Vec Ideal S128x128 .f32) (ix2 k j) := by
  obtain ⟨-, -, e0, e1, -⟩ := lin3_idx_facts t
  unfold iblk3
  rw [View.read_apply]
  show V c (Pipeline.arrRef spec3 1) (((cfg3.win 1).blk t).view.emb (ix2 k j)) = _
  congr 1
  funext a
  apply Fin.ext
  match a with
  | ⟨0, _⟩ => show win3_1.index t (0 : Fin 2) * 128 + 1 * k.val = k.val; rw [e0]; omega
  | ⟨1, _⟩ => show win3_1.index t (1 : Fin 2) * 128 + 1 * j.val = j.val; rw [e1]; omega

theorem lin3_iblk_2_apply (c : Dev nD) (t : Fin cfg3.N) (j : Fin 128) :
    (iblk3 V c 2 t : Vec Ideal S1x128 .f32) (ix2 (0 : Fin 1) j) = (V c (Pipeline.arrRef spec3 2) : Vec Ideal S1x128 .f32) (ix2 (0 : Fin 1) j) := by
  obtain ⟨-, -, -, -, e0, e1, -⟩ := lin3_idx_facts t
  unfold iblk3
  rw [View.read_apply]
  show V c (Pipeline.arrRef spec3 2) (((cfg3.win 2).blk t).view.emb (ix2 (0 : Fin 1) j)) = _
  congr 1
  funext a
  apply Fin.ext
  match a with
  | ⟨0, _⟩ => show win3_2.index t (0 : Fin 2) * 1 + 1 * 0 = 0; rw [e0]
  | ⟨1, _⟩ => show win3_2.index t (1 : Fin 2) * 128 + 1 * j.val = j.val; rw [e1]; omega

theorem lin3_emb_3 (t : Fin cfg3.N) (r : Fin 2000) (j : Fin 128) (R : Fin 50000) (hR : R.val = t.val * 2000 + r.val) :
    ((cfg3.win 3).blk t).view.emb (ix2 r j) = (ix2 R j : S50000x128.Idx) := by
  obtain ⟨-, -, -, -, -, -, e0, e1⟩ := lin3_idx_facts t
  funext a
  apply Fin.ext
  match a with
  | ⟨0, _⟩ => show win3_3.index t (0 : Fin 2) * 2000 + 1 * r.val = R.val; rw [e0, hR]; omega
  | ⟨1, _⟩ => show win3_3.index t (1 : Fin 2) * 128 + 1 * j.val = j.val; rw [e1]; omega

theorem lin3_flushed_eq (c : Dev nD) (t : Fin cfg3.N) :
    (lin3_dat (F := Ideal) V c).flushed 3 t = ((cfg3.win 3).blk t).view.read (Elt Ideal)
      (Cert.Spec.dense (F := Ideal) (V c (Pipeline.arrRef spec3 0)) (V c (Pipeline.arrRef spec3 1)) (V c (Pipeline.arrRef spec3 2))) := by
  show (cfg3.win 3).cut (grid3.coords t) ((lin3_dat V c).after 3 t) = _
  rw [lin3_after_3]
  unfold lin_out
  rw [View.canon_unit_zero lin_hz]
  simp only [View.ld_unit_zero (S := S2000x128) lin_hz, View.ld_unit_zero (S := S128x128) lin_hz, View.ld_unit_zero (S := S1x128) lin_hz]
  funext y
  obtain ⟨r, j, rfl⟩ : ∃ (r : Fin 2000) (j : Fin 128), y = ix2 r j := ⟨y 0, y 1, eq_ix2 y⟩
  have ht := lin3_point_lt t
  have hR : t.val * 2000 + r.val < 50000 := by have := r.isLt; omega
  rw [View.read_apply, lin3_emb_3 t r j ⟨_, hR⟩ rfl]
  exact lin_entry (iblk3 V c 0 t) (iblk3 V c 1 t) (iblk3 V c 2 t) (V c (Pipeline.arrRef spec3 0)) (V c (Pipeline.arrRef spec3 1))
    (V c (Pipeline.arrRef spec3 2)) r j ⟨_, hR⟩ (fun k => lin3_iblk_0_apply V c t r k ⟨_, hR⟩ rfl) (fun k => lin3_iblk_1_apply V c t k j)
    (lin3_iblk_2_apply V c t j)

theorem lin3_mem_blk (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole (Pipeline.arrRef spec3 3)).slice (win3_3.rect t)).set ↔ _
  rw [View.set_slice_whole, Rect.mem_set_unit]
  exact Iff.rfl

/-- Row `R` of the result lies in the block of point `R / 2000`, so the blocks cover the array. -/
theorem lin3_rows_cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hq : (i 0).val / 2000 < cfg3.N := lt_of_lt_of_eq (by omega : (i 0).val / 2000 < 25) N_3.symm
  refine ⟨⟨(i 0).val / 2000, hq⟩, flush3_3 _, ?_⟩
  obtain ⟨-, -, -, -, -, -, e0, e1⟩ := lin3_idx_facts ⟨(i 0).val / 2000, hq⟩
  rw [lin3_mem_blk]
  intro a
  match a with
  | ⟨0, _⟩ => show win3_3.index ⟨(i 0).val / 2000, hq⟩ (0 : Fin 2) * 2000 ≤ (i 0).val ∧ (i 0).val < win3_3.index ⟨(i 0).val / 2000, hq⟩ (0 : Fin 2) * 2000 + 2000
              rw [e0]; show (i 0).val / 2000 * 2000 ≤ (i 0).val ∧ (i 0).val < (i 0).val / 2000 * 2000 + 2000; omega
  | ⟨1, _⟩ => show win3_3.index ⟨(i 0).val / 2000, hq⟩ (1 : Fin 2) * 128 ≤ (i 1).val ∧ (i 1).val < win3_3.index ⟨(i 0).val / 2000, hq⟩ (1 : Fin 2) * 128 + 128
              rw [e1]; omega

theorem lin3_value (c : Dev nD) :
    (lin3_dat (F := Ideal) V c).arrAt 3 cfg3.N
      = Cert.Spec.dense (F := Ideal) (V c (Pipeline.arrRef spec3 0)) (V c (Pipeline.arrRef spec3 1)) (V c (Pipeline.arrRef spec3 2)) :=
  (lin3_dat (F := Ideal) V c).arrAt_eq_of_cover 3 _ (fun t _ => lin3_flushed_eq V c t) lin3_rows_cover

end Cert.KernelIdeal.Val

end
-- ==== Proof.Val.PoolSumPay.lean ====
import proofs.«422796_j77979426226619_2_alg».proof.Proof.Gen.KernelIdeal.Skeleton
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Val

open Cert.KernelIdeal Cert.KernelIdeal.Gen
open Idealize.ShloMosaic Idealize.ShloMosaic.TcCoe Idealize.SL.Sem
open Idealize.ShloMosaic.ValueIdx
open scoped BigOperators

def hot (w : BitVec 32) (g : Fin 512) : EReal := if w = BitVec.ofNat 32 g.val then 1 else 0

theorem hot_word (w : BitVec 32) (g : Fin 512) :
    (FloatOps.sitofp (F := Ideal) .f32 ((IntOp.cmpi .eq w (BitVec.ofNat 32 g.val)).setWidth 32) : EReal) = hot w g := by
  unfold hot
  by_cases h : w = BitVec.ofNat 32 g.val
  · rw [if_pos h]
    have hc : IntOp.cmpi .eq w (BitVec.ofNat 32 g.val) = 1#1 := by
      unfold IntOp.cmpi; rw [h]; simp
    rw [hc]
    show (((((1#1 : BitVec 1).setWidth 32).toInt : ℝ)) : EReal) = 1
    rw [show ((1#1 : BitVec 1).setWidth 32).toInt = 1 by decide]
    norm_num
  · rw [if_neg h]
    have hc : IntOp.cmpi .eq w (BitVec.ofNat 32 g.val) = 0#1 := by
      unfold IntOp.cmpi
      show BitVec.ofBool (w == BitVec.ofNat 32 g.val) = 0#1
      rw [beq_eq_false_iff_ne.mpr h]; rfl
    rw [hc]
    show (((((0#1 : BitVec 1).setWidth 32).toInt : ℝ)) : EReal) = 0
    rw [show ((0#1 : BitVec 1).setWidth 32).toInt = 0 by decide]
    norm_num

theorem ids_spread (ids : Vec Ideal S2000x1 .i32) (r : Fin 2000) (g : Fin 512) :
    broadcastTo S2000x512 (shapeCast S2000x1 ids shapeCasts_S2000x1_S2000x1) broadcasts_S2000x1_S2000x512 (ix2 r g)
      = ids (ix2 r (0 : Fin 1)) := by
  rw [shapeCast_self]
  exact broadcastTo_apply ids _ (ix2 r g) (ix2 r (0 : Fin 1)) (fun a => match a with
    | ⟨0, _⟩ => by show r.val = if (2000 : Nat) = 1 then 0 else r.val; rw [if_neg (by decide)]
    | ⟨1, _⟩ => by show (0 : Nat) = if (1 : Nat) = 1 then 0 else g.val; rw [if_pos rfl])

theorem col_number (r : Fin 2000) (g : Fin 512) :
    iota .tc S2000x512 32 [1] iota_S2000x512_d1_w32 (ix2 r g) = BitVec.ofNat 32 g.val :=
  iota_single_apply .tc S2000x512 32 1 iota_S2000x512_d1_w32 (ix2 r g)

theorem pay3_apply (ids : Vec Ideal S2000x1 .i32) (r : Fin 2000) (g : Fin 512) :
    k4_pay3 (F := Ideal) ids (ix2 r g) = hot (ids (ix2 r (0 : Fin 1))) g :=
  calc k4_pay3 (F := Ideal) ids (ix2 r g)
      = FloatOps.sitofp (F := Ideal) .f32 ((IntOp.cmpi .eq
          (broadcastTo S2000x512 (shapeCast S2000x1 ids shapeCasts_S2000x1_S2000x1) broadcasts_S2000x1_S2000x512 (ix2 r g))
          (iota .tc S2000x512 32 [1] iota_S2000x512_d1_w32 (ix2 r g))).setWidth 32) := rfl
    _ = FloatOps.sitofp (F := Ideal) .f32 ((IntOp.cmpi .eq (ids (ix2 r (0 : Fin 1))) (BitVec.ofNat 32 g.val)).setWidth 32) := by
        rw [ids_spread, col_number]
    _ = hot (ids (ix2 r (0 : Fin 1))) g := hot_word _ _

theorem pay1_apply (j : S512x128.Idx) : k4_pay1 (F := Ideal) j = 0 := by
  unfold k4_pay1
  rw [shapeCast_self]
  exact Ideal.ofBits_zero_f32
theorem pay2_apply (j : S1x512.Idx) : k4_pay2 (F := Ideal) j = 0 := by
  unfold k4_pay2
  rw [shapeCast_self]
  exact Ideal.ofBits_zero_f32

theorem lhs_pool_0 (i : S512x128.Idx) (q : dot_S2000x512_S2000x128_S512x128_0_0_1_1_n_n.contr.Idx) :
    (dot_S2000x512_S2000x128_S512x128_0_0_1_1_n_n.lhsIdx i q 0).val = (q ⟨0, by decide⟩).val :=
  dot_S2000x512_S2000x128_S512x128_0_0_1_1_n_n.lhsIdx_val_of_single rfl i q
theorem lhs_pool_1 (i : S512x128.Idx) (q : dot_S2000x512_S2000x128_S512x128_0_0_1_1_n_n.contr.Idx) :
    (dot_S2000x512_S2000x128_S512x128_0_0_1_1_n_n.lhsIdx i q 1).val = (i 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
theorem rhs_pool_0 (i : S512x128.Idx) (q : dot_S2000x512_S2000x128_S512x128_0_0_1_1_n_n.contr.Idx) :
    (dot_S2000x512_S2000x128_S512x128_0_0_1_1_n_n.rhsIdx i q 0).val = (q ⟨0, by decide⟩).val :=
  dot_S2000x512_S2000x128_S512x128_0_0_1_1_n_n.rhsIdx_val_of_single rfl i q
theorem rhs_pool_1 (i : S512x128.Idx) (q : dot_S2000x512_S2000x128_S512x128_0_0_1_1_n_n.contr.Idx) :
    (dot_S2000x512_S2000x128_S512x128_0_0_1_1_n_n.rhsIdx i q 1).val = (i 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

theorem pool_matmul_apply (A : FVec Ideal S2000x512 .bf16) (B : FVec Ideal S2000x128 .bf16) (g : Fin 512) (d : Fin 128) :
    matmul dot_S2000x512_S2000x128_S512x128_0_0_1_1_n_n none A B (constant (F := Ideal) S512x128 .f32 0x00000000#32) (ix2 g d)
      = ∑ r : Fin 2000, A (ix2 r g) * B (ix2 r d) := by
  simp only [matmul]
  rw [Ideal.matmul_constant_zero_apply, ← Equiv.sum_comp (contrEquiv1 dot_S2000x512_S2000x128_S512x128_0_0_1_1_n_n 2000 rfl rfl).symm]
  refine Finset.sum_congr rfl fun k _ => ?_
  have hk := contrEquiv1_symm_val dot_S2000x512_S2000x128_S512x128_0_0_1_1_n_n 2000 rfl rfl k
  have el : dot_S2000x512_S2000x128_S512x128_0_0_1_1_n_n.lhsIdx (ix2 g d) ((contrEquiv1 dot_S2000x512_S2000x128_S512x128_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x512_S2000x128_S512x128_0_0_1_1_n_n.rhsIdx (ix2 g d) ((contrEquiv1 dot_S2000x512_S2000x128_S512x128_0_0_1_1_n_n 2000 rfl rfl).symm k) = ix2 k d := funext fun a => Fin.ext (by
    match a with
    | ⟨0, _⟩ => exact (rhs_pool_0 _ _).trans hk
    | ⟨1, _⟩ => exact rhs_pool_1 _ _)
  rw [el, er]

theorem pay4_apply (ids : Vec Ideal S2000x1 .i32) (x : Vec Ideal S2000x128 .bf16) (s : Vec Ideal S512x128 .f32) (g : Fin 512) (d : Fin 128) :
    k4_pay4 (F := Ideal) ids x s (ix2 g d) = s (ix2 g d) + ∑ r : Fin 2000, hot (ids (ix2 r (0 : Fin 1))) g * x (ix2 r d) := by
  have e : k4_pay4 (F := Ideal) ids x s (ix2 g d)
      = s (ix2 g d) + matmul (φ₂ := .bf16) dot_S2000x512_S2000x128_S512x128_0_0_1_1_n_n none (truncf .bf16 (k4_pay3 (F := Ideal) ids) bitsLt_bf16_f32) x
          (constant (F := Ideal) S512x128 .f32 0x00000000#32) (ix2 g d) := by
    unfold k4_pay4
    simp only [shapeCast_self]
    rfl
  refine e.trans (congrArg (s (ix2 g d) + ·) ?_)
  refine (pool_matmul_apply _ _ g d).trans (Finset.sum_congr rfl fun r _ => ?_)
  rw [truncf_apply, pay3_apply]

theorem col_sum (M : FVec Ideal S2000x512 .f32) (g : Fin 512) :
    multiReduction (F := Ideal) .add [0] S512 M 0x00000000#32 reduces_S2000x512_S512 (.inl rfl) rfl (ix1 g) = ∑ r : Fin 2000, M (ix2 r g) := by
  refine (Ideal.multiReduction_add_single M _ reduces_S2000x512_S512 _ _ (ix1 g)).trans ?_
  refine Finset.sum_congr rfl fun r _ => congrArg M (funext fun a => Fin.ext ?_)
  match a with
  | ⟨0, _⟩ => rfl
  | ⟨1, _⟩ => rfl

theorem row_view (v : FVec Ideal S512 .f32) (g : Fin 512) :
    shapeCast S1x512 v shapeCasts_S512_S1x512 (ix2 (0 : Fin 1) g) = v (ix1 g) :=
  shapeCast_apply v shapeCasts_S512_S1x512 (ix2 (0 : Fin 1) g) (ix1 g) (by
    rw [Shape.rowMajor_val_one, Shape.rowMajor_val_two]
    show g.val = 0 * 512 + g.val
    omega)

theorem pay5_apply (ids : Vec Ideal S2000x1 .i32) (s : Vec Ideal S1x512 .f32) (g : Fin 512) :
    k4_pay5 (F := Ideal) ids s (ix2 (0 : Fin 1) g) = s (ix2 (0 : Fin 1) g) + ∑ r : Fin 2000, hot (ids (ix2 r (0 : Fin 1))) g := by
  have e : k4_pay5 (F := Ideal) ids s (ix2 (0 : Fin 1) g)
      = s (ix2 (0 : Fin 1) g) + shapeCast S1x512 (multiReduction (F := Ideal) .add [0] S512 (k4_pay3 (F := Ideal) ids) 0x00000000#32 reduces_S2000x512_S512 (.inl rfl) rfl)
          shapeCasts_S512_S1x512 (ix2 (0 : Fin 1) g) := by
    unfold k4_pay5
    simp only [shapeCast_self]
    rfl
  refine e.trans (congrArg (s (ix2 (0 : Fin 1) g) + ·) ?_)
  refine (row_view _ g).trans ((col_sum _ g).trans (Finset.sum_congr rfl fun r _ => ?_))
  exact pay3_apply ids r g

theorem counts_column (cnt : Vec Ideal S1x512 .f32) (g : Fin 512) :
    transpose S512x1 [1, 0] cnt transposes_S1x512_p1_0_S512x1 (ix2 g (0 : Fin 1)) = cnt (ix2 (0 : Fin 1) g) :=
  transpose_apply [1, 0] cnt transposes_S1x512_p1_0_S512x1 (ix2 g (0 : Fin 1)) (ix2 (0 : Fin 1) g) (fun b => match b with
    | ⟨0, _⟩ => rfl
    | ⟨1, _⟩ => rfl)

theorem column_spread (v : FVec Ideal S512x1 .f32) (g : Fin 512) (d : Fin 128) :
    broadcastTo S512x128 v broadcasts_S512x1_S512x128 (ix2 g d) = v (ix2 g (0 : Fin 1)) :=
  broadcastTo_apply v _ (ix2 g d) (ix2 g (0 : Fin 1)) (fun a => match a with
    | ⟨0, _⟩ => by show g.val = if (512 : Nat) = 1 then 0 else g.val; rw [if_neg (by decide)]
    | ⟨1, _⟩ => by show (0 : Nat) = if (1 : Nat) = 1 then 0 else d.val; rw [if_pos rfl])

theorem pay6_apply (cnt : Vec Ideal S1x512 .f32) (sm : Vec Ideal S512x128 .f32) (g : Fin 512) (d : Fin 128) :
    k4_pay6 (F := Ideal) cnt sm (ix2 g d) = Ideal.div (sm (ix2 g d)) (max (cnt (ix2 (0 : Fin 1) g)) 1) := by
  have e : k4_pay6 (F := Ideal) cnt sm (ix2 g d)
      = Ideal.div (sm (ix2 g d)) (broadcastTo S512x128
          (maximumf (transpose S512x1 [1, 0] (cnt : FVec Ideal S1x512 .f32) transposes_S1x512_p1_0_S512x1) (broadcast S512x1 (Scalar.ofBits (F := Ideal) .f32 0x3F800000#32)))
          broadcasts_S512x1_S512x128 (ix2 g d)) := rfl
  refine e.trans (congrArg (Ideal.div (sm (ix2 g d))) ?_)
  refine (column_spread _ g d).trans ?_
  rw [maximumf_apply, counts_column, broadcast_apply]
  exact congrArg (max (cnt (ix2 (0 : Fin 1) g))) Ideal.ofBits_one_f32

theorem lhs_cls_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_cls_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs_cls_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs_cls_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

theorem cls_matmul_apply (A : FVec Ideal S512x128 .bf16) (B : FVec Ideal S128x128 .bf16) (g : Fin 512) (j : Fin 128) :
    matmul dot_S512x128_S128x128_S512x128_1_0_0_1_n_n none A B (constant (F := Ideal) S512x128 .f32 0x00000000#32) (ix2 g j)
      = ∑ k : Fin 128, A (ix2 g k) * B (ix2 k j) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 g j) ((contrEquiv1 dot_S512x128_S128x128_S512x128_1_0_0_1_n_n 128 rfl rfl).symm k) = ix2 g k := funext fun a => Fin.ext (by
    match a with
    | ⟨0, _⟩ => exact lhs_cls_0 _ _
    | ⟨1, _⟩ => exact (lhs_cls_1 _ _).trans hk)
  have er : dot_S512x128_S128x128_S512x128_1_0_0_1_n_n.rhsIdx (ix2 g j) ((contrEquiv1 dot_S512x128_S128x128_S512x128_1_0_0_1_n_n 128 rfl rfl).symm k) = ix2 k j := funext fun a => Fin.ext (by
    match a with
    | ⟨0, _⟩ => exact (rhs_cls_0 _ _).trans hk
    | ⟨1, _⟩ => exact rhs_cls_1 _ _)
  rw [el, er]

theorem bias_spread (v : FVec Ideal S1x128 .f32) (g : Fin 512) (j : Fin 128) :
    broadcastTo S512x128 v broadcasts_S1x128_S512x128 (ix2 g j) = v (ix2 (0 : Fin 1) j) :=
  broadcastTo_apply v _ (ix2 g j) (ix2 (0 : Fin 1) j) (fun a => match a with
    | ⟨0, _⟩ => by show (0 : Nat) = if (1 : Nat) = 1 then 0 else g.val; rw [if_pos rfl]
    | ⟨1, _⟩ => by show j.val = if (128 : Nat) = 1 then 0 else j.val; rw [if_neg (by decide)])

theorem pay7_apply (cnt : Vec Ideal S1x512 .f32) (sm : Vec Ideal S512x128 .f32) (wc : Vec Ideal S128x128 .f32) (bc : Vec Ideal S1x128 .f32)
    (g : Fin 512) (j : Fin 128) :
    k4_pay7 (F := Ideal) cnt sm wc bc (ix2 g j)
      = (∑ k : Fin 128, k4_pay6 (F := Ideal) cnt sm (ix2 g k) * wc (ix2 k j)) + bc (ix2 (0 : Fin 1) j) := by
  have e : k4_pay7 (F := Ideal) cnt sm wc bc (ix2 g j)
      = matmul dot_S512x128_S128x128_S512x128_1_0_0_1_n_n none (truncf .bf16 (k4_pay6 (F := Ideal) cnt sm) bitsLt_bf16_f32)
          (truncf .bf16 (wc : FVec Ideal S128x128 .f32) bitsLt_bf16_f32) (constant (F := Ideal) S512x128 .f32 0x00000000#32) (ix2 g j)
        + broadcastTo S512x128 (bc : FVec Ideal S1x128 .f32) broadcasts_S1x128_S512x128 (ix2 g j) := by
    unfold k4_pay7
    simp only [shapeCast_self]
    rfl
  refine e.trans ?_
  rw [cls_matmul_apply, bias_spread]
  rfl

end Cert.KernelIdeal.Val

end
-- ==== Proof.Val.PoolSumBlk.lean ====
import proofs.«422796_j77979426226619_2_alg».proof.Proof.Gen.KernelIdeal.Launch
import proofs.«422796_j77979426226619_2_alg».proof.Proof.Gen.KernelIdeal.Points
import Idealize.ShloMosaic.Lib.Pipeline.Value
import Idealize.ShloMosaic.Lib.ValueIdx

noncomputable section

namespace Cert.KernelIdeal.Val

open Cert.KernelIdeal Cert.KernelIdeal.Gen
open Idealize.ShloMosaic Idealize.ShloMosaic.TcCoe Idealize.SL.Sem
open Idealize.ShloMosaic.ValueIdx

variable {F : FTy → Type} [FloatOps F]

theorem blk_index4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

theorem blk4_0_apply (c : Dev nD) (A : Buf (Elt F) ((c : Thread nD τ).loc (Pipeline.arrRef spec4 0))) (t : Fin cfg4.N) (r : Fin 2000) :
    ((cfg4.win 0).blk t).view.read (Elt F) A (ix2 r (0 : Fin 1))
      = A (ix2 (⟨2000 * t.val + r.val, by have := t.isLt; have := r.isLt; have : cfg4.N = 25 := N_4; omega⟩ : Fin 50000) (0 : Fin 1)) := by
  obtain ⟨e0, e1, -⟩ := blk_index4 t
  show A (((cfg4.win 0).blk t).view.emb (ix2 r (0 : Fin 1))) = A _
  refine congrArg A (funext fun a => Fin.ext ?_)
  match a with
  | ⟨0, _⟩ => show win4_0.index t (0 : Fin 2) * 2000 + 1 * r.val = 2000 * t.val + r.val; omega
  | ⟨1, _⟩ => show win4_0.index t (1 : Fin 2) * 1 + 1 * 0 = 0; omega

theorem blk4_1_apply (c : Dev nD) (A : Buf (Elt F) ((c : Thread nD τ).loc (Pipeline.arrRef spec4 1))) (t : Fin cfg4.N) (r : Fin 2000) (d : Fin 128) :
    ((cfg4.win 1).blk t).view.read (Elt F) A (ix2 r d)
      = A (ix2 (⟨2000 * t.val + r.val, by have := t.isLt; have := r.isLt; have : cfg4.N = 25 := N_4; omega⟩ : Fin 50000) d) := by
  obtain ⟨-, -, e0, e1, -⟩ := blk_index4 t
  show A (((cfg4.win 1).blk t).view.emb (ix2 r d)) = A _
  refine congrArg A (funext fun a => Fin.ext ?_)
  match a with
  | ⟨0, _⟩ => show win4_1.index t (0 : Fin 2) * 2000 + 1 * r.val = 2000 * t.val + r.val; omega
  | ⟨1, _⟩ => show win4_1.index t (1 : Fin 2) * 128 + 1 * d.val = d.val; omega

theorem blk4_2_eq (c : Dev nD) (A : Buf (Elt F) ((c : Thread nD τ).loc (Pipeline.arrRef spec4 2))) (t : Fin cfg4.N) :
    ((cfg4.win 2).blk t).view.read (Elt F) A = A := by
  obtain ⟨-, -, -, -, e0, e1, -⟩ := blk_index4 t
  funext j
  show A (((cfg4.win 2).blk t).view.emb j) = A j
  refine congrArg A (funext fun a => Fin.ext ?_)
  match a with
  | ⟨0, _⟩ => show win4_2.index t (0 : Fin 2) * 128 + 1 * (j 0).val = (j 0).val; omega
  | ⟨1, _⟩ => show win4_2.index t (1 : Fin 2) * 128 + 1 * (j 1).val = (j 1).val; omega

theorem blk4_3_eq (c : Dev nD) (A : Buf (Elt F) ((c : Thread nD τ).loc (Pipeline.arrRef spec4 3))) (t : Fin cfg4.N) :
    ((cfg4.win 3).blk t).view.read (Elt F) A = A := by
  obtain ⟨-, -, -, -, -, -, e0, e1⟩ := blk_index4 t
  funext j
  show A (((cfg4.win 3).blk t).view.emb j) = A j
  refine congrArg A (funext fun a => Fin.ext ?_)
  match a with
  | ⟨0, _⟩ => show win4_3.index t (0 : Fin 2) * 1 + 1 * (j 0).val = (j 0).val; omega
  | ⟨1, _⟩ => show win4_3.index t (1 : Fin 2) * 128 + 1 * (j 1).val = (j 1).val; omega

end Cert.KernelIdeal.Val

end
-- ==== Proof.Val.PoolSum.lean ====
import proofs.«422796_j77979426226619_2_alg».proof.Proof.KI.Pool
import proofs.«422796_j77979426226619_2_alg».proof.Proof.Val.PoolSumPay
import proofs.«422796_j77979426226619_2_alg».proof.Proof.Val.PoolSumBlk
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

abbrev pt4 (n : ℕ) (h : n < 25) : Fin cfg4.N := ⟨n, lt_of_lt_of_eq h N_4.symm⟩

abbrev idsBlk (c : Dev nD) (t : Fin cfg4.N) : Vec Ideal S2000x1 .i32 := iblk4 V c 0 t
abbrev featBlk (c : Dev nD) (t : Fin cfg4.N) : Vec Ideal S2000x128 .bf16 := iblk4 V c 1 t
abbrev wcBlk (c : Dev nD) (t : Fin cfg4.N) : Vec Ideal S128x128 .f32 := iblk4 V c 2 t
abbrev bcBlk (c : Dev nD) (t : Fin cfg4.N) : Vec Ideal S1x128 .f32 := iblk4 V c 3 t

abbrev idsArr (c : Dev nD) : Vec Ideal S50000x1 .i32 := V c (Pipeline.arrRef spec4 0)
abbrev featArr (c : Dev nD) : Vec Ideal S50000x128 .bf16 := V c (Pipeline.arrRef spec4 1)
abbrev wcArr (c : Dev nD) : Vec Ideal S128x128 .f32 := V c (Pipeline.arrRef spec4 2)
abbrev bcArr (c : Dev nD) : Vec Ideal S1x128 .f32 := V c (Pipeline.arrRef spec4 3)

theorem pool_acc_zero (c : Dev nD) (hn : 0 < 25) :
    pool_acc V c 0 (lt_of_lt_of_eq hn N_4.symm)
      = (k4_pay4 (idsBlk V c (pt4 0 hn)) (featBlk V c (pt4 0 hn)) (k4_pay1 (F := Ideal)), k4_pay5 (idsBlk V c (pt4 0 hn)) (k4_pay2 (F := Ideal))) := rfl

theorem pool_acc_succ (c : Dev nD) (n : ℕ) (hn : n + 1 < 25) :
    pool_acc V c (n + 1) (lt_of_lt_of_eq hn N_4.symm)
      = (k4_pay4 (idsBlk V c (pt4 (n + 1) hn)) (featBlk V c (pt4 (n + 1) hn)) (pool_acc V c n (lt_of_lt_of_eq (Nat.lt_of_succ_lt hn) N_4.symm)).1,
          k4_pay5 (idsBlk V c (pt4 (n + 1) hn)) (pool_acc V c n (lt_of_lt_of_eq (Nat.lt_of_succ_lt hn) N_4.symm)).2) := rfl

theorem pool_sums_apply (c : Dev nD) (n : ℕ) (hn : n < 25) (g : Fin 512) (d : Fin 128) :
    (pool_acc V c n (lt_of_lt_of_eq hn N_4.symm)).1 (ix2 g d)
      = ∑ t : Fin (n + 1), ∑ r : Fin 2000,
          hot (idsBlk V c (pt4 t.val (Nat.lt_of_lt_of_le t.isLt (Nat.succ_le_of_lt hn))) (ix2 r (0 : Fin 1))) g
            * (featBlk V c (pt4 t.val (Nat.lt_of_lt_of_le t.isLt (Nat.succ_le_of_lt hn))) (ix2 r d) : EReal) := by
  induction n with
  | zero =>
    rw [pool_acc_zero V c hn]
    refine (pay4_apply (idsBlk V c (pt4 0 hn)) (featBlk V c (pt4 0 hn)) (k4_pay1 (F := Ideal)) g d).trans ?_
    rw [pay1_apply, zero_add, Fin.sum_univ_castSucc (n := 0), Fin.sum_univ_zero, zero_add]
    rfl
  | succ n ih =>
    rw [pool_acc_succ V c n hn]
    refine (pay4_apply (idsBlk V c (pt4 (n + 1) hn)) (featBlk V c (pt4 (n + 1) hn))
      (pool_acc V c n (lt_of_lt_of_eq (Nat.lt_of_succ_lt hn) N_4.symm)).1 g d).trans ?_
    rw [ih (Nat.lt_of_succ_lt hn), Fin.sum_univ_castSucc (n := n + 1)]
    rfl

theorem pool_counts_apply (c : Dev nD) (n : ℕ) (hn : n < 25) (g : Fin 512) :
    (pool_acc V c n (lt_of_lt_of_eq hn N_4.symm)).2 (ix2 (0 : Fin 1) g)
      = ∑ t : Fin (n + 1), ∑ r : Fin 2000,
          hot (idsBlk V c (pt4 t.val (Nat.lt_of_lt_of_le t.isLt (Nat.succ_le_of_lt hn))) (ix2 r (0 : Fin 1))) g := by
  induction n with
  | zero =>
    rw [pool_acc_zero V c hn]
    refine (pay5_apply (idsBlk V c (pt4 0 hn)) (k4_pay2 (F := Ideal)) g).trans ?_
    rw [pay2_apply, zero_add, Fin.sum_univ_castSucc (n := 0), Fin.sum_univ_zero, zero_add]
    rfl
  | succ n ih =>
    rw [pool_acc_succ V c n hn]
    refine (pay5_apply (idsBlk V c (pt4 (n + 1) hn)) (pool_acc V c n (lt_of_lt_of_eq (Nat.lt_of_succ_lt hn) N_4.symm)).2 g).trans ?_
    rw [ih (Nat.lt_of_succ_lt hn), Fin.sum_univ_castSucc (n := n + 1)]
    rfl

theorem pool_hg_apply (c : Dev nD) (g : Fin 512) (d : Fin 128) :
    pool_hg V c (ix2 g d)
      = Ideal.div
          (∑ t : Fin 25, ∑ r : Fin 2000, hot (idsBlk V c (pt4 t.val t.isLt) (ix2 r (0 : Fin 1))) g
            * (featBlk V c (pt4 t.val t.isLt) (ix2 r d) : EReal))
          (max (∑ t : Fin 25, ∑ r : Fin 2000, hot (idsBlk V c (pt4 t.val t.isLt) (ix2 r (0 : Fin 1))) g) 1) := by
  have hs := pool_sums_apply V c 24 (by decide) g d
  have hc := pool_counts_apply V c 24 (by decide) g
  unfold pool_hg
  refine (pay6_apply (pool_acc V c 24 (by decide)).2 (pool_acc V c 24 (by decide)).1 g d).trans ?_
  rw [hs, hc]

theorem pool_logits_apply (c : Dev nD) (g : Fin 512) (j : Fin 128) :
    pool_logits V c (ix2 g j)
      = (∑ k : Fin 128, (pool_hg V c (ix2 g k) : EReal) * (wcBlk V c tLast4 (ix2 k j) : EReal))
          + (bcBlk V c tLast4 (ix2 (0 : Fin 1) j) : EReal) :=
  pay7_apply (pool_acc V c 24 (by decide)).2 (pool_acc V c 24 (by decide)).1 (wcBlk V c tLast4) (bcBlk V c tLast4) g j

theorem idsBlk_apply (c : Dev nD) (t : Fin cfg4.N) (r : Fin 2000) :
    idsBlk V c t (ix2 r (0 : Fin 1))
      = idsArr V c (ix2 (⟨2000 * t.val + r.val, by have := t.isLt; have := r.isLt; have : cfg4.N = 25 := N_4; omega⟩ : Fin 50000) (0 : Fin 1)) :=
  blk4_0_apply c (V c (Pipeline.arrRef spec4 0)) t r

theorem featBlk_apply (c : Dev nD) (t : Fin cfg4.N) (r : Fin 2000) (d : Fin 128) :
    featBlk V c t (ix2 r d)
      = featArr V c (ix2 (⟨2000 * t.val + r.val, by have := t.isLt; have := r.isLt; have : cfg4.N = 25 := N_4; omega⟩ : Fin 50000) d) :=
  blk4_1_apply c (V c (Pipeline.arrRef spec4 1)) t r d

theorem wcBlk_eq (c : Dev nD) (t : Fin cfg4.N) : wcBlk V c t = wcArr V c :=
  blk4_2_eq c (V c (Pipeline.arrRef spec4 2)) t
theorem bcBlk_eq (c : Dev nD) (t : Fin cfg4.N) : bcBlk V c t = bcArr V c :=
  blk4_3_eq c (V c (Pipeline.arrRef spec4 3)) t

theorem sum_blocks_rows (f : Fin 50000 → EReal) :
    ∑ t : Fin 25, ∑ r : Fin 2000, f ⟨2000 * t.val + r.val, by have := t.isLt; have := r.isLt; omega⟩ = ∑ i : Fin 50000, f i := by
  have h : 25 * 2000 = 50000 := by norm_num
  rw [← Equiv.sum_comp (finProdFinEquiv.trans (finCongr h)) f, Fintype.sum_prod_type]
  refine Finset.sum_congr rfl fun t _ => Finset.sum_congr rfl fun r _ => congrArg f (Fin.ext ?_)
  show 2000 * t.val + r.val = r.val + 2000 * t.val
  omega

theorem pool_sums_rows (c : Dev nD) (g : Fin 512) (d : Fin 128) :
    (∑ t : Fin 25, ∑ r : Fin 2000, hot (idsBlk V c (pt4 t.val t.isLt) (ix2 r (0 : Fin 1))) g
        * (featBlk V c (pt4 t.val t.isLt) (ix2 r d) : EReal))
      = ∑ i : Fin 50000, hot (idsArr V c (ix2 i (0 : Fin 1))) g * (featArr V c (ix2 i d) : EReal) := by
  refine Eq.trans ?_ (sum_blocks_rows (fun i => hot (idsArr V c (ix2 i (0 : Fin 1))) g * (featArr V c (ix2 i d) : EReal)))
  refine Finset.sum_congr rfl fun t _ => Finset.sum_congr rfl fun r _ => ?_
  rw [idsBlk_apply, featBlk_apply]

theorem pool_counts_rows (c : Dev nD) (g : Fin 512) :
    (∑ t : Fin 25, ∑ r : Fin 2000, hot (idsBlk V c (pt4 t.val t.isLt) (ix2 r (0 : Fin 1))) g)
      = ∑ i : Fin 50000, hot (idsArr V c (ix2 i (0 : Fin 1))) g := by
  refine Eq.trans ?_ (sum_blocks_rows (fun i => hot (idsArr V c (ix2 i (0 : Fin 1))) g))
  refine Finset.sum_congr rfl fun t _ => Finset.sum_congr rfl fun r _ => ?_
  rw [idsBlk_apply]

theorem pool_hg_rows (c : Dev nD) (g : Fin 512) (d : Fin 128) :
    pool_hg V c (ix2 g d)
      = Ideal.div (∑ i : Fin 50000, hot (idsArr V c (ix2 i (0 : Fin 1))) g * (featArr V c (ix2 i d) : EReal))
          (max (∑ i : Fin 50000, hot (idsArr V c (ix2 i (0 : Fin 1))) g) 1) := by
  rw [pool_hg_apply, pool_sums_rows, pool_counts_rows]

theorem pool_logits_rows (c : Dev nD) (g : Fin 512) (j : Fin 128) :
    pool_logits V c (ix2 g j)
      = (∑ k : Fin 128, (pool_hg V c (ix2 g k) : EReal) * (wcArr V c (ix2 k j) : EReal)) + (bcArr V c (ix2 (0 : Fin 1) j) : EReal) := by
  rw [pool_logits_apply, wcBlk_eq, bcBlk_eq]

end Cert.KernelIdeal.Val

end
-- ==== Proof.Val.PoolArr.lean ====
import proofs.«422796_j77979426226619_2_alg».proof.Proof.KI.Pool
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem pool_flushed_4 (c : Dev nD) (t : Fin cfg4.N) (hf : (cfg4.win 4).flush t = true) :
    (pool_dat V c).flushed 4 t = ((cfg4.win 4).blk t).view.read (Elt F) (pool_hg V c) := by
  have hN : cfg4.N = 25 := N_4
  have h1 : t.val = 24 := by have := (flush4_4 t).mp hf; have := t.isLt; omega
  obtain rfl : t = tLast4 := Fin.ext h1
  show (cfg4.win 4).cut (grid4.coords tLast4) ((pool_dat V c).after 4 tLast4) = _
  rw [pool_after_4]
  have hz' : (fun a => win4_4.index tLast4 a * main_call0_v111_0.ty.shape.size a) = fun _ => 0 :=
    funext fun a => by fin_cases a <;> decide +kernel
  exact (Memref.read_access_unit_zero (Elt F) main_call0_v111_0 hz' (fun a => by rw [congrFun hz' a]; simp) (pool_hg V c)).symm

theorem pool_arr_hg (c : Dev nD) : (pool_dat V c).arrAt 4 cfg4.N = pool_hg V c :=
  (pool_dat V c).arrAt_eq_of_cover 4 (pool_hg V c) (pool_flushed_4 V c) fun i =>
    ⟨tLast4, (flush4_4 tLast4).mpr rfl, by
      show i ∈ ((View.whole main_call0_v111_0).slice (win4_4.rect tLast4)).set
      rw [View.set_slice_whole, Rect.mem_set_unit]
      intro a
      have h0 : (i 0 : Nat) < 512 := (i 0).isLt
      have h1 : (i 1 : Nat) < 128 := (i 1).isLt
      match a with
      | ⟨0, _⟩ =>
        show win4_4.index tLast4 0 * win4_4.size 0 ≤ (i 0 : Nat)
          ∧ (i 0 : Nat) < win4_4.index tLast4 0 * win4_4.size 0 + win4_4.xsize (grid4.coords tLast4) 0
        rw [show win4_4.index tLast4 0 * win4_4.size 0 = 0 from by decide +kernel,
          show win4_4.xsize (grid4.coords tLast4) 0 = 512 from by decide +kernel]; omega
      | ⟨1, _⟩ =>
        show win4_4.index tLast4 1 * win4_4.size 1 ≤ (i 1 : Nat)
          ∧ (i 1 : Nat) < win4_4.index tLast4 1 * win4_4.size 1 + win4_4.xsize (grid4.coords tLast4) 1
        rw [show win4_4.index tLast4 1 * win4_4.size 1 = 0 from by decide +kernel,
          show win4_4.xsize (grid4.coords tLast4) 1 = 128 from by decide +kernel]; omega⟩

theorem pool_flushed_5 (c : Dev nD) (t : Fin cfg4.N) (hf : (cfg4.win 5).flush t = true) :
    (pool_dat V c).flushed 5 t = ((cfg4.win 5).blk t).view.read (Elt F) (pool_logits V c) := by
  have hN : cfg4.N = 25 := N_4
  have h1 : t.val = 24 := by have := (flush4_5 t).mp hf; have := t.isLt; omega
  obtain rfl : t = tLast4 := Fin.ext h1
  show (cfg4.win 5).cut (grid4.coords tLast4) ((pool_dat V c).after 5 tLast4) = _
  rw [pool_after_5]
  have hz' : (fun a => win4_5.index tLast4 a * main_call0_v111_1.ty.shape.size a) = fun _ => 0 :=
    funext fun a => by fin_cases a <;> decide +kernel
  exact (Memref.read_access_unit_zero (Elt F) main_call0_v111_1 hz' (fun a => by rw [congrFun hz' a]; simp) (pool_logits V c)).symm

theorem pool_arr_logits (c : Dev nD) : (pool_dat V c).arrAt 5 cfg4.N = pool_logits V c :=
  (pool_dat V c).arrAt_eq_of_cover 5 (pool_logits V c) (pool_flushed_5 V c) fun i =>
    ⟨tLast4, (flush4_5 tLast4).mpr rfl, by
      show i ∈ ((View.whole main_call0_v111_1).slice (win4_5.rect tLast4)).set
      rw [View.set_slice_whole, Rect.mem_set_unit]
      intro a
      have h0 : (i 0 : Nat) < 512 := (i 0).isLt
      have h1 : (i 1 : Nat) < 128 := (i 1).isLt
      match a with
      | ⟨0, _⟩ =>
        show win4_5.index tLast4 0 * win4_5.size 0 ≤ (i 0 : Nat)
          ∧ (i 0 : Nat) < win4_5.index tLast4 0 * win4_5.size 0 + win4_5.xsize (grid4.coords tLast4) 0
        rw [show win4_5.index tLast4 0 * win4_5.size 0 = 0 from by decide +kernel,
          show win4_5.xsize (grid4.coords tLast4) 0 = 512 from by decide +kernel]; omega
      | ⟨1, _⟩ =>
        show win4_5.index tLast4 1 * win4_5.size 1 ≤ (i 1 : Nat)
          ∧ (i 1 : Nat) < win4_5.index tLast4 1 * win4_5.size 1 + win4_5.xsize (grid4.coords tLast4) 1
        rw [show win4_5.index tLast4 1 * win4_5.size 1 = 0 from by decide +kernel,
          show win4_5.xsize (grid4.coords tLast4) 1 = 128 from by decide +kernel]; omega⟩

end Cert.KernelIdeal.Val

end
-- ==== Proof.Val.PoolRef.lean ====
import proofs.«422796_j77979426226619_2_alg».proof.Proof.Val.Spec
import Idealize.ShloMosaic.Lib.Pipeline.Value
import Idealize.ShloMosaic.Lib.ValueIdx
import Idealize.ShloMosaic.Lib.ValueIdxRank1
import Idealize.ShloMosaic.Lib.IdealHost
import Idealize.ShloMosaic.PureOps.Ideal.Laws

noncomputable section

namespace Cert.Spec.PoolRef

open Cert.ReferenceIdeal Cert.ReferenceIdeal.Gen Idealize.ShloMosaic Idealize.ShloMosaic.TcCoe Idealize.ShloMosaic.ValueIdx
open scoped BigOperators

theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some_inj]
    constructor
    · intro e a
      have := congrArg (fun f => ((f a).val : ℤ)) e
      simp only at this
      rw [← this, Int.toNat_of_nonneg (h a).1]
    · intro e
      funext a
      apply Fin.ext
      show (d.start j idx a + (d.window j a : ℤ)).toNat = (i a).val
      rw [e a, Int.toNat_natCast]
  · rename_i h
    constructor
    · intro e; cases e
    · intro e
      exact absurd (fun a => by rw [e a]; exact ⟨Int.natCast_nonneg _, by exact_mod_cast (i a).isLt⟩) h

abbrev Dsum := scatter_S500x128_S50000x1_S50000x128_1_0_0_1
abbrev Dcnt := scatter_S500_S50000x1_S50000_n_0_0_1

theorem sum_window_0 (j : S50000x128.Idx) : Dsum.window j 0 = 0 := by
  unfold ScatterDims.window
  rw [dif_neg (show ¬(0 : Fin S500x128.rank) ∈ Dsum.sKept by decide)]
theorem sum_window_1 (j : S50000x128.Idx) : Dsum.window j 1 = (j 1).val := by
  unfold ScatterDims.window
  rw [dif_pos (show (1 : Fin S500x128.rank) ∈ Dsum.sKept by decide)]
  rfl
theorem sum_start_1 (j : S50000x128.Idx) (idx : IVec S50000x1 32) : Dsum.start j idx 1 = 0 := by
  unfold ScatterDims.start
  rw [dif_neg (show ¬(1 : Fin S500x128.rank) ∈ Dsum.scatterDimsToOperandDims by decide)]
theorem sum_start_0 (n : Fin 50000) (d' : Fin 128) (idx : IVec S50000x1 32) :
    Dsum.start (ix2 n d') idx 0 = (idx (ix2 n (0 : Fin 1))).toInt := by
  unfold ScatterDims.start
  rw [dif_pos (show (0 : Fin S500x128.rank) ∈ Dsum.scatterDimsToOperandDims by decide)]
  refine congrArg (fun k => (idx k).toInt) (funext fun b => Fin.ext ?_)
  match b with
  | ⟨0, _⟩ => rfl
  | ⟨1, _⟩ => rfl

theorem sum_resultIdx (idx : IVec S50000x1 32) (n : Fin 50000) (d' : Fin 128) (g : Fin 500) (d : Fin 128) :
    Dsum.resultIdx? (ix2 n d') idx = some (ix2 g d) ↔ ((idx (ix2 n (0 : Fin 1))).toInt = (g.val : ℤ) ∧ d' = d) := by
  rw [resultIdx?_eq_some_iff]
  constructor
  · intro e
    have e0 := e 0
    have e1 := e 1
    rw [sum_start_0, sum_window_0] at e0
    rw [sum_start_1, sum_window_1] at e1
    refine ⟨by simpa using e0, Fin.ext ?_⟩
    have : ((d'.val : ℕ) : ℤ) = (d.val : ℤ) := by simpa using e1
    exact_mod_cast this
  · rintro ⟨e0, rfl⟩ a
    match a with
    | ⟨0, _⟩ =>
      show Dsum.start (ix2 n d') idx 0 + (Dsum.window (ix2 n d') 0 : ℤ) = _
      rw [sum_start_0, sum_window_0, e0]; simp
    | ⟨1, _⟩ =>
      show Dsum.start (ix2 n d') idx 1 + (Dsum.window (ix2 n d') 1 : ℤ) = _
      rw [sum_start_1, sum_window_1]; simp

theorem cnt_start_0 (n : Fin 50000) (idx : IVec S50000x1 32) :
    Dcnt.start (ix1 n) idx 0 = (idx (ix2 n (0 : Fin 1))).toInt := by
  unfold ScatterDims.start
  rw [dif_pos (show (0 : Fin S500.rank) ∈ Dcnt.scatterDimsToOperandDims by decide)]
  refine congrArg (fun k => (idx k).toInt) (funext fun b => Fin.ext ?_)
  match b with
  | ⟨0, _⟩ => rfl
  | ⟨1, _⟩ => rfl
theorem cnt_window_0 (j : S50000.Idx) : Dcnt.window j 0 = 0 := by
  unfold ScatterDims.window
  rw [dif_neg (show ¬(0 : Fin S500.rank) ∈ Dcnt.sKept by decide)]

theorem cnt_resultIdx (idx : IVec S50000x1 32) (n : Fin 50000) (g : Fin 500) :
    Dcnt.resultIdx? (ix1 n) idx = some (ix1 g) ↔ (idx (ix2 n (0 : Fin 1))).toInt = (g.val : ℤ) := by
  rw [resultIdx?_eq_some_iff]
  constructor
  · intro e
    have e0 := e 0
    rw [cnt_start_0, cnt_window_0] at e0
    simpa using e0
  · intro e0 a
    match a with
    | ⟨0, _⟩ =>
      show Dcnt.start (ix1 n) idx 0 + (Dcnt.window (ix1 n) 0 : ℤ) = _
      rw [cnt_start_0, cnt_window_0, e0]; simp

theorem idxcol_apply (a3 : Arr Ideal S50000 .i32) (n : Fin 50000) :
    broadcastInDim S50000x1 ![0] bcast_S50000_S50000x1_0 a3 (ix2 n (0 : Fin 1)) = a3 (ix1 n) :=
  broadcastInDim_apply _ bcast_S50000_S50000x1_0 a3 (ix2 n (0 : Fin 1)) (ix1 n) (fun a => match a with
    | ⟨0, _⟩ => by show n.val = if (50000 : Nat) = 1 then 0 else n.val; rw [if_neg (by decide)])

abbrev Ddot := dot_S500x128_S128x10_S500x10_1_0_0_1_n_n

theorem dot_lhs_0 (i : S500x10.Idx) (q : Ddot.contr.Idx) : (Ddot.lhsIdx i q 0).val = (i 0).val := by
  unfold DotDims.lhsIdx
  rw [dif_neg (show ¬(0 : Fin S500x128.rank) ∈ Ddot.lhsBatch by decide), dif_pos (show (0 : Fin S500x128.rank) ∈ Ddot.lhsNonContracting by decide)]
  rfl
theorem dot_lhs_1 (i : S500x10.Idx) (q : Ddot.contr.Idx) : (Ddot.lhsIdx i q 1).val = (q ⟨0, by decide⟩).val :=
  Ddot.lhsIdx_val_of_single rfl i q
theorem dot_rhs_0 (i : S500x10.Idx) (q : Ddot.contr.Idx) : (Ddot.rhsIdx i q 0).val = (q ⟨0, by decide⟩).val :=
  Ddot.rhsIdx_val_of_single rfl i q
theorem dot_rhs_1 (i : S500x10.Idx) (q : Ddot.contr.Idx) : (Ddot.rhsIdx i q 1).val = (i 1).val := by
  unfold DotDims.rhsIdx
  rw [dif_neg (show ¬(1 : Fin S128x10.rank) ∈ Ddot.rhsBatch by decide), dif_pos (show (1 : Fin S128x10.rank) ∈ Ddot.rhsNonContracting by decide)]
  rfl

end Cert.Spec.PoolRef

namespace Cert.Spec

open Cert.ReferenceIdeal Cert.ReferenceIdeal.Gen Idealize.ShloMosaic Idealize.ShloMosaic.TcCoe Idealize.ShloMosaic.ValueIdx Cert.Spec.PoolRef
open scoped BigOperators

theorem poolSums_apply (h : Arr Ideal S50000x128 .f32) (a3 : Arr Ideal S50000 .i32) (g : Fin 500) (d : Fin 128) :
    Cert.Spec.poolSums (F := Ideal) h a3 (ix2 g d)
      = ∑ n : Fin 50000, (if (a3 (ix1 n)).toInt = (g.val : ℤ) then h (ix2 n d) else 0) := by
  unfold Cert.Spec.poolSums
  generalize hidx : broadcastInDim S50000x1 ![0] bcast_S50000_S50000x1_0 a3 = idx
  simp only [Host.scatterAdd]
  rw [Ideal.hostScatterAdd_def]
  unfold Ideal.hostScatterAdd
  rw [broadcastInDim_scalar_apply, constant_apply, Ideal.ofBits_zero_f32, zero_add, Finset.sum_filter, sum_idx2]
  refine Finset.sum_congr rfl fun n _ => ?_
  have hn : idx (ix2 n (0 : Fin 1)) = a3 (ix1 n) := by rw [← hidx]; exact idxcol_apply a3 n
  by_cases hg : (a3 (ix1 n)).toInt = (g.val : ℤ)
  · rw [if_pos hg, Finset.sum_eq_single d]
    · rw [if_pos ((sum_resultIdx idx n d g d).2 ⟨by rw [hn]; exact hg, rfl⟩)]
    · intro d' _ hne
      rw [if_neg]
      intro e
      exact hne ((sum_resultIdx idx n d' g d).1 e).2
    · intro hd
      exact absurd (Finset.mem_univ d) hd
  · rw [if_neg hg]
    refine Finset.sum_eq_zero fun d' _ => ?_
    rw [if_neg]
    intro e
    exact hg (by rw [← hn]; exact ((sum_resultIdx idx n d' g d).1 e).1)

theorem poolCounts_apply (a3 : Arr Ideal S50000 .i32) (g : Fin 500) :
    Cert.Spec.poolCounts (F := Ideal) a3 (ix1 g)
      = ∑ n : Fin 50000, (if (a3 (ix1 n)).toInt = (g.val : ℤ) then (1 : EReal) else 0) := by
  unfold Cert.Spec.poolCounts
  generalize hidx : broadcastInDim S50000x1 ![0] bcast_S50000_S50000x1_0 a3 = idx
  simp only [Host.scatterAdd]
  rw [Ideal.hostScatterAdd_def]
  unfold Ideal.hostScatterAdd
  rw [broadcastInDim_scalar_apply, constant_apply, Ideal.ofBits_zero_f32, zero_add, Finset.sum_filter]
  rw [← Equiv.sum_comp (idxEquiv1 (n := 50000)).symm]
  refine Finset.sum_congr rfl fun n _ => ?_
  have hn : idx (ix2 n (0 : Fin 1)) = a3 (ix1 n) := by rw [← hidx]; exact idxcol_apply a3 n
  show (if Dcnt.resultIdx? (ix1 n) idx = some (ix1 g) then _ else 0) = _
  rw [broadcastInDim_scalar_apply, constant_apply, Ideal.ofBits_one_f32]
  by_cases hg : (a3 (ix1 n)).toInt = (g.val : ℤ)
  · rw [if_pos hg, if_pos ((cnt_resultIdx idx n g).2 (by rw [hn]; exact hg))]
  · rw [if_neg hg, if_neg]
    intro e
    exact hg (by rw [← hn]; exact (cnt_resultIdx idx n g).1 e)

theorem poolHg_apply (h : Arr Ideal S50000x128 .f32) (a3 : Arr Ideal S50000 .i32) (g : Fin 500) (d : Fin 128) :
    Cert.Spec.poolHg (F := Ideal) h a3 (ix2 g d)
      = Ideal.div (Cert.Spec.poolSums (F := Ideal) h a3 (ix2 g d)) (max (Cert.Spec.poolCounts (F := Ideal) a3 (ix1 g)) 1) := by
  unfold Cert.Spec.poolHg
  generalize Cert.Spec.poolSums (F := Ideal) h a3 = S
  generalize Cert.Spec.poolCounts (F := Ideal) a3 = C
  show Ideal.div (S (ix2 g d)) _ = _
  refine congrArg (Ideal.div (S (ix2 g d))) ?_
  refine (broadcastInDim_apply _ bcast_S500x1_S500x128_0_1 _ (ix2 g d) (ix2 g (0 : Fin 1)) (fun a => match a with
      | ⟨0, _⟩ => by show g.val = if (500 : Nat) = 1 then 0 else g.val; rw [if_neg (by decide)]
      | ⟨1, _⟩ => by show 0 = if (1 : Nat) = 1 then 0 else d.val; rw [if_pos rfl])).trans ?_
  refine (broadcastInDim_apply _ bcast_S500_S500x1_0 _ (ix2 g (0 : Fin 1)) (ix1 g) (fun a => match a with
      | ⟨0, _⟩ => by show g.val = if (500 : Nat) = 1 then 0 else g.val; rw [if_neg (by decide)])).trans ?_
  rw [maximumf_apply, broadcastInDim_scalar_apply, constant_apply, Ideal.ofBits_one_f32]

theorem classify_apply (hg : Arr Ideal S500x128 .f32) (Wc : Arr Ideal S128x10 .f32) (bc : Arr Ideal S10 .f32) (g : Fin 500) (j : Fin 10) :
    Cert.Spec.classify (F := Ideal) hg Wc bc (ix2 g j) = (∑ k : Fin 128, hg (ix2 g k) * Wc (ix2 k j)) + bc (ix1 j) := by
  unfold Cert.Spec.classify
  rw [addf_apply]
  have hb : broadcastInDim S500x10 ![0, 1] bcast_S1x10_S500x10_0_1 (broadcastInDim S1x10 ![1] bcast_S10_S1x10_1 bc) (ix2 g j) = bc (ix1 j) := by
    refine (broadcastInDim_apply _ bcast_S1x10_S500x10_0_1 _ (ix2 g j) (ix2 (0 : Fin 1) j) (fun a => match a with
      | ⟨0, _⟩ => by show 0 = if (1 : Nat) = 1 then 0 else g.val; rw [if_pos rfl]
      | ⟨1, _⟩ => by show j.val = if (10 : Nat) = 1 then 0 else j.val; rw [if_neg (by decide)])).trans ?_
    exact broadcastInDim_apply _ bcast_S10_S1x10_1 bc (ix2 (0 : Fin 1) j) (ix1 j) (fun a => match a with
      | ⟨0, _⟩ => by show j.val = if (10 : Nat) = 1 then 0 else j.val; rw [if_neg (by decide)])
  rw [hb]
  refine congrArg (· + bc (ix1 j)) ?_
  simp only [Host.dotGeneral]
  rw [Ideal.dotGeneral_apply, ← Equiv.sum_comp (contrEquiv1 Ddot 128 rfl rfl).symm]
  refine Finset.sum_congr rfl fun k _ => ?_
  have hk := contrEquiv1_symm_val Ddot 128 rfl rfl k
  have el : Ddot.lhsIdx (ix2 g j) ((contrEquiv1 Ddot 128 rfl rfl).symm k) = ix2 g k := funext fun a => Fin.ext (by
    match a with
    | ⟨0, _⟩ => exact dot_lhs_0 _ _
    | ⟨1, _⟩ => exact (dot_lhs_1 _ _).trans hk)
  have er : Ddot.rhsIdx (ix2 g j) ((contrEquiv1 Ddot 128 rfl rfl).symm k) = ix2 k j := funext fun a => Fin.ext (by
    match a with
    | ⟨0, _⟩ => exact (dot_rhs_0 _ _).trans hk
    | ⟨1, _⟩ => exact dot_rhs_1 _ _)
  rw [el, er]

theorem toInt_ofNat_small (g : Fin 512) : (BitVec.ofNat 32 g.val).toInt = (g.val : ℤ) := by
  have hg := g.isLt
  rw [BitVec.toInt_eq_toNat_cond, BitVec.toNat_ofNat]
  have e : g.val % 2 ^ 32 = g.val := Nat.mod_eq_of_lt (by omega)
  rw [e, if_pos (by omega)]

theorem word_eq_iff_toInt (w : BitVec 32) (g : Fin 512) : w = BitVec.ofNat 32 g.val ↔ w.toInt = (g.val : ℤ) := by
  rw [← toInt_ofNat_small g]
  exact BitVec.toInt_inj.symm

end Cert.Spec

end
-- ==== Proof.Val.PoolJoin.lean ====
import proofs.«422796_j77979426226619_2_alg».proof.Proof.KI.Run
import proofs.«422796_j77979426226619_2_alg».proof.Proof.Val.Spec
import proofs.«422796_j77979426226619_2_alg».proof.Proof.Val.PoolSum
import proofs.«422796_j77979426226619_2_alg».proof.Proof.Val.PoolArr
import proofs.«422796_j77979426226619_2_alg».proof.Proof.Val.PoolRef

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open scoped BigOperators

def nodeEquiv : Fin 25 × Fin 2000 ≃ Fin 50000 where
  toFun p := ⟨2000 * p.1.val + p.2.val, by have := p.1.isLt; have := p.2.isLt; omega⟩
  invFun n := (⟨n.val / 2000, by have := n.isLt; omega⟩, ⟨n.val % 2000, Nat.mod_lt _ (by decide)⟩)
  left_inv p := by
    rcases p with ⟨t, r⟩
    have ht := t.isLt
    have hr := r.isLt
    refine Prod.ext (Fin.ext ?_) (Fin.ext ?_)
    · show (2000 * t.val + r.val) / 2000 = t.val
      omega
    · show (2000 * t.val + r.val) % 2000 = r.val
      omega
  right_inv n := by
    refine Fin.ext ?_
    show 2000 * (n.val / 2000) + n.val % 2000 = n.val
    omega

theorem sum_tiles {M : Type*} [AddCommMonoid M] (f : Fin 50000 → M) :
    ∑ t : Fin 25, ∑ r : Fin 2000, f ⟨2000 * t.val + r.val, by have := t.isLt; have := r.isLt; omega⟩ = ∑ n : Fin 50000, f n := by
  rw [← Equiv.sum_comp nodeEquiv f, Fintype.sum_prod_type]
  rfl

theorem hot_eq_ite (w : BitVec 32) (g : Fin 512) : hot w g = if w.toInt = (g.val : ℤ) then (1 : EReal) else 0 := by
  unfold hot
  exact if_congr (Cert.Spec.word_eq_iff_toInt w g) rfl rfl

theorem poolHg_of_hot (h : Cert.Spec.Arr Ideal S50000x128 .f32) (a3 : Cert.Spec.Arr Ideal S50000 .i32) (g : Fin 500) (d : Fin 128)
    (hg : g.val < 512) :
    Cert.Spec.poolHg (F := Ideal) h a3 (ix2 g d)
      = Ideal.div (∑ i : Fin 50000, hot (a3 (ix1 i)) ⟨g.val, hg⟩ * h (ix2 i d))
          (max (∑ i : Fin 50000, hot (a3 (ix1 i)) ⟨g.val, hg⟩) 1) := by
  rw [Cert.Spec.poolHg_apply, Cert.Spec.poolSums_apply, Cert.Spec.poolCounts_apply]
  have e : ∀ i : Fin 50000, hot (a3 (ix1 i)) ⟨g.val, hg⟩ = if (a3 (ix1 i)).toInt = (g.val : ℤ) then (1 : EReal) else 0 :=
    fun i => hot_eq_ite _ _
  have e1 : (∑ i : Fin 50000, hot (a3 (ix1 i)) ⟨g.val, hg⟩ * h (ix2 i d))
      = ∑ n : Fin 50000, (if (a3 (ix1 n)).toInt = (g.val : ℤ) then h (ix2 n d) else 0) := by
    refine Finset.sum_congr rfl fun i _ => ?_
    rw [e i]
    by_cases hi : (a3 (ix1 i)).toInt = (g.val : ℤ)
    · rw [if_pos hi, if_pos hi, one_mul]
    · rw [if_neg hi, if_neg hi, zero_mul]
  have e2 : (∑ i : Fin 50000, hot (a3 (ix1 i)) ⟨g.val, hg⟩)
      = ∑ n : Fin 50000, (if (a3 (ix1 n)).toInt = (g.val : ℤ) then (1 : EReal) else 0) :=
    Finset.sum_congr rfl fun i _ => e i
  rw [e1, e2]

variable (V : (c : Dev nD) → (b : Ref sig .tc) → Buf (Elt Ideal) ((c : Thread nD τ).loc b))

theorem pool_hg_nodes (c : Dev nD) (g : Fin 512) (d : Fin 128) :
    pool_hg V c (ix2 g d)
      = Ideal.div (∑ n : Fin 50000, hot (idsArr V c (ix2 n (0 : Fin 1))) g * (featArr V c (ix2 n d) : EReal))
          (max (∑ n : Fin 50000, hot (idsArr V c (ix2 n (0 : Fin 1))) g) 1) := by
  rw [pool_hg_apply]
  have e1 : (∑ t : Fin 25, ∑ r : Fin 2000, hot (idsBlk V c (pt4 t.val t.isLt) (ix2 r (0 : Fin 1))) g
            * (featBlk V c (pt4 t.val t.isLt) (ix2 r d) : EReal))
      = ∑ n : Fin 50000, hot (idsArr V c (ix2 n (0 : Fin 1))) g * (featArr V c (ix2 n d) : EReal) := by
    rw [← sum_tiles (fun n => hot (idsArr V c (ix2 n (0 : Fin 1))) g * (featArr V c (ix2 n d) : EReal))]
    refine Finset.sum_congr rfl fun t _ => Finset.sum_congr rfl fun r _ => ?_
    rw [idsBlk_apply, featBlk_apply]
  have e2 : (∑ t : Fin 25, ∑ r : Fin 2000, hot (idsBlk V c (pt4 t.val t.isLt) (ix2 r (0 : Fin 1))) g)
      = ∑ n : Fin 50000, hot (idsArr V c (ix2 n (0 : Fin 1))) g := by
    rw [← sum_tiles (fun n => hot (idsArr V c (ix2 n (0 : Fin 1))) g)]
    refine Finset.sum_congr rfl fun t _ => Finset.sum_congr rfl fun r _ => ?_
    rw [idsBlk_apply]
  rw [e1, e2]

section Join

variable (m : (ℓ : Loc nD τ sig) → Buf (Elt Ideal) ℓ) (ρ : Dev nD → PrngReg)

structure PoolReads (c : Dev nD) : Prop where
  ids : ∀ n : Fin 50000, bd9 (F := Ideal) m ρ c (Proc.devRef .tc main_call0_v102) (ix2 n (0 : Fin 1))
      = m ((c : Thread nD τ).loc main_arg3) (ix1 n)
  feats : bd9 (F := Ideal) m ρ c (Proc.devRef .tc main_call0_v101) = bd8 (F := Ideal) m ρ c (Proc.devRef .tc main_call0_v101)
  weights : ∀ (k : Fin 128) (j : Fin 10),
      bd9 (F := Ideal) m ρ c (Proc.devRef .tc main_call0_v105) (ix2 k (⟨j.val, by have := j.isLt; omega⟩ : Fin 128))
        = m ((c : Thread nD τ).loc main_arg12) (ix2 k j)
  bias : ∀ j : Fin 10,
      bd9 (F := Ideal) m ρ c (Proc.devRef .tc main_call0_v110) (ix2 (0 : Fin 1) (⟨j.val, by have := j.isLt; omega⟩ : Fin 128))
        = m ((c : Thread nD τ).loc main_arg13) (ix1 j)
  means : ∀ (g : Fin 500) (d : Fin 128),
      bd11 (F := Ideal) m ρ c (Proc.devRef .tc main_v0_1) (ix2 g d)
        = bd10 (F := Ideal) m ρ c (Proc.devRef .tc main_call0_v111_0) (ix2 (⟨g.val, by have := g.isLt; omega⟩ : Fin 512) d)
  scores : ∀ (g : Fin 500) (j : Fin 10),
      bd11 (F := Ideal) m ρ c (Proc.devRef .tc main_v0_0) (ix2 g j)
        = bd10 (F := Ideal) m ρ c (Proc.devRef .tc main_call0_v111_1)
            (ix2 (⟨g.val, by have := g.isLt; omega⟩ : Fin 512) (⟨j.val, by have := j.isLt; omega⟩ : Fin 128))

theorem pool_hg_point (c : Dev nD) (H : PoolReads m ρ c) (g : Fin 500) (d : Fin 128) :
    pool_hg (bv9 (F := Ideal) m ρ) c (ix2 (⟨g.val, by have := g.isLt; omega⟩ : Fin 512) d)
      = Cert.Spec.poolHg (F := Ideal) (bd8 (F := Ideal) m ρ c (Proc.devRef .tc main_call0_v101))
          (m ((c : Thread nD τ).loc main_arg3)) (ix2 g d) := by
  rw [pool_hg_nodes, poolHg_of_hot _ _ g d (by have := g.isLt; omega)]
  have ei : ∀ n : Fin 50000, idsArr (bv9 (F := Ideal) m ρ) c (ix2 n (0 : Fin 1)) = m ((c : Thread nD τ).loc main_arg3) (ix1 n) := fun n => H.ids n
  have ef : ∀ n : Fin 50000, (featArr (bv9 (F := Ideal) m ρ) c (ix2 n d) : EReal)
      = bd8 (F := Ideal) m ρ c (Proc.devRef .tc main_call0_v101) (ix2 n d) := fun n => congrFun H.feats (ix2 n d)
  have e1 : (∑ n : Fin 50000, hot (idsArr (bv9 (F := Ideal) m ρ) c (ix2 n (0 : Fin 1))) ⟨g.val, by have := g.isLt; omega⟩
        * (featArr (bv9 (F := Ideal) m ρ) c (ix2 n d) : EReal))
      = ∑ i : Fin 50000, hot (m ((c : Thread nD τ).loc main_arg3) (ix1 i)) ⟨g.val, by have := g.isLt; omega⟩
        * bd8 (F := Ideal) m ρ c (Proc.devRef .tc main_call0_v101) (ix2 i d) :=
    Finset.sum_congr rfl fun n _ => by rw [ei n, ef n]
  have e2 : (∑ n : Fin 50000, hot (idsArr (bv9 (F := Ideal) m ρ) c (ix2 n (0 : Fin 1))) ⟨g.val, by have := g.isLt; omega⟩)
      = ∑ i : Fin 50000, hot (m ((c : Thread nD τ).loc main_arg3) (ix1 i)) ⟨g.val, by have := g.isLt; omega⟩ :=
    Finset.sum_congr rfl fun n _ => by rw [ei n]
  rw [e1, e2]

theorem pool_means_of (c : Dev nD) (H : PoolReads m ρ c) :
    bd11 (F := Ideal) m ρ c (Proc.devRef .tc main_v0_1)
      = Cert.Spec.poolHg (F := Ideal) (bd8 (F := Ideal) m ρ c (Proc.devRef .tc main_call0_v101)) (m ((c : Thread nD τ).loc main_arg3)) := by
  funext i
  obtain ⟨g, d, rfl⟩ : ∃ (g : Fin 500) (d : Fin 128), i = ix2 g d := ⟨_, _, eq_ix2 i⟩
  have e : bd10 (F := Ideal) m ρ c (Proc.devRef .tc main_call0_v111_0) = pool_hg (bv9 (F := Ideal) m ρ) c :=
    (bd10_arr m ρ c 4).trans (pool_arr_hg _ c)
  exact (H.means g d).trans ((congrFun e _).trans (pool_hg_point m ρ c H g d))

theorem pool_scores_of (c : Dev nD) (H : PoolReads m ρ c) :
    bd11 (F := Ideal) m ρ c (Proc.devRef .tc main_v0_0)
      = Cert.Spec.classify (F := Ideal)
          (Cert.Spec.poolHg (F := Ideal) (bd8 (F := Ideal) m ρ c (Proc.devRef .tc main_call0_v101)) (m ((c : Thread nD τ).loc main_arg3)))
          (m ((c : Thread nD τ).loc main_arg12)) (m ((c : Thread nD τ).loc main_arg13)) := by
  funext i
  obtain ⟨g, j, rfl⟩ : ∃ (g : Fin 500) (j : Fin 10), i = ix2 g j := ⟨_, _, eq_ix2 i⟩
  have e : bd10 (F := Ideal) m ρ c (Proc.devRef .tc main_call0_v111_1) = pool_logits (bv9 (F := Ideal) m ρ) c :=
    (bd10_arr m ρ c 5).trans (pool_arr_logits _ c)
  refine (H.scores g j).trans ((congrFun e _).trans ?_)
  rw [pool_logits_apply, Cert.Spec.classify_apply, wcBlk_eq, bcBlk_eq]
  have eb : (bcArr (bv9 (F := Ideal) m ρ) c (ix2 (0 : Fin 1) (⟨j.val, by have := j.isLt; omega⟩ : Fin 128)) : EReal)
      = m ((c : Thread nD τ).loc main_arg13) (ix1 j) := H.bias j
  rw [eb]
  refine congrArg (· + (m ((c : Thread nD τ).loc main_arg13) (ix1 j) : EReal)) ?_
  refine Finset.sum_congr rfl fun k _ => ?_
  have ew : (wcArr (bv9 (F := Ideal) m ρ) c (ix2 k (⟨j.val, by have := j.isLt; omega⟩ : Fin 128)) : EReal)
      = m ((c : Thread nD τ).loc main_arg12) (ix2 k j) := H.weights k j
  rw [pool_hg_point m ρ c H g k, ew]

end Join

end Cert.KernelIdeal.Val

end
-- ==== Proof.Val.PoolHost.lean ====
import proofs.«422796_j77979426226619_2_alg».proof.Proof.Gen.KernelIdeal.Launch
import proofs.«422796_j77979426226619_2_alg».proof.Proof.Gen.KernelIdeal.Regions
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Val

open Cert.KernelIdeal Cert.KernelIdeal.Gen
open Idealize.ShloMosaic Idealize.ShloMosaic.TcCoe Idealize.SL.Sem Idealize.ShloMosaic.StableHlo
open Idealize.ShloMosaic.ValueIdx (ix1 ix2)

namespace PoolHost

section FoldSet

variable {α : Type} {ι β : Type} [DecidableEq β]

theorem foldSet_miss (g : ι → β) (v : ι → α) (i : β) : ∀ (L : List ι) (r : β → α), (∀ n ∈ L, g n ≠ i) →
    L.foldl (fun r n => fun i' => if i' = g n then v n else r i') r i = r i
  | [], r, _ => rfl
  | n :: L, r, h => by
    rw [List.foldl_cons, foldSet_miss g v i L _ (fun m hm => h m (List.mem_cons_of_mem _ hm))]
    exact if_neg (fun e => h n List.mem_cons_self e.symm)

theorem foldSet_hit (g : ι → β) (v : ι → α) (hinj : Function.Injective g) : ∀ (L : List ι) (r : β → α) (n0 : ι), L.Nodup → n0 ∈ L →
    L.foldl (fun r n => fun i' => if i' = g n then v n else r i') r (g n0) = v n0
  | [], _, _, _, h => absurd h List.not_mem_nil
  | n :: L, r, n0, hnd, hm => by
    rw [List.foldl_cons]
    by_cases hn : n0 = n
    · subst hn
      rw [foldSet_miss g v (g n0) L _ (fun m hm' e => (List.nodup_cons.mp hnd).1 (hinj e ▸ hm'))]
      exact if_pos rfl
    · exact foldSet_hit g v hinj L _ n0 (List.nodup_cons.mp hnd).2 ((List.mem_cons.mp hm).resolve_left hn)

end FoldSet

section HostSet

variable {α : Type} {s si u : Shape} {w : Nat}

theorem scatter_set_eq_fold (d : ScatterDims s si u) (x : s.Idx → α) (idx : IVec si w) (upd : u.Idx → α)
    (g : u.Idx → s.Idx) (hg : ∀ j, d.resultIdx? j idx = some (g j)) :
    Host.scatter d (fun _ b => b) x idx upd
      = (List.finRange u.numel).foldl (fun r n => fun i' => if i' = g (u.rowMajor.symm n) then upd (u.rowMajor.symm n) else r i') x := by
  unfold Host.scatter
  simp only [hg]

theorem scatter_set_hit (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  rw [scatter_set_eq_fold d x idx upd g hg]
  have h := foldSet_hit (fun n => g (u.rowMajor.symm n)) (fun n => upd (u.rowMajor.symm n))
    (hinj.comp u.rowMajor.symm.injective) (List.finRange u.numel) x (u.rowMajor j) (List.nodup_finRange _) (List.mem_finRange _)
  simp only [Equiv.symm_apply_apply] at h
  exact h

theorem scatter_set_miss (d : ScatterDims s si u) (x : s.Idx → α) (idx : IVec si w) (upd : u.Idx → α)
    (g : u.Idx → s.Idx) (hg : ∀ j, d.resultIdx? j idx = some (g j)) (i : s.Idx) (hi : ∀ j, g j ≠ i) :
    Host.scatter d (fun _ b => b) x idx upd i = x i := by
  rw [scatter_set_eq_fold d x idx upd g hg]
  exact foldSet_miss (fun n => g (u.rowMajor.symm n)) (fun n => upd (u.rowMajor.symm n)) i (List.finRange u.numel) x (fun n _ => hi _)

theorem concatenate_const {t : Shape} (a : Fin t.rank) (xs : List ((s : Shape) × (s.Idx → α)))
    (h : Shape.Concatenates (xs.map (·.1)) t a) (c : α) (hc : ∀ p ∈ xs, ∀ i, p.2 i = c) (j : t.Idx) :
    concatenate t a xs h j = c := by
  unfold concatenate
  exact hc _ (List.getElem_mem _) _

end HostSet

abbrev landW (j : S128x10.Idx) : S128x128.Idx := ix2 (j 0) ⟨(j 1).val, Nat.lt_trans (j 1).isLt (by decide)⟩
abbrev landB (j : S10.Idx) : S1x128.Idx := ix2 (0 : Fin 1) ⟨(j 0).val, Nat.lt_trans (j 0).isLt (by decide)⟩

theorem landW_inj : Function.Injective landW := fun a b e => by
  have e0 : a 0 = b 0 := congrFun e 0
  have e1 : (a 1).val = (b 1).val := congrArg (fun i : S128x128.Idx => (i 1).val) e
  funext ax
  match ax with
  | ⟨0, _⟩ => exact e0
  | ⟨1, _⟩ => exact Fin.ext e1
theorem landB_inj : Function.Injective landB := fun a b e => by
  have e1 : (a 0).val = (b 0).val := congrArg (fun i : S1x128.Idx => (i 1).val) e
  funext ax
  match ax with
  | ⟨0, _⟩ => exact Fin.ext e1

theorem land_W (idx : IVec S1 32) (hidx : ∀ k, idx k = 0#32) (j : S128x10.Idx) :
    scatter_S128x128_S1_S128x10_01_n_1_0.resultIdx? j idx = some (landW j) := by
  have s0 : scatter_S128x128_S1_S128x10_01_n_1_0.start j idx 0 = 0 := by
    first | rfl | (simp [ScatterDims.start, scatter_S128x128_S1_S128x10_01_n_1_0]; done)
  have s1 : scatter_S128x128_S1_S128x10_01_n_1_0.start j idx 1 = 0 := by
    first | (simp [ScatterDims.start, scatter_S128x128_S1_S128x10_01_n_1_0, hidx]; done) | (unfold ScatterDims.start; rw [dif_pos (by decide), hidx]; rfl)
  have w0 : scatter_S128x128_S1_S128x10_01_n_1_0.window j 0 = (j 0).val := by
    first | rfl | (simp [ScatterDims.window, scatter_S128x128_S1_S128x10_01_n_1_0]; done)
  have w1 : scatter_S128x128_S1_S128x10_01_n_1_0.window j 1 = (j 1).val := by
    first | rfl | (simp [ScatterDims.window, scatter_S128x128_S1_S128x10_01_n_1_0]; done)
  have h0 : (j 0).val < 128 := (j 0).isLt
  have h1 : (j 1).val < 10 := (j 1).isLt
  have hall : ∀ a, 0 ≤ scatter_S128x128_S1_S128x10_01_n_1_0.start j idx a + scatter_S128x128_S1_S128x10_01_n_1_0.window j a
      ∧ scatter_S128x128_S1_S128x10_01_n_1_0.start j idx a + scatter_S128x128_S1_S128x10_01_n_1_0.window j a < S128x128.size a := fun a => by
    match a with
    | ⟨0, _⟩ =>
      show 0 ≤ scatter_S128x128_S1_S128x10_01_n_1_0.start j idx 0 + scatter_S128x128_S1_S128x10_01_n_1_0.window j 0
        ∧ scatter_S128x128_S1_S128x10_01_n_1_0.start j idx 0 + scatter_S128x128_S1_S128x10_01_n_1_0.window j 0 < ((128 : ℕ) : ℤ)
      rw [s0, w0]; omega
    | ⟨1, _⟩ =>
      show 0 ≤ scatter_S128x128_S1_S128x10_01_n_1_0.start j idx 1 + scatter_S128x128_S1_S128x10_01_n_1_0.window j 1
        ∧ scatter_S128x128_S1_S128x10_01_n_1_0.start j idx 1 + scatter_S128x128_S1_S128x10_01_n_1_0.window j 1 < ((128 : ℕ) : ℤ)
      rw [s1, w1]; omega
  unfold ScatterDims.resultIdx?
  rw [dif_pos hall]
  congr 1
  funext a
  apply Fin.ext
  match a with
  | ⟨0, _⟩ =>
    show (scatter_S128x128_S1_S128x10_01_n_1_0.start j idx 0 + scatter_S128x128_S1_S128x10_01_n_1_0.window j 0).toNat = (j 0).val
    rw [s0, w0]; omega
  | ⟨1, _⟩ =>
    show (scatter_S128x128_S1_S128x10_01_n_1_0.start j idx 1 + scatter_S128x128_S1_S128x10_01_n_1_0.window j 1).toNat = (j 1).val
    rw [s1, w1]; omega

theorem land_B (idx : IVec S2 32) (hidx : ∀ k, idx k = 0#32) (j : S10.Idx) :
    scatter_S1x128_S2_S10_0_0_01_0.resultIdx? j idx = some (landB j) := by
  have s0 : scatter_S1x128_S2_S10_0_0_01_0.start j idx 0 = 0 := by
    first | (simp [ScatterDims.start, scatter_S1x128_S2_S10_0_0_01_0, hidx]; done) | (unfold ScatterDims.start; rw [dif_pos (by decide), hidx]; rfl)
  have s1 : scatter_S1x128_S2_S10_0_0_01_0.start j idx 1 = 0 := by
    first | (simp [ScatterDims.start, scatter_S1x128_S2_S10_0_0_01_0, hidx]; done) | (unfold ScatterDims.start; rw [dif_pos (by decide), hidx]; rfl)
  have w0 : scatter_S1x128_S2_S10_0_0_01_0.window j 0 = 0 := by
    first | rfl | (simp [ScatterDims.window, scatter_S1x128_S2_S10_0_0_01_0]; done)
  have w1 : scatter_S1x128_S2_S10_0_0_01_0.window j 1 = (j 0).val := by
    first | rfl | (simp [ScatterDims.window, scatter_S1x128_S2_S10_0_0_01_0]; done)
  have h0 : (j 0).val < 10 := (j 0).isLt
  have hall : ∀ a, 0 ≤ scatter_S1x128_S2_S10_0_0_01_0.start j idx a + scatter_S1x128_S2_S10_0_0_01_0.window j a
      ∧ scatter_S1x128_S2_S10_0_0_01_0.start j idx a + scatter_S1x128_S2_S10_0_0_01_0.window j a < S1x128.size a := fun a => by
    match a with
    | ⟨0, _⟩ =>
      show 0 ≤ scatter_S1x128_S2_S10_0_0_01_0.start j idx 0 + scatter_S1x128_S2_S10_0_0_01_0.window j 0
        ∧ scatter_S1x128_S2_S10_0_0_01_0.start j idx 0 + scatter_S1x128_S2_S10_0_0_01_0.window j 0 < ((1 : ℕ) : ℤ)
      rw [s0, w0]; omega
    | ⟨1, _⟩ =>
      show 0 ≤ scatter_S1x128_S2_S10_0_0_01_0.start j idx 1 + scatter_S1x128_S2_S10_0_0_01_0.window j 1
        ∧ scatter_S1x128_S2_S10_0_0_01_0.start j idx 1 + scatter_S1x128_S2_S10_0_0_01_0.window j 1 < ((128 : ℕ) : ℤ)
      rw [s1, w1]; omega
  unfold ScatterDims.resultIdx?
  rw [dif_pos hall]
  congr 1
  funext a
  apply Fin.ext
  match a with
  | ⟨0, _⟩ =>
    show (scatter_S1x128_S2_S10_0_0_01_0.start j idx 0 + scatter_S1x128_S2_S10_0_0_01_0.window j 0).toNat = 0
    rw [s0, w0]; omega
  | ⟨1, _⟩ =>
    show (scatter_S1x128_S2_S10_0_0_01_0.start j idx 1 + scatter_S1x128_S2_S10_0_0_01_0.window j 1).toNat = (j 0).val
    rw [s1, w1]; omega

end PoolHost

open PoolHost

variable (W : Valuation τ sig (Elt Ideal))

theorem host4_ids (n : Fin 50000) :
    StableHlo.after hostOps4 W (Proc.devRef .tc main_call0_v102) (ix2 n (0 : Fin 1)) = W (Proc.devRef .tc main_arg3) (ix1 n) := by
  have e : StableHlo.after hostOps4 W (Proc.devRef .tc main_call0_v102)
      = shapeCast S50000x1 (W (Proc.devRef .tc main_arg3) : S50000.Idx → Elt Ideal .i32) shapeCasts_S50000_S50000x1 := by
    after_results; rfl
  refine (congrFun e (ix2 n (0 : Fin 1))).trans ?_
  refine shapeCast_apply _ _ (ix2 n (0 : Fin 1)) (ix1 n) ?_
  rw [Shape.rowMajor_val_one, Shape.rowMajor_val_two]
  show n.val = n.val * 1 + 0
  omega

theorem host4_feats : StableHlo.after hostOps4 W (Proc.devRef .tc main_call0_v101) = W (Proc.devRef .tc main_call0_v101) :=
  StableHlo.after_of_writes_sub hostOps4 W hostOps4_writes (by decide)

theorem host4_weights_pad (k : Fin 128) (j : Fin 128) :
    (StableHlo.after hostOps4 W (Proc.devRef .tc main_call0_v105) : S128x128.Idx → Elt Ideal .f32) (ix2 k j)
      = if h : j.val < 10 then (W (Proc.devRef .tc main_arg12) : S128x10.Idx → Elt Ideal .f32) (ix2 k ⟨j.val, h⟩) else (0 : EReal) := by
  have e : StableHlo.after hostOps4 W (Proc.devRef .tc main_call0_v105)
      = Host.scatter scatter_S128x128_S1_S128x10_01_n_1_0 (fun _ b => b)
          (broadcastInDim S128x128 ![] bcast_S_S128x128 (constant (F := Ideal) S_ .f32 0x00000000#32))
          (broadcastInDim S1 ![] bcast_S_S1 (constantI S_ 32 0#32))
          (W (Proc.devRef .tc main_arg12) : S128x10.Idx → Elt Ideal .f32) := by
    after_results; simp only [TRef.ofBuf, TRef.toBuf, cast_eq]
  refine (congrFun e (ix2 k j)).trans ?_
  have hidx : ∀ i, (broadcastInDim S1 ![] bcast_S_S1 (constantI S_ 32 0#32) : IVec S1 32) i = 0#32 := fun _ => rfl
  by_cases h : j.val < 10
  · rw [dif_pos h]
    exact scatter_set_hit scatter_S128x128_S1_S128x10_01_n_1_0 _ _ (W (Proc.devRef .tc main_arg12) : S128x10.Idx → Elt Ideal .f32)
      landW (land_W _ hidx) landW_inj (ix2 k ⟨j.val, h⟩)
  · rw [dif_neg h]
    refine (scatter_set_miss scatter_S128x128_S1_S128x10_01_n_1_0 _ _ _ landW (land_W _ hidx) (ix2 k j) (fun j' e => h ?_)).trans ?_
    · have e1 : (j' 1).val = j.val := congrArg (fun i : S128x128.Idx => (i 1).val) e
      have : (j' 1).val < 10 := (j' 1).isLt
      omega
    · show Ideal.ofBits .f32 0x00000000#32 = (0 : EReal)
      exact Ideal.ofBits_zero_f32

theorem host4_bias_pad (j : Fin 128) :
    (StableHlo.after hostOps4 W (Proc.devRef .tc main_call0_v110) : S1x128.Idx → Elt Ideal .f32) (ix2 (0 : Fin 1) j)
      = if h : j.val < 10 then (W (Proc.devRef .tc main_arg13) : S10.Idx → Elt Ideal .f32) (ix1 ⟨j.val, h⟩) else (0 : EReal) := by
  have e : StableHlo.after hostOps4 W (Proc.devRef .tc main_call0_v110)
      = Host.scatter scatter_S1x128_S2_S10_0_0_01_0 (fun _ b => b)
          (broadcastInDim S1x128 ![] bcast_S_S1x128 (constant (F := Ideal) S_ .f32 0x00000000#32))
          (concatenate S2 0 [⟨S1, broadcastInDim S1 ![] bcast_S_S1 (constantI S_ 32 0#32)⟩, ⟨S1, broadcastInDim S1 ![] bcast_S_S1 (constantI S_ 32 0#32)⟩] concatenates_S1_S1_S2_d0)
          (W (Proc.devRef .tc main_arg13) : S10.Idx → Elt Ideal .f32) := by
    after_results; simp only [TRef.ofBuf, TRef.toBuf, cast_eq]
  refine (congrFun e (ix2 (0 : Fin 1) j)).trans ?_
  have hidx : ∀ i, (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) i = 0#32 :=
    fun i => concatenate_const _ _ _ (0#32) (fun p hp i' => by
      simp only [List.mem_cons, List.mem_nil_iff, or_false] at hp
      rcases hp with rfl | rfl <;> rfl) i
  by_cases h : j.val < 10
  · rw [dif_pos h]
    exact scatter_set_hit scatter_S1x128_S2_S10_0_0_01_0 _ _ (W (Proc.devRef .tc main_arg13) : S10.Idx → Elt Ideal .f32)
      landB (land_B _ hidx) landB_inj (ix1 ⟨j.val, h⟩)
  · rw [dif_neg h]
    refine (scatter_set_miss scatter_S1x128_S2_S10_0_0_01_0 _ _ _ landB (land_B _ hidx) (ix2 (0 : Fin 1) j) (fun j' e => h ?_)).trans ?_
    · have e1 : (j' 0).val = j.val := congrArg (fun i : S1x128.Idx => (i 1).val) e
      have : (j' 0).val < 10 := (j' 0).isLt
      omega
    · show Ideal.ofBits .f32 0x00000000#32 = (0 : EReal)
      exact Ideal.ofBits_zero_f32

theorem host4_weights (k : Fin 128) (j : Fin 10) :
    StableHlo.after hostOps4 W (Proc.devRef .tc main_call0_v105) (ix2 k (⟨j.val, by have := j.isLt; omega⟩ : Fin 128))
      = W (Proc.devRef .tc main_arg12) (ix2 k j) :=
  (host4_weights_pad W k ⟨j.val, by have := j.isLt; omega⟩).trans (dif_pos j.isLt)

theorem host4_bias (j : Fin 10) :
    StableHlo.after hostOps4 W (Proc.devRef .tc main_call0_v110) (ix2 (0 : Fin 1) (⟨j.val, by have := j.isLt; omega⟩ : Fin 128))
      = W (Proc.devRef .tc main_arg13) (ix1 j) :=
  (host4_bias_pad W ⟨j.val, by have := j.isLt; omega⟩).trans (dif_pos j.isLt)

end Cert.KernelIdeal.Val

end
-- ==== Proof.Val.PoolHost5.lean ====
import proofs.«422796_j77979426226619_2_alg».proof.Proof.Gen.KernelIdeal.Launch
import proofs.«422796_j77979426226619_2_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.Val

open Cert.KernelIdeal Cert.KernelIdeal.Gen
open Idealize.ShloMosaic Idealize.ShloMosaic.TcCoe Idealize.SL.Sem Idealize.ShloMosaic.StableHlo
open Idealize.ShloMosaic.ValueIdx

variable (W : Valuation τ sig (Elt Ideal))

theorem host5_means_eq :
    StableHlo.after hostOps5 W (Proc.devRef .tc main_v0_1)
      = extractStridedSlice S500x128 ![0, 0] (W (Proc.devRef .tc main_call0_v111_0)) slices_S512x128_S500x128_0_0 := by
  show StableHlo.after hostOps5 W (Proc.devRef .tc main_v0_1) = _
  after_results
  rfl

theorem host5_scores_eq :
    StableHlo.after hostOps5 W (Proc.devRef .tc main_v0_0)
      = extractStridedSlice S500x10 ![0, 0] (W (Proc.devRef .tc main_call0_v111_1)) slices_S512x128_S500x10_0_0 := by
  show StableHlo.after hostOps5 W (Proc.devRef .tc main_v0_0) = _
  after_results
  rfl

theorem host5_means (g : Fin 500) (d : Fin 128) :
    StableHlo.after hostOps5 W (Proc.devRef .tc main_v0_1) (ix2 g d)
      = W (Proc.devRef .tc main_call0_v111_0) (ix2 (⟨g.val, by have := g.isLt; omega⟩ : Fin 512) d) := by
  rw [host5_means_eq]
  exact extractStridedSlice_apply ![0, 0] (W (Proc.devRef .tc main_call0_v111_0)) slices_S512x128_S500x128_0_0 (ix2 g d)
    (ix2 (⟨g.val, by have := g.isLt; omega⟩ : Fin 512) d) (fun a => match a with
      | ⟨0, _⟩ => by show g.val = 0 + g.val; omega
      | ⟨1, _⟩ => by show d.val = 0 + d.val; omega)

theorem host5_scores (g : Fin 500) (j : Fin 10) :
    StableHlo.after hostOps5 W (Proc.devRef .tc main_v0_0) (ix2 g j)
      = W (Proc.devRef .tc main_call0_v111_1)
          (ix2 (⟨g.val, by have := g.isLt; omega⟩ : Fin 512) (⟨j.val, by have := j.isLt; omega⟩ : Fin 128)) := by
  rw [host5_scores_eq]
  exact extractStridedSlice_apply ![0, 0] (W (Proc.devRef .tc main_call0_v111_1)) slices_S512x128_S500x10_0_0 (ix2 g j)
    (ix2 (⟨g.val, by have := g.isLt; omega⟩ : Fin 512) (⟨j.val, by have := j.isLt; omega⟩ : Fin 128)) (fun a => match a with
      | ⟨0, _⟩ => by show g.val = 0 + g.val; omega
      | ⟨1, _⟩ => by show j.val = 0 + j.val; omega)

end Cert.KernelIdeal.Val

end
-- ==== Proof.Val.PoolVal.lean ====
import proofs.«422796_j77979426226619_2_alg».proof.Proof.KI.Run
import proofs.«422796_j77979426226619_2_alg».proof.Proof.Val.Spec
import proofs.«422796_j77979426226619_2_alg».proof.Proof.Val.PoolJoin
import proofs.«422796_j77979426226619_2_alg».proof.Proof.Val.PoolHost
import proofs.«422796_j77979426226619_2_alg».proof.Proof.Val.PoolHost5

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (m : (ℓ : Loc nD τ sig) → Buf (Elt Ideal) ℓ) (ρ : Dev nD → PrngReg)

theorem poolReads (c : Dev nD) : PoolReads m ρ c where
  ids := fun n => (host4_ids (bd8 (F := Ideal) m ρ c) n).trans (congrFun (bd8_arg3 m ρ c) (ix1 n))
  feats := host4_feats (bd8 (F := Ideal) m ρ c)
  weights := fun k j => (host4_weights (bd8 (F := Ideal) m ρ c) k j).trans (congrFun (bd8_arg12 m ρ c) (ix2 k j))
  bias := fun j => (host4_bias (bd8 (F := Ideal) m ρ c) j).trans (congrFun (bd8_arg13 m ρ c) (ix1 j))
  means := fun g d => host5_means (bd10 (F := Ideal) m ρ c) g d
  scores := fun g j => host5_scores (bd10 (F := Ideal) m ρ c) g j

theorem pool_hg_value (c : Dev nD) (g : Fin 500) (d : Fin 128) :
    pool_hg (bv9 (F := Ideal) m ρ) c (ix2 (⟨g.val, by have := g.isLt; omega⟩ : Fin 512) d)
      = Cert.Spec.poolHg (F := Ideal) (bd8 (F := Ideal) m ρ c (Proc.devRef .tc main_call0_v101))
          (m ((c : Thread nD τ).loc main_arg3)) (ix2 g d) :=
  pool_hg_point m ρ c (poolReads m ρ c) g d

theorem pool_means (c : Dev nD) :
    bd11 (F := Ideal) m ρ c (Proc.devRef .tc main_v0_1)
      = Cert.Spec.poolHg (F := Ideal) (bd8 (F := Ideal) m ρ c (Proc.devRef .tc main_call0_v101)) (m ((c : Thread nD τ).loc main_arg3)) :=
  pool_means_of m ρ c (poolReads m ρ c)

theorem pool_scores (c : Dev nD) :
    bd11 (F := Ideal) m ρ c (Proc.devRef .tc main_v0_0)
      = Cert.Spec.classify (F := Ideal)
          (Cert.Spec.poolHg (F := Ideal) (bd8 (F := Ideal) m ρ c (Proc.devRef .tc main_call0_v101)) (m ((c : Thread nD τ).loc main_arg3)))
          (m ((c : Thread nD τ).loc main_arg12)) (m ((c : Thread nD τ).loc main_arg13)) :=
  pool_scores_of m ρ c (poolReads m ρ c)

end Cert.KernelIdeal.Val

end
-- ==== Proof.Val.Final.lean ====
import proofs.«422796_j77979426226619_2_alg».proof.Proof.KI.Run
import proofs.«422796_j77979426226619_2_alg».proof.Proof.Val.Spec
import proofs.«422796_j77979426226619_2_alg».proof.Proof.Val.Host
import proofs.«422796_j77979426226619_2_alg».proof.Proof.Val.LinVal0
import proofs.«422796_j77979426226619_2_alg».proof.Proof.Val.LinVal1
import proofs.«422796_j77979426226619_2_alg».proof.Proof.Val.LinVal2
import proofs.«422796_j77979426226619_2_alg».proof.Proof.Val.LinVal3
import proofs.«422796_j77979426226619_2_alg».proof.Proof.Val.PoolVal

noncomputable section

namespace Cert.KernelIdeal.Val

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

theorem keep1 (c : Dev nD) (r : Ref sig .tc) (h0 : r ∉ hostOps0_W) :
    bd1 (F := Ideal) m ρ c (Proc.devRef .tc r) = m ((c : Thread nD τ).loc r) :=
  (bd1_keep m ρ c r h0).trans rfl
theorem keep2 (c : Dev nD) (r : Ref sig .tc) (k0 : ∀ w, Pipeline.arrRef spec0 w ≠ r) :
    bd2 (F := Ideal) m ρ c (Proc.devRef .tc r) = bd1 m ρ c (Proc.devRef .tc r) := bd2_of_ne m ρ c r k0
theorem keep3 (c : Dev nD) (r : Ref sig .tc) (k0 : ∀ w, Pipeline.arrRef spec0 w ≠ r) (h1 : r ∉ hostOps1_W) :
    bd3 (F := Ideal) m ρ c (Proc.devRef .tc r) = bd1 m ρ c (Proc.devRef .tc r) := (bd3_keep m ρ c r h1).trans (keep2 m ρ c r k0)
theorem keep4 (c : Dev nD) (r : Ref sig .tc) (k0 : ∀ w, Pipeline.arrRef spec0 w ≠ r) (h1 : r ∉ hostOps1_W) (k1 : ∀ w, Pipeline.arrRef spec1 w ≠ r) :
    bd4 (F := Ideal) m ρ c (Proc.devRef .tc r) = bd1 m ρ c (Proc.devRef .tc r) := (bd4_of_ne m ρ c r k1).trans (keep3 m ρ c r k0 h1)
theorem keep5 (c : Dev nD) (r : Ref sig .tc) (k0 : ∀ w, Pipeline.arrRef spec0 w ≠ r) (h1 : r ∉ hostOps1_W) (k1 : ∀ w, Pipeline.arrRef spec1 w ≠ r)
    (h2 : r ∉ hostOps2_W) : bd5 (F := Ideal) m ρ c (Proc.devRef .tc r) = bd1 m ρ c (Proc.devRef .tc r) :=
  (bd5_keep m ρ c r h2).trans (keep4 m ρ c r k0 h1 k1)
theorem keep6 (c : Dev nD) (r : Ref sig .tc) (k0 : ∀ w, Pipeline.arrRef spec0 w ≠ r) (h1 : r ∉ hostOps1_W) (k1 : ∀ w, Pipeline.arrRef spec1 w ≠ r)
    (h2 : r ∉ hostOps2_W) (k2 : ∀ w, Pipeline.arrRef spec2 w ≠ r) : bd6 (F := Ideal) m ρ c (Proc.devRef .tc r) = bd1 m ρ c (Proc.devRef .tc r) :=
  (bd6_of_ne m ρ c r k2).trans (keep5 m ρ c r k0 h1 k1 h2)
theorem keep7 (c : Dev nD) (r : Ref sig .tc) (k0 : ∀ w, Pipeline.arrRef spec0 w ≠ r) (h1 : r ∉ hostOps1_W) (k1 : ∀ w, Pipeline.arrRef spec1 w ≠ r)
    (h2 : r ∉ hostOps2_W) (k2 : ∀ w, Pipeline.arrRef spec2 w ≠ r) (h3 : r ∉ hostOps3_W) :
    bd7 (F := Ideal) m ρ c (Proc.devRef .tc r) = bd1 m ρ c (Proc.devRef .tc r) :=
  (bd7_keep m ρ c r h3).trans (keep6 m ρ c r k0 h1 k1 h2 k2)

theorem normSrc1 (c : Dev nD) : bd1 (F := Ideal) m ρ c (Proc.devRef .tc main_call0_v12)
    = Cert.Spec.degNorm (F := Ideal) (m ((c : Thread nD τ).loc main_arg1)) := host0_normSrc (bd0 m ρ c)
theorem normDst1 (c : Dev nD) : bd1 (F := Ideal) m ρ c (Proc.devRef .tc main_call0_v18)
    = Cert.Spec.degNorm (F := Ideal) (m ((c : Thread nD τ).loc main_arg2)) := host0_normDst (bd0 m ρ c)

theorem feats1 (c : Dev nD) : bd2 (F := Ideal) m ρ c (Proc.devRef .tc main_call0_v38)
    = Cert.Spec.layer (F := Ideal) (m ((c : Thread nD τ).loc main_arg0)) (Cert.Spec.degNorm (F := Ideal) (m ((c : Thread nD τ).loc main_arg1)))
        (Cert.Spec.degNorm (F := Ideal) (m ((c : Thread nD τ).loc main_arg2))) (m ((c : Thread nD τ).loc main_arg1)) (m ((c : Thread nD τ).loc main_arg2))
        (m ((c : Thread nD τ).loc main_arg4)) (m ((c : Thread nD τ).loc main_arg5)) := by
  have h1 : bd2 (F := Ideal) m ρ c (Proc.devRef .tc main_call0_v38) = (lin0_dat (bv1 m ρ) c).arrAt 3 cfg0.N := bd2_arr m ρ c 3
  have e0 : bv1 (F := Ideal) m ρ c (Pipeline.arrRef spec0 0)
      = Cert.Spec.agg (F := Ideal) (m ((c : Thread nD τ).loc main_arg0)) (Cert.Spec.degNorm (F := Ideal) (m ((c : Thread nD τ).loc main_arg1)))
          (Cert.Spec.degNorm (F := Ideal) (m ((c : Thread nD τ).loc main_arg2))) (m ((c : Thread nD τ).loc main_arg1)) (m ((c : Thread nD τ).loc main_arg2)) :=
    host0_agg (bd0 m ρ c)
  have e1 : bv1 (F := Ideal) m ρ c (Pipeline.arrRef spec0 1) = m ((c : Thread nD τ).loc main_arg4) := keep1 m ρ c main_arg4 (by decide)
  have e2 : bv1 (F := Ideal) m ρ c (Pipeline.arrRef spec0 2) = Cert.Spec.biasRow (F := Ideal) (m ((c : Thread nD τ).loc main_arg5)) :=
    host0_bias (bd0 m ρ c)
  rw [h1, lin0_value (bv1 m ρ) c, e0, e1, e2]
  rfl

theorem feats2 (c : Dev nD) : bd4 (F := Ideal) m ρ c (Proc.devRef .tc main_call0_v59)
    = Cert.Spec.layer (F := Ideal) (bd2 (F := Ideal) m ρ c (Proc.devRef .tc main_call0_v38)) (Cert.Spec.degNorm (F := Ideal) (m ((c : Thread nD τ).loc main_arg1)))
        (Cert.Spec.degNorm (F := Ideal) (m ((c : Thread nD τ).loc main_arg2))) (m ((c : Thread nD τ).loc main_arg1)) (m ((c : Thread nD τ).loc main_arg2))
        (m ((c : Thread nD τ).loc main_arg6)) (m ((c : Thread nD τ).loc main_arg7)) := by
  have h1 : bd4 (F := Ideal) m ρ c (Proc.devRef .tc main_call0_v59) = (lin1_dat (bv3 m ρ) c).arrAt 3 cfg1.N := bd4_arr m ρ c 3
  have n1 : bd2 (F := Ideal) m ρ c (Proc.devRef .tc main_call0_v12) = Cert.Spec.degNorm (F := Ideal) (m ((c : Thread nD τ).loc main_arg1)) :=
    (keep2 m ρ c main_call0_v12 (by decide)).trans (normSrc1 m ρ c)
  have n2 : bd2 (F := Ideal) m ρ c (Proc.devRef .tc main_call0_v18) = Cert.Spec.degNorm (F := Ideal) (m ((c : Thread nD τ).loc main_arg2)) :=
    (keep2 m ρ c main_call0_v18 (by decide)).trans (normDst1 m ρ c)
  have a1 : bd2 (F := Ideal) m ρ c (Proc.devRef .tc main_arg1) = m ((c : Thread nD τ).loc main_arg1) :=
    (keep2 m ρ c main_arg1 (by decide)).trans (keep1 m ρ c main_arg1 (by decide))
  have a2 : bd2 (F := Ideal) m ρ c (Proc.devRef .tc main_arg2) = m ((c : Thread nD τ).loc main_arg2) :=
    (keep2 m ρ c main_arg2 (by decide)).trans (keep1 m ρ c main_arg2 (by decide))
  have a7 : bd2 (F := Ideal) m ρ c (Proc.devRef .tc main_arg7) = m ((c : Thread nD τ).loc main_arg7) :=
    (keep2 m ρ c main_arg7 (by decide)).trans (keep1 m ρ c main_arg7 (by decide))
  have e0 : bv3 (F := Ideal) m ρ c (Pipeline.arrRef spec1 0)
      = Cert.Spec.agg (F := Ideal) (bd2 (F := Ideal) m ρ c (Proc.devRef .tc main_call0_v38)) (bd2 (F := Ideal) m ρ c (Proc.devRef .tc main_call0_v12))
          (bd2 (F := Ideal) m ρ c (Proc.devRef .tc main_call0_v18)) (bd2 (F := Ideal) m ρ c (Proc.devRef .tc main_arg1)) (bd2 (F := Ideal) m ρ c (Proc.devRef .tc main_arg2)) :=
    host1_agg (bd2 m ρ c)
  have e1 : bv3 (F := Ideal) m ρ c (Pipeline.arrRef spec1 1) = m ((c : Thread nD τ).loc main_arg6) :=
    (keep3 m ρ c main_arg6 (by decide) (by decide)).trans (keep1 m ρ c main_arg6 (by decide))
  have e2 : bv3 (F := Ideal) m ρ c (Pipeline.arrRef spec1 2) = Cert.Spec.biasRow (F := Ideal) (bd2 (F := Ideal) m ρ c (Proc.devRef .tc main_arg7)) :=
    host1_bias (bd2 m ρ c)
  rw [h1, lin1_value (bv3 m ρ) c, e0, e1, e2, n1, n2, a1, a2, a7]
  rfl

theorem feats3 (c : Dev nD) : bd6 (F := Ideal) m ρ c (Proc.devRef .tc main_call0_v80)
    = Cert.Spec.layer (F := Ideal) (bd4 (F := Ideal) m ρ c (Proc.devRef .tc main_call0_v59)) (Cert.Spec.degNorm (F := Ideal) (m ((c : Thread nD τ).loc main_arg1)))
        (Cert.Spec.degNorm (F := Ideal) (m ((c : Thread nD τ).loc main_arg2))) (m ((c : Thread nD τ).loc main_arg1)) (m ((c : Thread nD τ).loc main_arg2))
        (m ((c : Thread nD τ).loc main_arg8)) (m ((c : Thread nD τ).loc main_arg9)) := by
  have h1 : bd6 (F := Ideal) m ρ c (Proc.devRef .tc main_call0_v80) = (lin2_dat (bv5 m ρ) c).arrAt 3 cfg2.N := bd6_arr m ρ c 3
  have n1 : bd4 (F := Ideal) m ρ c (Proc.devRef .tc main_call0_v12) = Cert.Spec.degNorm (F := Ideal) (m ((c : Thread nD τ).loc main_arg1)) :=
    (keep4 m ρ c main_call0_v12 (by decide) (by decide) (by decide)).trans (normSrc1 m ρ c)
  have n2 : bd4 (F := Ideal) m ρ c (Proc.devRef .tc main_call0_v18) = Cert.Spec.degNorm (F := Ideal) (m ((c : Thread nD τ).loc main_arg2)) :=
    (keep4 m ρ c main_call0_v18 (by decide) (by decide) (by decide)).trans (normDst1 m ρ c)
  have a1 : bd4 (F := Ideal) m ρ c (Proc.devRef .tc main_arg1) = m ((c : Thread nD τ).loc main_arg1) :=
    (keep4 m ρ c main_arg1 (by decide) (by decide) (by decide)).trans (keep1 m ρ c main_arg1 (by decide))
  have a2 : bd4 (F := Ideal) m ρ c (Proc.devRef .tc main_arg2) = m ((c : Thread nD τ).loc main_arg2) :=
    (keep4 m ρ c main_arg2 (by decide) (by decide) (by decide)).trans (keep1 m ρ c main_arg2 (by decide))
  have a9 : bd4 (F := Ideal) m ρ c (Proc.devRef .tc main_arg9) = m ((c : Thread nD τ).loc main_arg9) :=
    (keep4 m ρ c main_arg9 (by decide) (by decide) (by decide)).trans (keep1 m ρ c main_arg9 (by decide))
  have e0 : bv5 (F := Ideal) m ρ c (Pipeline.arrRef spec2 0)
      = Cert.Spec.agg (F := Ideal) (bd4 (F := Ideal) m ρ c (Proc.devRef .tc main_call0_v59)) (bd4 (F := Ideal) m ρ c (Proc.devRef .tc main_call0_v12))
          (bd4 (F := Ideal) m ρ c (Proc.devRef .tc main_call0_v18)) (bd4 (F := Ideal) m ρ c (Proc.devRef .tc main_arg1)) (bd4 (F := Ideal) m ρ c (Proc.devRef .tc main_arg2)) :=
    host2_agg (bd4 m ρ c)
  have e1 : bv5 (F := Ideal) m ρ c (Pipeline.arrRef spec2 1) = m ((c : Thread nD τ).loc main_arg8) :=
    (keep5 m ρ c main_arg8 (by decide) (by decide) (by decide) (by decide)).trans (keep1 m ρ c main_arg8 (by decide))
  have e2 : bv5 (F := Ideal) m ρ c (Pipeline.arrRef spec2 2) = Cert.Spec.biasRow (F := Ideal) (bd4 (F := Ideal) m ρ c (Proc.devRef .tc main_arg9)) :=
    host2_bias (bd4 m ρ c)
  rw [h1, lin2_value (bv5 m ρ) c, e0, e1, e2, n1, n2, a1, a2, a9]
  rfl

theorem feats4 (c : Dev nD) : bd8 (F := Ideal) m ρ c (Proc.devRef .tc main_call0_v101)
    = Cert.Spec.layer (F := Ideal) (bd6 (F := Ideal) m ρ c (Proc.devRef .tc main_call0_v80)) (Cert.Spec.degNorm (F := Ideal) (m ((c : Thread nD τ).loc main_arg1)))
        (Cert.Spec.degNorm (F := Ideal) (m ((c : Thread nD τ).loc main_arg2))) (m ((c : Thread nD τ).loc main_arg1)) (m ((c : Thread nD τ).loc main_arg2))
        (m ((c : Thread nD τ).loc main_arg10)) (m ((c : Thread nD τ).loc main_arg11)) := by
  have h1 : bd8 (F := Ideal) m ρ c (Proc.devRef .tc main_call0_v101) = (lin3_dat (bv7 m ρ) c).arrAt 3 cfg3.N := bd8_arr m ρ c 3
  have n1 : bd6 (F := Ideal) m ρ c (Proc.devRef .tc main_call0_v12) = Cert.Spec.degNorm (F := Ideal) (m ((c : Thread nD τ).loc main_arg1)) :=
    (keep6 m ρ c main_call0_v12 (by decide) (by decide) (by decide) (by decide) (by decide)).trans (normSrc1 m ρ c)
  have n2 : bd6 (F := Ideal) m ρ c (Proc.devRef .tc main_call0_v18) = Cert.Spec.degNorm (F := Ideal) (m ((c : Thread nD τ).loc main_arg2)) :=
    (keep6 m ρ c main_call0_v18 (by decide) (by decide) (by decide) (by decide) (by decide)).trans (normDst1 m ρ c)
  have a1 : bd6 (F := Ideal) m ρ c (Proc.devRef .tc main_arg1) = m ((c : Thread nD τ).loc main_arg1) :=
    (keep6 m ρ c main_arg1 (by decide) (by decide) (by decide) (by decide) (by decide)).trans (keep1 m ρ c main_arg1 (by decide))
  have a2 : bd6 (F := Ideal) m ρ c (Proc.devRef .tc main_arg2) = m ((c : Thread nD τ).loc main_arg2) :=
    (keep6 m ρ c main_arg2 (by decide) (by decide) (by decide) (by decide) (by decide)).trans (keep1 m ρ c main_arg2 (by decide))
  have a11 : bd6 (F := Ideal) m ρ c (Proc.devRef .tc main_arg11) = m ((c : Thread nD τ).loc main_arg11) :=
    (keep6 m ρ c main_arg11 (by decide) (by decide) (by decide) (by decide) (by decide)).trans (keep1 m ρ c main_arg11 (by decide))
  have e0 : bv7 (F := Ideal) m ρ c (Pipeline.arrRef spec3 0)
      = Cert.Spec.agg (F := Ideal) (bd6 (F := Ideal) m ρ c (Proc.devRef .tc main_call0_v80)) (bd6 (F := Ideal) m ρ c (Proc.devRef .tc main_call0_v12))
          (bd6 (F := Ideal) m ρ c (Proc.devRef .tc main_call0_v18)) (bd6 (F := Ideal) m ρ c (Proc.devRef .tc main_arg1)) (bd6 (F := Ideal) m ρ c (Proc.devRef .tc main_arg2)) :=
    host3_agg (bd6 m ρ c)
  have e1 : bv7 (F := Ideal) m ρ c (Pipeline.arrRef spec3 1) = m ((c : Thread nD τ).loc main_arg10) :=
    (keep7 m ρ c main_arg10 (by decide) (by decide) (by decide) (by decide) (by decide) (by decide)).trans (keep1 m ρ c main_arg10 (by decide))
  have e2 : bv7 (F := Ideal) m ρ c (Pipeline.arrRef spec3 2) = Cert.Spec.biasRow (F := Ideal) (bd6 (F := Ideal) m ρ c (Proc.devRef .tc main_arg11)) :=
    host3_bias (bd6 m ρ c)
  rw [h1, lin3_value (bv7 m ρ) c, e0, e1, e2, n1, n2, a1, a2, a11]
  rfl

theorem feats_all (c : Dev nD) : bd8 (F := Ideal) m ρ c (Proc.devRef .tc main_call0_v101)
    = Cert.Spec.feats (F := Ideal) (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) := by
  unfold Cert.Spec.feats
  rw [feats4 m ρ c, feats3 m ρ c, feats2 m ρ c, feats1 m ρ c]

theorem kernel_means (c : Dev nD) : bd11 (F := Ideal) m ρ c (Proc.devRef .tc main_v0_1)
    = Cert.Spec.poolHg (F := Ideal) (Cert.Spec.feats (F := Ideal) (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)))
        (m ((c : Thread nD τ).loc main_arg3)) := by
  rw [← feats_all m ρ c]; exact pool_means m ρ c

theorem kernel_scores (c : Dev nD) : bd11 (F := Ideal) m ρ c (Proc.devRef .tc main_v0_0)
    = Cert.Spec.classify (F := Ideal) (Cert.Spec.poolHg (F := Ideal) (Cert.Spec.feats (F := Ideal) (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)))
        (m ((c : Thread nD τ).loc main_arg3))) (m ((c : Thread nD τ).loc main_arg12)) (m ((c : Thread nD τ).loc main_arg13)) := by
  rw [← feats_all m ρ c]; exact pool_scores m ρ c

end Cert.KernelIdeal.Val

end
-- ==== Proof.lean ====
import proofs.«422796_j77979426226619_2_alg».proof.Defs
import proofs.«422796_j77979426226619_2_alg».proof.Proof.Gen.Kernel
import proofs.«422796_j77979426226619_2_alg».proof.Proof.Gen.KernelIdeal
import proofs.«422796_j77979426226619_2_alg».proof.Proof.Gen.ReferenceIdeal
import proofs.«422796_j77979426226619_2_alg».proof.Proof.Gen.Pre_finite_inputs
import proofs.«422796_j77979426226619_2_alg».proof.Proof.KB.Run
import proofs.«422796_j77979426226619_2_alg».proof.Proof.KI.Run
import proofs.«422796_j77979426226619_2_alg».proof.Proof.RefRun
import proofs.«422796_j77979426226619_2_alg».proof.Proof.RefRead
import proofs.«422796_j77979426226619_2_alg».proof.Proof.Val.RefSpec
import proofs.«422796_j77979426226619_2_alg».proof.Proof.Val.Final
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Hand.frame (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueP.run (F := Ideal) m ρ)

theorem preserves : Cert.preserves_Kernel_KernelIdeal :=
  IdealRules.truncf_extf.statement Cert.KernelIdeal.S2000x512 .f32 .bf16

abbrev specMeans (m : (ℓ : Loc Cert.KernelIdeal.nD Cert.KernelIdeal.τ Cert.KernelIdeal.sig) → Buf (Elt Ideal) ℓ) (c : Dev Cert.KernelIdeal.nD) :=
  Cert.Spec.poolHg (F := Ideal) (Cert.Spec.feats (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11)))
    (m ((c.tc : Thread Cert.KernelIdeal.nD Cert.KernelIdeal.τ).loc Cert.KernelIdeal.main_arg3))
abbrev specScores (m : (ℓ : Loc Cert.KernelIdeal.nD Cert.KernelIdeal.τ Cert.KernelIdeal.sig) → Buf (Elt Ideal) ℓ) (c : Dev Cert.KernelIdeal.nD) :=
  Cert.Spec.classify (F := Ideal) (specMeans m c)
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => specScores m c, fun c => specMeans m c, ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v0_0 (by decide))).trans (Cert.KernelIdeal.Val.kernel_scores m ρ c),
      (h c _ (Cert.KernelIdeal.Hand.mem_uc Cert.KernelIdeal.main_v0_1 (by decide))).trans (Cert.KernelIdeal.Val.kernel_means m ρ c),
      (h c _ (Cert.KernelIdeal.Hand.mem_uc Cert.KernelIdeal.main_arg0 (by decide))).trans (Cert.KernelIdeal.Hand.bd11_arg0 m ρ c),
      (h c _ (Cert.KernelIdeal.Hand.mem_uc Cert.KernelIdeal.main_arg1 (by decide))).trans (Cert.KernelIdeal.Hand.bd11_arg1 m ρ c),
      (h c _ (Cert.KernelIdeal.Hand.mem_uc Cert.KernelIdeal.main_arg2 (by decide))).trans (Cert.KernelIdeal.Hand.bd11_arg2 m ρ c),
      (h c _ (Cert.KernelIdeal.Hand.mem_uc Cert.KernelIdeal.main_arg3 (by decide))).trans (Cert.KernelIdeal.Hand.bd11_arg3 m ρ c),
      (h c _ (Cert.KernelIdeal.Hand.mem_uc Cert.KernelIdeal.main_arg4 (by decide))).trans (Cert.KernelIdeal.Hand.bd11_arg4 m ρ c),
      (h c _ (Cert.KernelIdeal.Hand.mem_uc Cert.KernelIdeal.main_arg5 (by decide))).trans (Cert.KernelIdeal.Hand.bd11_arg5 m ρ c),
      (h c _ (Cert.KernelIdeal.Hand.mem_uc Cert.KernelIdeal.main_arg6 (by decide))).trans (Cert.KernelIdeal.Hand.bd11_arg6 m ρ c),
      (h c _ (Cert.KernelIdeal.Hand.mem_uc Cert.KernelIdeal.main_arg7 (by decide))).trans (Cert.KernelIdeal.Hand.bd11_arg7 m ρ c),
      (h c _ (Cert.KernelIdeal.Hand.mem_uc Cert.KernelIdeal.main_arg8 (by decide))).trans (Cert.KernelIdeal.Hand.bd11_arg8 m ρ c),
      (h c _ (Cert.KernelIdeal.Hand.mem_uc Cert.KernelIdeal.main_arg9 (by decide))).trans (Cert.KernelIdeal.Hand.bd11_arg9 m ρ c),
      (h c _ (Cert.KernelIdeal.Hand.mem_uc Cert.KernelIdeal.main_arg10 (by decide))).trans (Cert.KernelIdeal.Hand.bd11_arg10 m ρ c),
      (h c _ (Cert.KernelIdeal.Hand.mem_uc Cert.KernelIdeal.main_arg11 (by decide))).trans (Cert.KernelIdeal.Hand.bd11_arg11 m ρ c),
      (h c _ (Cert.KernelIdeal.Hand.mem_uc Cert.KernelIdeal.main_arg12 (by decide))).trans (Cert.KernelIdeal.Hand.bd11_arg12 m ρ c),
      (h c _ (Cert.KernelIdeal.Hand.mem_uc Cert.KernelIdeal.main_arg13 (by decide))).trans (Cert.KernelIdeal.Hand.bd11_arg13 m ρ c)⟩
  · refine (θ_run Cert.ReferenceIdeal.defs _ _).mono (fun r h c => ?_) (Cert.ReferenceIdeal.ValueP.run (F := Ideal) m' ρ')
    obtain ⟨e0, e1, e2, e3, e4, e5, e6, e7, e8, e9, e10, e11, e12, e13⟩ := hagree c
    refine ⟨?_, ?_, (h c).2.2⟩
    · rw [(h c).1, Cert.ReferenceIdeal.ReadP.val_main_v118_eq, Cert.ReferenceIdeal.RefSide.ref_scores, e0, e1, e2, e3, e4, e5, e6, e7, e8, e9, e10, e11, e12, e13]
    · rw [(h c).2.1, Cert.ReferenceIdeal.ReadP.val_main_v114_eq, Cert.ReferenceIdeal.RefSide.ref_means, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
